-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S20096x128 .f32 .bf16
  ∧ IdealRules.truncf_extf.Statement Cert.KernelIdeal.S128x128 .f32 .bf16
  ∧ IdealRules.truncf_extf.Statement Cert.KernelIdeal.S20096x128 .f32 .bf16
  ∧ IdealRules.truncf_extf.Statement Cert.KernelIdeal.S128x128 .f32 .bf16
  ∧ IdealRules.truncf_extf.Statement Cert.KernelIdeal.S20096x128 .f32 .bf16
  ∧ IdealRules.truncf_extf.Statement Cert.KernelIdeal.S128x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S_ : Shape := ⟨0, ![]⟩
abbrev S1x640000 : Shape := ⟨2, ![1, 640000]⟩
abbrev S640000 : Shape := ⟨1, ![640000]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part2 {F : FTy → Type} [FloatOps F] (main_arg1 : IVec S2x640000 32) (main_v33 : IVec S_ 1) : IVec S_ 1 :=
  let main_v34 : IVec S1x640000 32 := (extractStridedSlice S1x640000 ![0, 0] · slices_S2x640000_S1x640000_0_0) main_arg1
  let main_v35 : IVec S640000 32 := shapeCast S640000 main_v34 shapeCasts_S1x640000_S640000
  let main_c_12 : IVec S_ 32 := constantI S_ 32 0#32
  let main_v36 : IVec S640000 32 := broadcastInDim S640000 ![] bcast_S_S640000 main_c_12
  let main_v37 : IVec S640000 1 := cmpi .sge main_v35 main_v36
  let main_v38 : IVec S1x640000 32 := (extractStridedSlice S1x640000 ![0, 0] · slices_S2x640000_S1x640000_0_0) main_arg1
  let main_v39 : IVec S640000 32 := shapeCast S640000 main_v38 shapeCasts_S1x640000_S640000
  let main_c_13 : IVec S_ 32 := constantI S_ 32 20000#32
  let main_v40 : IVec S640000 32 := broadcastInDim S640000 ![] bcast_S_S640000 main_c_13
  let main_v41 : IVec S640000 1 := cmpi .slt main_v39 main_v40
  let main_v42 : IVec S640000 1 := andi main_v37 main_v41
  let main_c_14 : IVec S_ 1 := constantI S_ 1 1#1
  let main_v43 : IVec S_ 1 := (fun x v => Host.reduce IntOp.andi x v reducesTo_S640000_S_d0 h_S_) main_v42 main_c_14
  let main_v44 : IVec S_ 1 := andi main_v33 main_v43
  main_v44

def fn_part1 {F : FTy → Type} [FloatOps F] (main_arg1 : IVec S2x640000 32) (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S20000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S20000 : Shape := ⟨1, ![20000]⟩
abbrev S640000x1 : Shape := ⟨2, ![640000, 1]⟩
abbrev S20096 : Shape := ⟨1, ![20096]⟩
abbrev S20096x1 : Shape := ⟨2, ![20096, 1]⟩
abbrev S20096x128 : Shape := ⟨2, ![20096, 128]⟩
abbrev S1x128 : Shape := ⟨2, ![1, 128]⟩
abbrev S2x20096x128 : Shape := ⟨3, ![2, 20096, 128]⟩
abbrev S1x20096x128 : Shape := ⟨3, ![1, 20096, 128]⟩
abbrev S1x20096 : Shape := ⟨2, ![1, 20096]⟩
abbrev S128x1 : Shape := ⟨2, ![128, 1]⟩
abbrev S128x20096 : Shape := ⟨2, ![128, 20096]⟩

abbrev nBuf : Space → Nat
  | .hbm => 117
  | .vmem => 30
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S20000, .f32⟩
  | .hbm, ⟨16, _⟩ => ⟨S640000x1, .i32⟩
  | .hbm, ⟨17, _⟩ => ⟨S20000, .f32⟩
  | .hbm, ⟨18, _⟩ => ⟨S_, .f32⟩
  | .hbm, ⟨19, _⟩ => ⟨S20000, .f32⟩
  | .hbm, ⟨20, _⟩ => ⟨S20000, .i1⟩
  | .hbm, ⟨21, _⟩ => ⟨S_, .f32⟩
  | .hbm, ⟨22, _⟩ => ⟨S20000, .f32⟩
  | .hbm, ⟨23, _⟩ => ⟨S20000, .f32⟩
  | .hbm, ⟨24, _⟩ => ⟨S_, .f32⟩
  | .hbm, ⟨25, _⟩ => ⟨S20000, .f32⟩
  | .hbm, ⟨26, _⟩ => ⟨S20000, .f32⟩
  | .hbm, ⟨27, _⟩ => ⟨S_, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S_, .i32⟩
  | .hbm, ⟨32, _⟩ => ⟨S_, .f32⟩
  | .hbm, ⟨33, _⟩ => ⟨S20096, .f32⟩
  | .hbm, ⟨34, _⟩ => ⟨S20096x1, .f32⟩
  | .hbm, ⟨35, _⟩ => ⟨S_, .i32⟩
  | .hbm, ⟨36, _⟩ => ⟨S_, .f32⟩
  | .hbm, ⟨37, _⟩ => ⟨S20096x128, .f32⟩
  | .hbm, ⟨38, _⟩ => ⟨S128x128, .f32⟩
  | .hbm, ⟨39, _⟩ => ⟨S20096x128, .f32⟩
  | .hbm, ⟨40, _⟩ => ⟨S1x128, .f32⟩
  | .hbm, ⟨41, _⟩ => ⟨S20096x128, .f32⟩
  | .hbm, ⟨42, _⟩ => ⟨S20096x128, .f32⟩
  | .hbm, ⟨43, _⟩ => ⟨S20096x1, .i32⟩
  | .hbm, ⟨44, _⟩ => ⟨S_, .i32⟩
  | .hbm, ⟨45, _⟩ => ⟨S20096x1, .i32⟩
  | .hbm, ⟨46, _⟩ => ⟨S20096x1, .i1⟩
  | .hbm, ⟨47, _⟩ => ⟨S_, .f32⟩
  | .hbm, ⟨48, _⟩ => ⟨S_, .f32⟩
  | .hbm, ⟨49, _⟩ => ⟨S20096x128, .i1⟩
  | .hbm, ⟨50, _⟩ => ⟨S20096x128, .f32⟩
  | .hbm, ⟨51, _⟩ => ⟨S20096x128, .f32⟩
  | .hbm, ⟨52, _⟩ => ⟨S2x20096x128, .f32⟩
  | .hbm, ⟨53, _⟩ => ⟨S1x20096x128, .f32⟩
  | .hbm, ⟨54, _⟩ => ⟨S20096x128, .f32⟩
  | .hbm, ⟨55, _⟩ => ⟨S1x20096x128, .f32⟩
  | .hbm, ⟨56, _⟩ => ⟨S20096x128, .f32⟩
  | .hbm, ⟨57, _⟩ => ⟨S20096x128, .f32⟩
  | .hbm, ⟨58, _⟩ => ⟨S20096x128, .f32⟩
  | .hbm, ⟨59, _⟩ => ⟨S20096x128, .f32⟩
  | .hbm, ⟨60, _⟩ => ⟨S_, .f32⟩
  | .hbm, ⟨61, _⟩ => ⟨S20096x128, .f32⟩
  | .hbm, ⟨62, _⟩ => ⟨S20096x128, .f32⟩
  | .hbm, ⟨63, _⟩ => ⟨S20096x128, .f32⟩
  | .hbm, ⟨64, _⟩ => ⟨S128x128, .f32⟩
  | .hbm, ⟨65, _⟩ => ⟨S20096x128, .f32⟩
  | .hbm, ⟨66, _⟩ => ⟨S1x128, .f32⟩
  | .hbm, ⟨67, _⟩ => ⟨S20096x128, .f32⟩
  | .hbm, ⟨68, _⟩ => ⟨S20096x128, .f32⟩
  | .hbm, ⟨69, _⟩ => ⟨S20096x1, .i32⟩
  | .hbm, ⟨70, _⟩ => ⟨S_, .i32⟩
  | .hbm, ⟨71, _⟩ => ⟨S20096x1, .i32⟩
  | .hbm, ⟨72, _⟩ => ⟨S20096x1, .i1⟩
  | .hbm, ⟨73, _⟩ => ⟨S_, .f32⟩
  | .hbm, ⟨74, _⟩ => ⟨S_, .f32⟩
  | .hbm, ⟨75, _⟩ => ⟨S20096x128, .i1⟩
  | .hbm, ⟨76, _⟩ => ⟨S20096x128, .f32⟩
  | .hbm, ⟨77, _⟩ => ⟨S20096x128, .f32⟩
  | .hbm, ⟨78, _⟩ => ⟨S2x20096x128, .f32⟩
  | .hbm, ⟨79, _⟩ => ⟨S1x20096x128, .f32⟩
  | .hbm, ⟨80, _⟩ => ⟨S20096x128, .f32⟩
  | .hbm, ⟨81, _⟩ => ⟨S1x20096x128, .f32⟩
  | .hbm, ⟨82, _⟩ => ⟨S20096x128, .f32⟩
  | .hbm, ⟨83, _⟩ => ⟨S20096x128, .f32⟩
  | .hbm, ⟨84, _⟩ => ⟨S20096x128, .f32⟩
  | .hbm, ⟨85, _⟩ => ⟨S20096x128, .f32⟩
  | .hbm, ⟨86, _⟩ => ⟨S_, .f32⟩
  | .hbm, ⟨87, _⟩ => ⟨S20096x128, .f32⟩
  | .hbm, ⟨88, _⟩ => ⟨S20096x128, .f32⟩
  | .hbm, ⟨89, _⟩ => ⟨S20096x128, .f32⟩
  | .hbm, ⟨90, _⟩ => ⟨S128x128, .f32⟩
  | .hbm, ⟨91, _⟩ => ⟨S20096x128, .f32⟩
  | .hbm, ⟨92, _⟩ => ⟨S1x128, .f32⟩
  | .hbm, ⟨93, _⟩ => ⟨S20096x128, .f32⟩
  | .hbm, ⟨94, _⟩ => ⟨S20096x128, .f32⟩
  | .hbm, ⟨95, _⟩ => ⟨S20096x1, .i32⟩
  | .hbm, ⟨96, _⟩ => ⟨S_, .i32⟩
  | .hbm, ⟨97, _⟩ => ⟨S20096x1, .i32⟩
  | .hbm, ⟨98, _⟩ => ⟨S20096x1, .i1⟩
  | .hbm, ⟨99, _⟩ => ⟨S_, .f32⟩
  | .hbm, ⟨100, _⟩ => ⟨S_, .f32⟩
  | .hbm, ⟨101, _⟩ => ⟨S20096x128, .i1⟩
  | .hbm, ⟨102, _⟩ => ⟨S20096x128, .f32⟩
  | .hbm, ⟨103, _⟩ => ⟨S20096x128, .f32⟩
  | .hbm, ⟨104, _⟩ => ⟨S2x20096x128, .f32⟩
  | .hbm, ⟨105, _⟩ => ⟨S1x20096x128, .f32⟩
  | .hbm, ⟨106, _⟩ => ⟨S20096x128, .f32⟩
  | .hbm, ⟨107, _⟩ => ⟨S1x20096x128, .f32⟩
  | .hbm, ⟨108, _⟩ => ⟨S20096x128, .f32⟩
  | .hbm, ⟨109, _⟩ => ⟨S20096x128, .f32⟩
  | .hbm, ⟨110, _⟩ => ⟨S20096x128, .f32⟩
  | .hbm, ⟨111, _⟩ => ⟨S20096x128, .f32⟩
  | .hbm, ⟨112, _⟩ => ⟨S_, .f32⟩
  | .hbm, ⟨113, _⟩ => ⟨S20096x128, .f32⟩
  | .hbm, ⟨114, _⟩ => ⟨S20096x128, .f32⟩
  | .hbm, ⟨115, _⟩ => ⟨S20096x128, .f32⟩
  | .hbm, ⟨116, _⟩ => ⟨S20000x128, .f32⟩
  | .local _ .vmem, ⟨0, _⟩ => ⟨S20096x128, .f32⟩
  | .local _ .vmem, ⟨1, _⟩ => ⟨S128, .i32⟩
  | .local _ .vmem, ⟨2, _⟩ => ⟨S128, .i32⟩
  | .local _ .vmem, ⟨3, _⟩ => ⟨S128, .i32⟩
  | .local _ .vmem, ⟨4, _⟩ => ⟨S128, .i32⟩
  | .local _ .vmem, ⟨5, _⟩ => ⟨S1x20096x128, .f32⟩
  | .local _ .vmem, ⟨6, _⟩ => ⟨S1x20096x128, .f32⟩
  | .local _ .vmem, ⟨7, _⟩ => ⟨S20096x128, .bf16⟩
  | .local _ .vmem, ⟨8, _⟩ => ⟨S20096x128, .bf16⟩
  | .local _ .vmem, ⟨9, _⟩ => ⟨S20096x128, .f32⟩
  | .local _ .vmem, ⟨10, _⟩ => ⟨S20096x128, .f32⟩
  | .local _ .vmem, ⟨11, _⟩ => ⟨S128, .i32⟩
  | .local _ .vmem, ⟨12, _⟩ => ⟨S128, .i32⟩
  | .local _ .vmem, ⟨13, _⟩ => ⟨S128, .i32⟩
  | .local _ .vmem, ⟨14, _⟩ => ⟨S128, .i32⟩
  | .local _ .vmem, ⟨15, _⟩ => ⟨S1x20096x128, .f32⟩
  | .local _ .vmem, ⟨16, _⟩ => ⟨S1x20096x128, .f32⟩
  | .local _ .vmem, ⟨17, _⟩ => ⟨S20096x128, .bf16⟩
  | .local _ .vmem, ⟨18, _⟩ => ⟨S20096x128, .bf16⟩
  | .local _ .vmem, ⟨19, _⟩ => ⟨S20096x128, .f32⟩
  | .local _ .vmem, ⟨20, _⟩ => ⟨S20096x128, .f32⟩
  | .local _ .vmem, ⟨21, _⟩ => ⟨S128, .i32⟩
  | .local _ .vmem, ⟨22, _⟩ => ⟨S128, .i32⟩
  | .local _ .vmem, ⟨23, _⟩ => ⟨S128, .i32⟩
  | .local _ .vmem, ⟨24, _⟩ => ⟨S128, .i32⟩
  | .local _ .vmem, ⟨25, _⟩ => ⟨S1x20096x128, .f32⟩
  | .local _ .vmem, ⟨26, _⟩ => ⟨S1x20096x128, .f32⟩
  | .local _ .vmem, ⟨27, _⟩ => ⟨S20096x128, .bf16⟩
  | .local _ .vmem, ⟨28, _⟩ => ⟨S20096x128, .bf16⟩
  | .local _ .vmem, ⟨29, _⟩ => ⟨S20096x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_call1_v0 : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_call2_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_9 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_12 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_14 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_scratch0 : Ref sig .tc := ⟨.vmem, 27, rfl⟩
abbrev cc2_scratch1 : Ref sig .tc := ⟨.vmem, 28, rfl⟩
abbrev cc2_scratch2 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨2, ![2, 2500], ![false, false]⟩

def k0_cond2 (i : grid0.Coords) : BitVec 1 :=
  let arg1 : BitVec 32 := BitVec.ofNat 32 (i 1).val
  let c2499_i32 : BitVec 32 := 2499#32
  let v43 : BitVec 1 := Scalar.cmpi .eq arg1 c2499_i32
  let v44 : BitVec 32 := Scalar.extui v43
  let c0_i32_17 : BitVec 32 := 0#32
  let v45 : BitVec 1 := Scalar.cmpi .ne v44 c0_i32_17
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c2500_i32 : BitVec 32 := 2500#32
  let v0 : BitVec 32 := Scalar.muli arg0 c2500_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c2500_i32 : BitVec 32 := 2500#32
  let v0 : BitVec 32 := Scalar.muli arg0 c2500_i32
  let v1 : BitVec 32 := Scalar.addi v0 arg1
  let c0_i32 : BitVec 32 := 0#32
  ![v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S20096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x20096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 2500], ![false, false]⟩

def k1_cond2 (i : grid1.Coords) : BitVec 1 :=
  let arg1 : BitVec 32 := BitVec.ofNat 32 (i 1).val
  let c2499_i32 : BitVec 32 := 2499#32
  let v43 : BitVec 1 := Scalar.cmpi .eq arg1 c2499_i32
  let v44 : BitVec 32 := Scalar.extui v43
  let c0_i32_17 : BitVec 32 := 0#32
  let v45 : BitVec 1 := Scalar.cmpi .ne v44 c0_i32_17
  v45

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let arg1 : BitVec 32 := BitVec.ofNat 32 (i 1).val
  let c2500_i32 : BitVec 32 := 2500#32
  let v0 : BitVec 32 := Scalar.muli arg0 c2500_i32
  let v1 : BitVec 32 := Scalar.addi v0 arg1
  let c0_i32 : BitVec 32 := 0#32
  ![v1.toNat]

def cc1_transform_2 (i : grid1.Coords) : Fin 1 → Nat :=
  let arg0 : BitVec 32 := BitVec.ofNat 32 (i 0).val
  let arg1 : BitVec 32 := BitVec.ofNat 32 (i 1).val
  let c2500_i32 : BitVec 32 := 2500#32
  let v0 : BitVec 32 := Scalar.muli arg0 c2500_i32
  let v1 : BitVec 32 := Scalar.addi v0 arg1
  let c0_i32 : BitVec 32 := 0#32
  ![v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S20096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x20096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 2500], ![false, false]⟩

def k2_cond2 (i : grid2.Coords) : BitVec 1 :=
  let arg1 : BitVec 32 := BitVec.ofNat 32 (i 1).val
  let c2499_i32 : BitVec 32 := 2499#32
  let v43 : BitVec 1 := Scalar.cmpi .eq arg1 c2499_i32
  let v44 : BitVec 32 := Scalar.extui v43
  let c0_i32_17 : BitVec 32 := 0#32
  let v45 : BitVec 1 := Scalar.cmpi .ne v44 c0_i32_17
  v45

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 1 → Nat :=
  let arg0 : BitVec 32 := BitVec.ofNat 32 (i 0).val
  let arg1 : BitVec 32 := BitVec.ofNat 32 (i 1).val
  let c2500_i32 : BitVec 32 := 2500#32
  let v0 : BitVec 32 := Scalar.muli arg0 c2500_i32
  let v1 : BitVec 32 := Scalar.addi v0 arg1
  let c0_i32 : BitVec 32 := 0#32
  ![v1.toNat]

def cc2_transform_2 (i : grid2.Coords) : Fin 1 → Nat :=
  let arg0 : BitVec 32 := BitVec.ofNat 32 (i 0).val
  let arg1 : BitVec 32 := BitVec.ofNat 32 (i 1).val
  let c2500_i32 : BitVec 32 := 2500#32
  let v0 : BitVec 32 := Scalar.muli arg0 c2500_i32
  let v1 : BitVec 32 := Scalar.addi v0 arg1
  let c0_i32 : BitVec 32 := 0#32
  ![v1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S20096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S128 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x20096x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  pads_S20000_S20096_0960 : S20000.Pads (![0] : Fin 1 → Nat) ![96] ![0] S20096
  h_S_ : 0 < S_.numel
  shapeCasts_S20096_S20096x1 : S20096.ShapeCasts S20096x1
  pads_S20000x128_S20096x128_0960_000 : S20000x128.Pads (![0, 0] : Fin 2 → Nat) ![96, 0] ![0, 0] S20096x128
  transposes_S128x128_S128x128_1_0 : S128x128.Transposes [1, 0] S128x128
  shapeCasts_S128_S1x128 : S128.ShapeCasts S1x128
  bcast_S1x128_S20096x128_0_1 : S1x128.BroadcastsInDim S20096x128 (![0, 1] : Fin 2 → Fin S20096x128.rank)
  bcast_S_S20096x1 : S_.BroadcastsInDim S20096x1 (![] : Fin 0 → Fin S20096x1.rank)
  bcast_S20096x1_S20096x128_0_1 : S20096x1.BroadcastsInDim S20096x128 (![0, 1] : Fin 2 → Fin S20096x128.rank)
  bcast_S_S20096x128 : S_.BroadcastsInDim S20096x128 (![] : Fin 0 → Fin S20096x128.rank)
  inb_S20096x128_S20096x128_0_0 : ∀ a, (![0, 0] : Fin 2 → Nat) a + S20096x128.size a ≤ S20096x128.size a
  h_S20096x128 : 0 < S20096x128.numel
  shapeCasts_S20096x128_S20096x128 : S20096x128.ShapeCasts S20096x128
  bitsLt_bf16_f32 : FTy.bits .bf16 < FTy.bits .f32
  packedbf16_S20096x128_S20096x128_0_0 : (Rect.unit (s := S20096x128) ![0, 0] S20096x128.size inb_S20096x128_S20096x128_0_0).PackedRows (EltTy.packing .bf16)
  inb_S128_S128_0 : ∀ a, (![0] : Fin 1 → Nat) a + S128.size a ≤ S128.size a
  h_S128 : 0 < S128.numel
  shapeCasts_S128_S128 : S128.ShapeCasts S128
  iota_S1x20096_d1_w32 : S1x20096.Iotas .tc 32 [1]
  shapeCasts_S128_S128x1 : S128.ShapeCasts S128x1
  broadcasts_S128x1_S128x20096 : S128x1.Broadcasts S128x20096
  broadcasts_S1x20096_S128x20096 : S1x20096.Broadcasts S128x20096
  natLt_1_32 : 1 < 32
  inb_S1x20096x128_S1x20096x128_0_0_0 : ∀ a, (![0, 0, 0] : Fin 3 → Nat) a + S1x20096x128.size a ≤ S1x20096x128.size a
  h_S1x20096x128 : 0 < S1x20096x128.numel
  shapeCasts_S1x20096x128_S20096x128 : S1x20096x128.ShapeCasts S20096x128
  shapeCasts_S20096x128_S1x20096x128 : S20096x128.ShapeCasts S1x20096x128
  slices_S2x20096x128_S1x20096x128_0_0_0 : S2x20096x128.Slices ![0, 0, 0] S1x20096x128
  slices_S2x20096x128_S1x20096x128_1_0_0 : S2x20096x128.Slices ![1, 0, 0] S1x20096x128
  slices_S20096x128_S20000x128_0_0 : S20096x128.Slices ![0, 0] S20000x128
  scatter_S20000_S640000x1_S640000_n_0_0_1_wf : ScatterDims.WF S20000 S640000x1 S640000 [] [0] [0] 1
  dot_S20096x128_S128x128_S20096x128_1_0_0_1_n_n_wf : DotDims.WF S20096x128 S128x128 S20096x128 [1] [0] [0] [1] [] []
  dot_S128x20096_S20096x128_S128x128_1_0_0_1_n_n_wf : DotDims.WF S128x20096 S20096x128 S128x128 [1] [0] [0] [1] [] []
  dot_S128x20096_S128x128_S20096x128_0_0_1_1_n_n_wf : DotDims.WF S128x20096 S128x128 S20096x128 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S20096x128.size a ≤ S20096x128.size a
  hwx0_0 : ∀ i : grid0.Coords, EltTy.bits .f32 = 32 ∨ (Rect.block (s := S20096x128) S20096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S640000.size a
  hwx0_1 : ∀ i : grid0.Coords, EltTy.bits .i32 = 32 ∨ (Rect.block (s := S640000) S128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S640000.size a
  hwx0_2 : ∀ i : grid0.Coords, EltTy.bits .i32 = 32 ∨ (Rect.block (s := S640000) S128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x20096x128.size a ≤ S2x20096x128.size a
  hwx0_3 : ∀ i : grid0.Coords, EltTy.bits .f32 = 32 ∨ (Rect.block (s := S2x20096x128) S1x20096x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S20096x128.size a ≤ S20096x128.size a
  hwx1_0 : ∀ i : grid1.Coords, EltTy.bits .f32 = 32 ∨ (Rect.block (s := S20096x128) S20096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S640000.size a
  hwx1_1 : ∀ i : grid1.Coords, EltTy.bits .i32 = 32 ∨ (Rect.block (s := S640000) S128.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S640000.size a
  hwx1_2 : ∀ i : grid1.Coords, EltTy.bits .i32 = 32 ∨ (Rect.block (s := S640000) S128.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x20096x128.size a ≤ S2x20096x128.size a
  hwx1_3 : ∀ i : grid1.Coords, EltTy.bits .f32 = 32 ∨ (Rect.block (s := S2x20096x128) S1x20096x128.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S20096x128.size a ≤ S20096x128.size a
  hwx2_0 : ∀ i : grid2.Coords, EltTy.bits .f32 = 32 ∨ (Rect.block (s := S20096x128) S20096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S640000.size a
  hwx2_1 : ∀ i : grid2.Coords, EltTy.bits .i32 = 32 ∨ (Rect.block (s := S640000) S128.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S640000.size a
  hwx2_2 : ∀ i : grid2.Coords, EltTy.bits .i32 = 32 ∨ (Rect.block (s := S640000) S128.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x20096x128.size a ≤ S2x20096x128.size a
  hwx2_3 : ∀ i : grid2.Coords, EltTy.bits .f32 = 32 ∨ (Rect.block (s := S2x20096x128) S1x20096x128.size (cc2_transform_3 i) (hinb2_3 i)).WholeWords (EltTy.packing .f32)

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S20096x128_S128x128_S20096x128_1_0_0_1_n_n : DotDims S20096x128 S128x128 S20096x128 where
  lhsContracting := [1]
  rhsContracting := [0]
  lhsNonContracting := [0]
  rhsNonContracting := [1]
  lhsBatch := []
  rhsBatch := []
  wf := dot_S20096x128_S128x128_S20096x128_1_0_0_1_n_n_wf
def dot_S128x20096_S20096x128_S128x128_1_0_0_1_n_n : DotDims S128x20096 S20096x128 S128x128 where
  lhsContracting := [1]
  rhsContracting := [0]
  lhsNonContracting := [0]
  rhsNonContracting := [1]
  lhsBatch := []
  rhsBatch := []
  wf := dot_S128x20096_S20096x128_S128x128_1_0_0_1_n_n_wf
def dot_S128x20096_S128x128_S20096x128_0_0_1_1_n_n : DotDims S128x20096 S128x128 S20096x128 where
  lhsContracting := [0]
  rhsContracting := [0]
  lhsNonContracting := [1]
  rhsNonContracting := [1]
  lhsBatch := []
  rhsBatch := []
  wf := dot_S128x20096_S128x128_S20096x128_0_0_1_1_n_n_wf

abbrev win0_0 : Pipeline.Window sig grid0 :=
  Pipeline.Window.ofSpec (Memref.whole main_v26) S20096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x20096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v46) S20096x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x20096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v66) S20096x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v1) S128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x20096x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S20000 : Shape := ⟨1, ![20000]⟩
abbrev S640000x1 : Shape := ⟨2, ![640000, 1]⟩
abbrev S1x128 : Shape := ⟨2, ![1, 128]⟩
abbrev S640000x128 : Shape := ⟨2, ![640000, 128]⟩
abbrev S20000x1 : Shape := ⟨2, ![20000, 1]⟩

abbrev nBuf : Space → Nat
  | .hbm => 106
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S20000, .f32⟩
  | .hbm, ⟨16, _⟩ => ⟨S640000x1, .i32⟩
  | .hbm, ⟨17, _⟩ => ⟨S20000, .f32⟩
  | .hbm, ⟨18, _⟩ => ⟨S_, .f32⟩
  | .hbm, ⟨19, _⟩ => ⟨S20000, .f32⟩
  | .hbm, ⟨20, _⟩ => ⟨S20000, .i1⟩
  | .hbm, ⟨21, _⟩ => ⟨S_, .f32⟩
  | .hbm, ⟨22, _⟩ => ⟨S20000, .f32⟩
  | .hbm, ⟨23, _⟩ => ⟨S20000, .f32⟩
  | .hbm, ⟨24, _⟩ => ⟨S_, .f32⟩
  | .hbm, ⟨25, _⟩ => ⟨S20000, .f32⟩
  | .hbm, ⟨26, _⟩ => ⟨S20000, .f32⟩
  | .hbm, ⟨27, _⟩ => ⟨S_, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S128x128, .f32⟩
  | .hbm, ⟨32, _⟩ => ⟨S20000x128, .f32⟩
  | .hbm, ⟨33, _⟩ => ⟨S1x128, .f32⟩
  | .hbm, ⟨34, _⟩ => ⟨S20000x128, .f32⟩
  | .hbm, ⟨35, _⟩ => ⟨S20000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S_, .f32⟩
  | .hbm, ⟨46, _⟩ => ⟨S20000x128, .f32⟩
  | .hbm, ⟨47, _⟩ => ⟨S640000x1, .i32⟩
  | .hbm, ⟨48, _⟩ => ⟨S20000x128, .f32⟩
  | .hbm, ⟨49, _⟩ => ⟨S20000x1, .f32⟩
  | .hbm, ⟨50, _⟩ => ⟨S20000x128, .f32⟩
  | .hbm, ⟨51, _⟩ => ⟨S20000x128, .f32⟩
  | .hbm, ⟨52, _⟩ => ⟨S_, .f32⟩
  | .hbm, ⟨53, _⟩ => ⟨S20000x128, .f32⟩
  | .hbm, ⟨54, _⟩ => ⟨S20000x128, .f32⟩
  | .hbm, ⟨55, _⟩ => ⟨S20000x128, .f32⟩
  | .hbm, ⟨56, _⟩ => ⟨S128x128, .f32⟩
  | .hbm, ⟨57, _⟩ => ⟨S20000x128, .f32⟩
  | .hbm, ⟨58, _⟩ => ⟨S1x128, .f32⟩
  | .hbm, ⟨59, _⟩ => ⟨S20000x128, .f32⟩
  | .hbm, ⟨60, _⟩ => ⟨S20000x128, .f32⟩
  | .hbm, ⟨61, _⟩ => ⟨S_, .i32⟩
  | .hbm, ⟨62, _⟩ => ⟨S640000, .i32⟩
  | .hbm, ⟨63, _⟩ => ⟨S640000, .i1⟩
  | .hbm, ⟨64, _⟩ => ⟨S_, .i32⟩
  | .hbm, ⟨65, _⟩ => ⟨S640000, .i32⟩
  | .hbm, ⟨66, _⟩ => ⟨S640000, .i32⟩
  | .hbm, ⟨67, _⟩ => ⟨S640000, .i32⟩
  | .hbm, ⟨68, _⟩ => ⟨S640000x1, .i32⟩
  | .hbm, ⟨69, _⟩ => ⟨S640000x128, .f32⟩
  | .hbm, ⟨70, _⟩ => ⟨S_, .f32⟩
  | .hbm, ⟨71, _⟩ => ⟨S20000x128, .f32⟩
  | .hbm, ⟨72, _⟩ => ⟨S640000x1, .i32⟩
  | .hbm, ⟨73, _⟩ => ⟨S20000x128, .f32⟩
  | .hbm, ⟨74, _⟩ => ⟨S20000x1, .f32⟩
  | .hbm, ⟨75, _⟩ => ⟨S20000x128, .f32⟩
  | .hbm, ⟨76, _⟩ => ⟨S20000x128, .f32⟩
  | .hbm, ⟨77, _⟩ => ⟨S_, .f32⟩
  | .hbm, ⟨78, _⟩ => ⟨S20000x128, .f32⟩
  | .hbm, ⟨79, _⟩ => ⟨S20000x128, .f32⟩
  | .hbm, ⟨80, _⟩ => ⟨S20000x128, .f32⟩
  | .hbm, ⟨81, _⟩ => ⟨S128x128, .f32⟩
  | .hbm, ⟨82, _⟩ => ⟨S20000x128, .f32⟩
  | .hbm, ⟨83, _⟩ => ⟨S1x128, .f32⟩
  | .hbm, ⟨84, _⟩ => ⟨S20000x128, .f32⟩
  | .hbm, ⟨85, _⟩ => ⟨S20000x128, .f32⟩
  | .hbm, ⟨86, _⟩ => ⟨S_, .i32⟩
  | .hbm, ⟨87, _⟩ => ⟨S640000, .i32⟩
  | .hbm, ⟨88, _⟩ => ⟨S640000, .i1⟩
  | .hbm, ⟨89, _⟩ => ⟨S_, .i32⟩
  | .hbm, ⟨90, _⟩ => ⟨S640000, .i32⟩
  | .hbm, ⟨91, _⟩ => ⟨S640000, .i32⟩
  | .hbm, ⟨92, _⟩ => ⟨S640000, .i32⟩
  | .hbm, ⟨93, _⟩ => ⟨S640000x1, .i32⟩
  | .hbm, ⟨94, _⟩ => ⟨S640000x128, .f32⟩
  | .hbm, ⟨95, _⟩ => ⟨S_, .f32⟩
  | .hbm, ⟨96, _⟩ => ⟨S20000x128, .f32⟩
  | .hbm, ⟨97, _⟩ => ⟨S640000x1, .i32⟩
  | .hbm, ⟨98, _⟩ => ⟨S20000x128, .f32⟩
  | .hbm, ⟨99, _⟩ => ⟨S20000x1, .f32⟩
  | .hbm, ⟨100, _⟩ => ⟨S20000x128, .f32⟩
  | .hbm, ⟨101, _⟩ => ⟨S20000x128, .f32⟩
  | .hbm, ⟨102, _⟩ => ⟨S_, .f32⟩
  | .hbm, ⟨103, _⟩ => ⟨S20000x128, .f32⟩
  | .hbm, ⟨104, _⟩ => ⟨S20000x128, .f32⟩
  | .hbm, ⟨105, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_cst : Ref sig .tc := ⟨.hbm, 52, rfl⟩
abbrev main_call1_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call2_cst : Ref sig .tc := ⟨.hbm, 77, rfl⟩
abbrev main_call2_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_10 : Ref sig .tc := ⟨.hbm, 86, rfl⟩
abbrev main_v60 : Ref sig .tc := ⟨.hbm, 87, rfl⟩
abbrev main_v61 : Ref sig .tc := ⟨.hbm, 88, rfl⟩
abbrev main_c_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_call3_cst : Ref sig .tc := ⟨.hbm, 102, rfl⟩
abbrev main_call3_v0 : Ref sig .tc := ⟨.hbm, 103, rfl⟩
abbrev main_v73 : Ref sig .tc := ⟨.hbm, 104, rfl⟩
abbrev main_v74 : Ref sig .tc := ⟨.hbm, 105, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  transposes_S128x128_S128x128_1_0 : S128x128.Transposes [1, 0] S128x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  scatter_S20000_S640000x1_S640000_n_0_0_1_wf : ScatterDims.WF S20000 S640000x1 S640000 [] [0] [0] 1
  dot_S20000x128_S128x128_S20000x128_1_0_0_1_n_n_wf : DotDims.WF S20000x128 S128x128 S20000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

class Facts : Prop extends Facts₀ where

variable [Facts]
-- ==== Proof.KB.Conds.lean ====
import proofs.«408425_j84189948936514_2_alg».proof.Proof.Gen.Kernel.Launch
import proofs.«408425_j84189948936514_2_alg».proof.Proof.Gen.Kernel.Skeleton
import proofs.«408425_j84189948936514_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the step within a half of the edges is the first (0), respectively the last (2499)
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2500 = 0 :=
  (by decide +kernel : ∀ t : Fin grid0.N, cond0_0 (grid0.coords t) ↔ t.val % 2500 = 0)

abbrev cond0_1 (i : grid0.Coords) : Prop := k0_cond2 i = 1#1
theorem hcond0_1 : ∀ t : Fin cfg0.N, cond0_1 (grid0.coords t) ↔ t.val % 2500 = 2499 :=
  (by decide +kernel : ∀ t : Fin grid0.N, cond0_1 (grid0.coords t) ↔ t.val % 2500 = 2499)

-- decided once over the 5000 grid points; the three launches share these facts
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem idle_3 : ∀ t : Fin cfg0.N, ¬cond0_1 (grid0.coords t) → cfg0.idle 3 (grid0.coords t) = true := by decide +kernel
theorem noFlush_3 : ∀ t : Fin cfg0.N, ¬cond0_1 (grid0.coords t) → (cfg0.win 3).flush t = false := by decide +kernel
theorem live_3 : ∀ t : Fin cfg0.N, cond0_1 (grid0.coords t) → cfg0.idle 3 (grid0.coords t) = false := by decide +kernel

end Cert.Kernel.Gen

end
-- ==== Proof.KB.RunA.lean ====
import proofs.«408425_j84189948936514_2_alg».proof.Proof.KB.Conds

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (arg2 : Memref sig .tc .vmem S20096x128 .f32) (harg2 : arg2.IsWhole) (arg3 : Memref sig .tc .vmem S128 .i32) (harg3 : arg3.IsWhole) (arg4 : Memref sig .tc .vmem S128 .i32) (harg4 : arg4.IsWhole) (arg5 : Memref sig .tc .vmem S1x20096x128 .f32) (harg5 : arg5.IsWhole) (arg6 : Memref sig .tc .vmem S20096x128 .bf16) (harg6 : arg6.IsWhole) (arg7 : Memref sig .tc .vmem S20096x128 .bf16) (harg7 : arg7.IsWhole) (arg8 : Memref sig .tc .vmem S20096x128 .f32) (harg8 : arg8.IsWhole) (hc0 : cond0_0 i) (hc1 : ¬cond0_1 i)
    (x0 : Vec F S20096x128 .f32) (x1 : Vec F S128 .i32) (x2 : Vec F S128 .i32) :
    Σ' (LS0 : List (View.Piece (Elt F) S20096x128 .bf16)), Σ' (LS1 : List (View.Piece (Elt F) S20096x128 .bf16)), { LS2 : List (View.Piece (Elt F) S20096x128 .f32) //
      ∀ (xi3 : Vec F S1x20096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__aggregate_kernel i arg2 harg2 arg3 harg3 arg4 harg4 arg5 harg5 arg6 harg6 arg7 harg7 arg8 harg8) K } := by
  refine ⟨?_, ?_, ?_, fun xi3 E K => ?run⟩
  case run =>
    simp only [cc0__aggregate_kernel_eq_skeleton]; unfold cc0__aggregate_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Gen

end
-- ==== Proof.KB.RunB.lean ====
import proofs.«408425_j84189948936514_2_alg».proof.Proof.KB.Conds

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_B (c : Dev nD) (i : grid0.Coords) (arg2 : Memref sig .tc .vmem S20096x128 .f32) (harg2 : arg2.IsWhole) (arg3 : Memref sig .tc .vmem S128 .i32) (harg3 : arg3.IsWhole) (arg4 : Memref sig .tc .vmem S128 .i32) (harg4 : arg4.IsWhole) (arg5 : Memref sig .tc .vmem S1x20096x128 .f32) (harg5 : arg5.IsWhole) (arg6 : Memref sig .tc .vmem S20096x128 .bf16) (harg6 : arg6.IsWhole) (arg7 : Memref sig .tc .vmem S20096x128 .bf16) (harg7 : arg7.IsWhole) (arg8 : Memref sig .tc .vmem S20096x128 .f32) (harg8 : arg8.IsWhole) (hc0 : ¬cond0_0 i) (hc1 : ¬cond0_1 i)
    (x0 : Vec F S20096x128 .f32) (x1 : Vec F S128 .i32) (x2 : Vec F S128 .i32) (xs0 : Vec F S20096x128 .bf16) (xs1 : Vec F S20096x128 .bf16) (xs2 : Vec F S20096x128 .f32) :
    { LS2 : List (View.Piece (Elt F) S20096x128 .f32) //
      ∀ (xi3 : Vec F S1x20096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ owns (c : Thread nD τ) arg6 fullShare xs0 ∗ owns (c : Thread nD τ) arg7 fullShare xs1
                ∗ (∃ f, arg8.view.loc (c : Thread nD τ) ↦[arg8.view.set]{fullShare} arg8.view.writes (Elt F) f LS2)) -∗ K ⟨⟩))
          ⊢ wp frame (wpE (defs₀ (F := F)) Variants.none c none) E (cc0__aggregate_kernel i arg2 harg2 arg3 harg3 arg4 harg4 arg5 harg5 arg6 harg6 arg7 harg7 arg8 harg8) K } := by
  refine ⟨?_, fun xi3 E K => ?run⟩
  case run =>
    simp only [cc0__aggregate_kernel_eq_skeleton]; unfold cc0__aggregate_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; isplitr; · ipureintro; exact harg6.read_unread _
      iexact HS0
    isplitl [HS1]
    · iexists _; isplitr; · ipureintro; exact harg7.read_unread _
      iexact HS1
    iexists _; iexact HS2

end Cert.Kernel.Gen

end
-- ==== Proof.KB.RunC.lean ====
import proofs.«408425_j84189948936514_2_alg».proof.Proof.KB.Conds

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_C (c : Dev nD) (i : grid0.Coords) (arg2 : Memref sig .tc .vmem S20096x128 .f32) (harg2 : arg2.IsWhole) (arg3 : Memref sig .tc .vmem S128 .i32) (harg3 : arg3.IsWhole) (arg4 : Memref sig .tc .vmem S128 .i32) (harg4 : arg4.IsWhole) (arg5 : Memref sig .tc .vmem S1x20096x128 .f32) (harg5 : arg5.IsWhole) (arg6 : Memref sig .tc .vmem S20096x128 .bf16) (harg6 : arg6.IsWhole) (arg7 : Memref sig .tc .vmem S20096x128 .bf16) (harg7 : arg7.IsWhole) (arg8 : Memref sig .tc .vmem S20096x128 .f32) (harg8 : arg8.IsWhole) (hc0 : ¬cond0_0 i) (hc1 : cond0_1 i)
    (x0 : Vec F S20096x128 .f32) (x1 : Vec F S128 .i32) (x2 : Vec F S128 .i32) (xs0 : Vec F S20096x128 .bf16) (xs1 : Vec F S20096x128 .bf16) (xs2 : Vec F S20096x128 .f32) :
    Σ' (L3 : List (View.Piece (Elt F) S1x20096x128 .f32)), { LS2 : List (View.Piece (Elt F) S20096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xs0 ∗ owns (c : Thread nD τ) arg7 fullShare xs1
                ∗ (∃ f, arg8.view.loc (c : Thread nD τ) ↦[arg8.view.set]{fullShare} arg8.view.writes (Elt F) f LS2)) -∗ K ⟨⟩))
          ⊢ wp frame (wpE (defs₀ (F := F)) Variants.none c none) E (cc0__aggregate_kernel i arg2 harg2 arg3 harg3 arg4 harg4 arg5 harg5 arg6 harg6 arg7 harg7 arg8 harg8) K } := by
  refine ⟨?_, ?_, fun E K => ?run⟩
  case run =>
    simp only [cc0__aggregate_kernel_eq_skeleton]; unfold cc0__aggregate_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    isplitl [HS1]
    · iexists _; isplitr; · ipureintro; exact harg7.read_unread _
      iexact HS1
    iexists _; iexact HS2

end Cert.Kernel.Gen

end
-- ==== Proof.KB.Pieces.lean ====
import proofs.«408425_j84189948936514_2_alg».proof.Proof.KB.RunA
import proofs.«408425_j84189948936514_2_alg».proof.Proof.KB.RunB
import proofs.«408425_j84189948936514_2_alg».proof.Proof.KB.RunC

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S20096x128 .f32) (harg2 : arg2.IsWhole) (arg3 : Memref sig .tc .vmem S128 .i32) (harg3 : arg3.IsWhole) (arg4 : Memref sig .tc .vmem S128 .i32) (harg4 : arg4.IsWhole) (arg5 : Memref sig .tc .vmem S1x20096x128 .f32) (harg5 : arg5.IsWhole) (arg6 : Memref sig .tc .vmem S20096x128 .bf16) (harg6 : arg6.IsWhole) (arg7 : Memref sig .tc .vmem S20096x128 .bf16) (harg7 : arg7.IsWhole) (arg8 : Memref sig .tc .vmem S20096x128 .f32) (harg8 : arg8.IsWhole)

-- what each case's stores leave in a buffer: the buffer read back after them, and that they cover it
section
variable (hc0 : cond0_0 i) (hc1 : ¬cond0_1 i) (x0 : Vec F S20096x128 .f32) (x1 : Vec F S128 .i32) (x2 : Vec F S128 .i32)

theorem scover0_A_0 (y : S20096x128.Idx) :
    ∃ pc ∈ (kernelRun0_A c i arg2 harg2 arg3 harg3 arg4 harg4 arg5 harg5 arg6 harg6 arg7 harg7 arg8 harg8 hc0 hc1 x0 x1 x2).1, y ∈ pc.1.set :=
  View.cover_of_tiledL (kernelRun0_A c i arg2 harg2 arg3 harg3 arg4 harg4 arg5 harg5 arg6 harg6 arg7 harg7 arg8 harg8 hc0 hc1 x0 x1 x2).1 S20096x128.size (by sl_kernel_rfl) y
def sout0_A_0 : Vec F S20096x128 .bf16 :=
  arg6.view.read (Elt F) (arg6.view.writes (Elt F) arg6.view.junk (kernelRun0_A c i arg2 harg2 arg3 harg3 arg4 harg4 arg5 harg5 arg6 harg6 arg7 harg7 arg8 harg8 hc0 hc1 x0 x1 x2).1)
theorem scover0_A_1 (y : S20096x128.Idx) :
    ∃ pc ∈ (kernelRun0_A c i arg2 harg2 arg3 harg3 arg4 harg4 arg5 harg5 arg6 harg6 arg7 harg7 arg8 harg8 hc0 hc1 x0 x1 x2).2.1, y ∈ pc.1.set :=
  View.cover_of_tiledL (kernelRun0_A c i arg2 harg2 arg3 harg3 arg4 harg4 arg5 harg5 arg6 harg6 arg7 harg7 arg8 harg8 hc0 hc1 x0 x1 x2).2.1 S20096x128.size (by sl_kernel_rfl) y
def sout0_A_1 : Vec F S20096x128 .bf16 :=
  arg7.view.read (Elt F) (arg7.view.writes (Elt F) arg7.view.junk (kernelRun0_A c i arg2 harg2 arg3 harg3 arg4 harg4 arg5 harg5 arg6 harg6 arg7 harg7 arg8 harg8 hc0 hc1 x0 x1 x2).2.1)
theorem scover0_A_2 (y : S20096x128.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S20096x128.size (by sl_kernel_rfl) y
def sout0_A_2 : Vec F S20096x128 .f32 :=
  arg8.view.read (Elt F) (arg8.view.writes (Elt F) arg8.view.junk (kernelRun0_A c i arg2 harg2 arg3 harg3 arg4 harg4 arg5 harg5 arg6 harg6 arg7 harg7 arg8 harg8 hc0 hc1 x0 x1 x2).2.2.1)

end

section
variable (hc0 : ¬cond0_0 i) (hc1 : ¬cond0_1 i) (x0 : Vec F S20096x128 .f32) (x1 : Vec F S128 .i32) (x2 : Vec F S128 .i32) (xs0 : Vec F S20096x128 .bf16) (xs1 : Vec F S20096x128 .bf16) (xs2 : Vec F S20096x128 .f32)

theorem scover0_B_2 (y : S20096x128.Idx) :
    ∃ pc ∈ (kernelRun0_B c i arg2 harg2 arg3 harg3 arg4 harg4 arg5 harg5 arg6 harg6 arg7 harg7 arg8 harg8 hc0 hc1 x0 x1 x2 xs0 xs1 xs2).1, y ∈ pc.1.set :=
  View.cover_of_tiledL (kernelRun0_B c i arg2 harg2 arg3 harg3 arg4 harg4 arg5 harg5 arg6 harg6 arg7 harg7 arg8 harg8 hc0 hc1 x0 x1 x2 xs0 xs1 xs2).1 S20096x128.size (by sl_kernel_rfl) y
def sout0_B_2 : Vec F S20096x128 .f32 :=
  arg8.view.read (Elt F) (arg8.view.writes (Elt F) arg8.view.junk (kernelRun0_B c i arg2 harg2 arg3 harg3 arg4 harg4 arg5 harg5 arg6 harg6 arg7 harg7 arg8 harg8 hc0 hc1 x0 x1 x2 xs0 xs1 xs2).1)

end

section
variable (hc0 : ¬cond0_0 i) (hc1 : cond0_1 i) (x0 : Vec F S20096x128 .f32) (x1 : Vec F S128 .i32) (x2 : Vec F S128 .i32) (xs0 : Vec F S20096x128 .bf16) (xs1 : Vec F S20096x128 .bf16) (xs2 : Vec F S20096x128 .f32)

theorem cover0_C_3 (y : S1x20096x128.Idx) :
    ∃ pc ∈ (kernelRun0_C c i arg2 harg2 arg3 harg3 arg4 harg4 arg5 harg5 arg6 harg6 arg7 harg7 arg8 harg8 hc0 hc1 x0 x1 x2 xs0 xs1 xs2).1, y ∈ pc.1.set :=
  View.cover_of_tiledL (kernelRun0_C c i arg2 harg2 arg3 harg3 arg4 harg4 arg5 harg5 arg6 harg6 arg7 harg7 arg8 harg8 hc0 hc1 x0 x1 x2 xs0 xs1 xs2).1 S1x20096x128.size (by sl_kernel_rfl) y
def out0_C_3 : Vec F S1x20096x128 .f32 :=
  arg5.view.read (Elt F) (arg5.view.writes (Elt F) arg5.view.junk (kernelRun0_C c i arg2 harg2 arg3 harg3 arg4 harg4 arg5 harg5 arg6 harg6 arg7 harg7 arg8 harg8 hc0 hc1 x0 x1 x2 xs0 xs1 xs2).1)
theorem scover0_C_2 (y : S20096x128.Idx) :
    ∃ pc ∈ (kernelRun0_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun0_C c i arg2 harg2 arg3 harg3 arg4 harg4 arg5 harg5 arg6 harg6 arg7 harg7 arg8 harg8 hc0 hc1 x0 x1 x2 xs0 xs1 xs2).2.1 S20096x128.size (by sl_kernel_rfl) y
def sout0_C_2 : Vec F S20096x128 .f32 :=
  arg8.view.read (Elt F) (arg8.view.writes (Elt F) arg8.view.junk (kernelRun0_C c i arg2 harg2 arg3 harg3 arg4 harg4 arg5 harg5 arg6 harg6 arg7 harg7 arg8 harg8 hc0 hc1 x0 x1 x2 xs0 xs1 xs2).2.1)

end

end Cert.Kernel.Gen

end
-- ==== Proof.KB.R0Runs.lean ====
import proofs.«408425_j84189948936514_2_alg».proof.Proof.KB.Pieces

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

theorem liveAt0_0 : ∀ t : Fin cfg0.N, cfg0.idle 0 (grid0.coords t) = false := live_0
theorem liveAt0_1 : ∀ t : Fin cfg0.N, cfg0.idle 1 (grid0.coords t) = false := live_1
theorem liveAt0_2 : ∀ t : Fin cfg0.N, cfg0.idle 2 (grid0.coords t) = false := live_2

theorem idleAt0_3 : ∀ t : Fin cfg0.N, ¬cond0_1 (grid0.coords t) → cfg0.idle 3 (grid0.coords t) = true := idle_3
theorem noFlush0_3 : ∀ t : Fin cfg0.N, ¬cond0_1 (grid0.coords t) → (cfg0.win 3).flush t = false := noFlush_3

theorem liveAt0_3 : ∀ t : Fin cfg0.N, cond0_1 (grid0.coords t) → cfg0.idle 3 (grid0.coords t) = false := live_3

abbrev VO0_3 : View sig .tc .vmem S1x20096x128 .f32 := (Memref.whole cc0_stg3_0 : Memref sig .tc .vmem S1x20096x128 .f32).view
abbrev ms0_0 (t : Fin cfg0.N) : Memref sig .tc .vmem S20096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x20096x128 .f32 := win0_3.stage (cfg0.slots t 3)
abbrev hs0_3 (t : Fin cfg0.N) : (ms0_3 t).IsWhole := hstage0_3 ((cfg0.slots t 3).cast nbuf0_3)

abbrev scM0_0 : Memref sig .tc .vmem S20096x128 .bf16 := Memref.whole cc0_scratch0
abbrev scM0_1 : Memref sig .tc .vmem S20096x128 .bf16 := Memref.whole cc0_scratch1
abbrev scM0_2 : Memref sig .tc .vmem S20096x128 .f32 := Memref.whole cc0_scratch2

def rest0 (c : Dev nD) : sProp 𝕄 :=
  Pipeline.scopedRestBut (τ := τ) (Ix := Unit) (Name := ℕ) (U := UR sig nD τ) (Lvl := ℕ) (Val := Elt F) spec0 c [cc0_scratch0, cc0_scratch1, cc0_scratch2]

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ rest0 c) ∗ (∃ r, prngReg c r)) := by
  have h := Pipeline.scopedRest_split_of_list (τ := τ) (Ix := Unit) (Name := ℕ) (U := UR sig nD τ) (Lvl := ℕ) (Val := Elt F) spec0 c [cc0_scratch0, cc0_scratch1, cc0_scratch2] (by decide) (by decide)
  unfold Pipeline.ΦA rest0
  rw [h]
  simp only [bigSepL, scM0_0, scM0_1, scM0_2, owns_whole]
  exact congrArg (fun X : sProp 𝕄 => iprop(X ∗ ∃ r, prngReg c r)) ((equiv_iff.mp ⟨BI.sep_assoc, BI.sep_assoc'⟩).trans (congrArg _ (equiv_iff.mp ⟨BI.sep_assoc, BI.sep_assoc'⟩)))

-- a function of the kernel's seven buffers, taken at the buffers of grid point t
abbrev at0 {β : grid0.Coords → Type} (f : (c : Dev nD) → (i : grid0.Coords) → (arg2 : Memref sig .tc .vmem S20096x128 .f32) → arg2.IsWhole → (arg3 : Memref sig .tc .vmem S128 .i32) → arg3.IsWhole → (arg4 : Memref sig .tc .vmem S128 .i32) → arg4.IsWhole → (arg5 : Memref sig .tc .vmem S1x20096x128 .f32) → arg5.IsWhole → (arg6 : Memref sig .tc .vmem S20096x128 .bf16) → arg6.IsWhole → (arg7 : Memref sig .tc .vmem S20096x128 .bf16) → arg7.IsWhole → (arg8 : Memref sig .tc .vmem S20096x128 .f32) → arg8.IsWhole → β i)
    (c : Dev nD) (t : Fin cfg0.N) : β (grid0.coords t) :=
  f c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _)

theorem bodyAt0_eq (t : Fin cfg0.N) : bodyAt0 (F := F) t = cc0__aggregate_kernel (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) := rfl

end Cert.Kernel.Gen

end
-- ==== Proof.KB.Steps.lean ====
import proofs.«408425_j84189948936514_2_alg».proof.Proof.KB.Pieces

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S20096x128 .f32) (harg2 : arg2.IsWhole) (arg3 : Memref sig .tc .vmem S128 .i32) (harg3 : arg3.IsWhole) (arg4 : Memref sig .tc .vmem S128 .i32) (harg4 : arg4.IsWhole) (arg5 : Memref sig .tc .vmem S1x20096x128 .f32) (harg5 : arg5.IsWhole) (arg6 : Memref sig .tc .vmem S20096x128 .bf16) (harg6 : arg6.IsWhole) (arg7 : Memref sig .tc .vmem S20096x128 .bf16) (harg7 : arg7.IsWhole) (arg8 : Memref sig .tc .vmem S20096x128 .f32) (harg8 : arg8.IsWhole)
variable {D0 D1 D2 D3 : Type}

-- one grid point as a triple, per control case: the first step of a half, a middle step, the last step
theorem stepA (hc0 : cond0_0 i) (hc1 : ¬cond0_1 i) (x0 : Vec F S20096x128 .f32) (x1 : Vec F S128 .i32) (x2 : Vec F S128 .i32) (R G Ho : sProp 𝕄) (b3 : D3 → Vec F S1x20096x128 .f32) :
    iprop(iprop(iprop((∃ d, owns (c : Thread nD τ) arg6 fullShare d) ∗ (∃ d, owns (c : Thread nD τ) arg7 fullShare d) ∗ (∃ d, owns (c : Thread nD τ) arg8 fullShare d) ∗ R) ∗ G) ∗ Ho
        ∗ (∃ _ : D0, owns (c : Thread nD τ) arg2 fullShare x0) ∗ (∃ _ : D1, owns (c : Thread nD τ) arg3 fullShare x1) ∗ (∃ _ : D2, owns (c : Thread nD τ) arg4 fullShare x2) ∗ (∃ d, owns (c : Thread nD τ) arg5 fullShare (b3 d)))
      ⊢ wp frame (wpE (defs₀ (F := F)) Variants.none c none) Set.univ (cc0__aggregate_kernel i arg2 harg2 arg3 harg3 arg4 harg4 arg5 harg5 arg6 harg6 arg7 harg7 arg8 harg8)
          (fun _ => iprop(iprop(iprop(owns (c : Thread nD τ) arg6 fullShare (sout0_A_0 c i arg2 harg2 arg3 harg3 arg4 harg4 arg5 harg5 arg6 harg6 arg7 harg7 arg8 harg8 hc0 hc1 x0 x1 x2) ∗ owns (c : Thread nD τ) arg7 fullShare (sout0_A_1 c i arg2 harg2 arg3 harg3 arg4 harg4 arg5 harg5 arg6 harg6 arg7 harg7 arg8 harg8 hc0 hc1 x0 x1 x2) ∗ owns (c : Thread nD τ) arg8 fullShare (sout0_A_2 c i arg2 harg2 arg3 harg3 arg4 harg4 arg5 harg5 arg6 harg6 arg7 harg7 arg8 harg8 hc0 hc1 x0 x1 x2) ∗ R) ∗ G) ∗ Ho
            ∗ owns (c : Thread nD τ) arg2 fullShare x0 ∗ owns (c : Thread nD τ) arg3 fullShare x1 ∗ owns (c : Thread nD τ) arg4 fullShare x2 ∗ (∃ d, owns (c : Thread nD τ) arg5 fullShare (b3 d)))) := by
  unfold sout0_A_0 sout0_A_1 sout0_A_2
  iintro ⟨⟨⟨HS0, HS1, HS2, HR⟩, Hg⟩, Ho, ⟨%d0, H0⟩, ⟨%d1, H1⟩, ⟨%d2, H2⟩, ⟨%d3, H3⟩⟩
  iapply ((kernelRun0_A c i arg2 harg2 arg3 harg3 arg4 harg4 arg5 harg5 arg6 harg6 arg7 harg7 arg8 harg8 hc0 hc1 x0 x1 x2).2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%es0, HS0⟩, ⟨%es1, HS1⟩, ⟨%es2, HS2⟩⟩
  isplitl [HS0 HS1 HS2 HR Hg]
  · isplitl [HS0 HS1 HS2 HR]
    · isplitl [HS0]
      · unfold owns; iexists _; isplitr
        swap; · iexact HS0
        ipureintro; exact View.read_writes_of_cover _ _ _ _ _ (scover0_A_0 c _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  iexists _; iexact H3

theorem stepB (hc0 : ¬cond0_0 i) (hc1 : ¬cond0_1 i) (x0 : Vec F S20096x128 .f32) (x1 : Vec F S128 .i32) (x2 : Vec F S128 .i32) (xs0 : Vec F S20096x128 .bf16) (xs1 : Vec F S20096x128 .bf16) (xs2 : Vec F S20096x128 .f32) (R G Ho : sProp 𝕄) (b3 : D3 → Vec F S1x20096x128 .f32) :
    iprop(iprop(iprop(owns (c : Thread nD τ) arg6 fullShare xs0 ∗ owns (c : Thread nD τ) arg7 fullShare xs1 ∗ owns (c : Thread nD τ) arg8 fullShare xs2 ∗ R) ∗ G) ∗ Ho
        ∗ (∃ _ : D0, owns (c : Thread nD τ) arg2 fullShare x0) ∗ (∃ _ : D1, owns (c : Thread nD τ) arg3 fullShare x1) ∗ (∃ _ : D2, owns (c : Thread nD τ) arg4 fullShare x2) ∗ (∃ d, owns (c : Thread nD τ) arg5 fullShare (b3 d)))
      ⊢ wp frame (wpE (defs₀ (F := F)) Variants.none c none) Set.univ (cc0__aggregate_kernel i arg2 harg2 arg3 harg3 arg4 harg4 arg5 harg5 arg6 harg6 arg7 harg7 arg8 harg8)
          (fun _ => iprop(iprop(iprop(owns (c : Thread nD τ) arg6 fullShare xs0 ∗ owns (c : Thread nD τ) arg7 fullShare xs1 ∗ owns (c : Thread nD τ) arg8 fullShare (sout0_B_2 c i arg2 harg2 arg3 harg3 arg4 harg4 arg5 harg5 arg6 harg6 arg7 harg7 arg8 harg8 hc0 hc1 x0 x1 x2 xs0 xs1 xs2) ∗ R) ∗ G) ∗ Ho
            ∗ owns (c : Thread nD τ) arg2 fullShare x0 ∗ owns (c : Thread nD τ) arg3 fullShare x1 ∗ owns (c : Thread nD τ) arg4 fullShare x2 ∗ (∃ d, owns (c : Thread nD τ) arg5 fullShare (b3 d)))) := by
  unfold sout0_B_2
  iintro ⟨⟨⟨HS0, HS1, HS2, HR⟩, Hg⟩, Ho, ⟨%d0, H0⟩, ⟨%d1, H1⟩, ⟨%d2, H2⟩, ⟨%d3, H3⟩⟩
  iapply ((kernelRun0_B c i arg2 harg2 arg3 harg3 arg4 harg4 arg5 harg5 arg6 harg6 arg7 harg7 arg8 harg8 hc0 hc1 x0 x1 x2 xs0 xs1 xs2).2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, ⟨%es2, HS2⟩⟩
  isplitl [HS0 HS1 HS2 HR Hg]
  · isplitl [HS0 HS1 HS2 HR]
    · isplitl [HS0]; · iexact HS0
      isplitl [HS1]; · iexact HS1
      isplitl [HS2]
      · unfold owns; iexists _; isplitr
        swap; · iexact HS2
        ipureintro; exact View.read_writes_of_cover _ _ _ _ _ (scover0_B_2 c _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  iexists _; iexact H3

theorem stepC (hc0 : ¬cond0_0 i) (hc1 : cond0_1 i) (x0 : Vec F S20096x128 .f32) (x1 : Vec F S128 .i32) (x2 : Vec F S128 .i32) (xs0 : Vec F S20096x128 .bf16) (xs1 : Vec F S20096x128 .bf16) (xs2 : Vec F S20096x128 .f32) (R G Ho : sProp 𝕄) (b3 : D3 → Vec F S1x20096x128 .f32) :
    iprop(iprop(iprop(owns (c : Thread nD τ) arg6 fullShare xs0 ∗ owns (c : Thread nD τ) arg7 fullShare xs1 ∗ owns (c : Thread nD τ) arg8 fullShare xs2 ∗ R) ∗ G) ∗ Ho
        ∗ (∃ _ : D0, owns (c : Thread nD τ) arg2 fullShare x0) ∗ (∃ _ : D1, owns (c : Thread nD τ) arg3 fullShare x1) ∗ (∃ _ : D2, owns (c : Thread nD τ) arg4 fullShare x2) ∗ (∃ d, owns (c : Thread nD τ) arg5 fullShare (b3 d)))
      ⊢ wp frame (wpE (defs₀ (F := F)) Variants.none c none) Set.univ (cc0__aggregate_kernel i arg2 harg2 arg3 harg3 arg4 harg4 arg5 harg5 arg6 harg6 arg7 harg7 arg8 harg8)
          (fun _ => iprop(iprop(iprop(owns (c : Thread nD τ) arg6 fullShare xs0 ∗ owns (c : Thread nD τ) arg7 fullShare xs1 ∗ owns (c : Thread nD τ) arg8 fullShare (sout0_C_2 c i arg2 harg2 arg3 harg3 arg4 harg4 arg5 harg5 arg6 harg6 arg7 harg7 arg8 harg8 hc0 hc1 x0 x1 x2 xs0 xs1 xs2) ∗ R) ∗ G) ∗ Ho
            ∗ owns (c : Thread nD τ) arg2 fullShare x0 ∗ owns (c : Thread nD τ) arg3 fullShare x1 ∗ owns (c : Thread nD τ) arg4 fullShare x2 ∗ owns (c : Thread nD τ) arg5 fullShare (out0_C_3 c i arg2 harg2 arg3 harg3 arg4 harg4 arg5 harg5 arg6 harg6 arg7 harg7 arg8 harg8 hc0 hc1 x0 x1 x2 xs0 xs1 xs2))) := by
  unfold out0_C_3 sout0_C_2
  iintro ⟨⟨⟨HS0, HS1, HS2, HR⟩, Hg⟩, Ho, ⟨%d0, H0⟩, ⟨%d1, H1⟩, ⟨%d2, H2⟩, ⟨%d3, H3⟩⟩
  iapply ((kernelRun0_C c i arg2 harg2 arg3 harg3 arg4 harg4 arg5 harg5 arg6 harg6 arg7 harg7 arg8 harg8 hc0 hc1 x0 x1 x2 xs0 xs1 xs2).2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, HS0, HS1, ⟨%es2, HS2⟩⟩
  isplitl [HS0 HS1 HS2 HR Hg]
  · isplitl [HS0 HS1 HS2 HR]
    · isplitl [HS0]; · iexact HS0
      isplitl [HS1]; · iexact HS1
      isplitl [HS2]
      · unfold owns; iexists _; isplitr
        swap; · iexact HS2
        ipureintro; exact View.read_writes_of_cover _ _ _ _ _ (scover0_C_2 c _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_C_3 c _ _ _ _ _ _ _ _ _ _ _ _ _ _ _ _ _ _ _ _ _ _ _)

end Cert.Kernel.Gen

end
-- ==== Proof.KB.R0Body.lean ====
import proofs.«408425_j84189948936514_2_alg».proof.Proof.KB.R0Runs
import proofs.«408425_j84189948936514_2_alg».proof.Proof.KB.Steps

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def idle0_3 : Vec F S1x20096x128 .f32 := VO0_3.read (Elt F) VO0_3.junk

section
variable (V : (c : Dev nD) → (b : Ref sig .tc) → Buf (Elt F) ((c : Thread nD τ).loc b))

-- after point n: the output block, the two halves of the feature table, the accumulator
def outsAt0 (c : Dev nD) : (n : ℕ) → n < cfg0.N → Vec F S1x20096x128 .f32 × Vec F S20096x128 .bf16 × Vec F S20096x128 .bf16 × Vec F S20096x128 .f32
  | 0, hn => (idle0_3, at0 sout0_A_0 c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), at0 sout0_A_1 c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), at0 sout0_A_2 c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 2500 = 0 then
      if h1 : (n + 1) % 2500 = 2499 then
        False.elim (by omega)
      else
        (idle0_3, at0 sout0_A_0 c ⟨n + 1, hn⟩ ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), at0 sout0_A_1 c ⟨n + 1, hn⟩ ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), at0 sout0_A_2 c ⟨n + 1, hn⟩ ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 2500 = 2499 then
        (at0 out0_C_3 c ⟨n + 1, hn⟩ (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2, (outsAt0 c n (Nat.lt_of_succ_lt hn)).2.1, (outsAt0 c n (Nat.lt_of_succ_lt hn)).2.2.1, at0 sout0_C_2 c ⟨n + 1, hn⟩ (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2)
      else
        (idle0_3, (outsAt0 c n (Nat.lt_of_succ_lt hn)).2.1, (outsAt0 c n (Nat.lt_of_succ_lt hn)).2.2.1, at0 sout0_B_2 c ⟨n + 1, hn⟩ (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 2500 = 0) (h1 : ¬t.val % 2500 = 2499) :
    outsAt0 V c t.val t.isLt = (idle0_3, at0 sout0_A_0 c t ((hcond0_0 t).mpr h0) (fun h => h1 ((hcond0_1 t).mp h)) (iblk0 V c 0 t) (iblk0 V c 1 t) (iblk0 V c 2 t), at0 sout0_A_1 c t ((hcond0_0 t).mpr h0) (fun h => h1 ((hcond0_1 t).mp h)) (iblk0 V c 0 t) (iblk0 V c 1 t) (iblk0 V c 2 t), at0 sout0_A_2 c t ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 2500 = 0) (h1 : ¬t.val % 2500 = 2499) :
    outsAt0 V c t.val t.isLt = (idle0_3, (outsAt0 V c (t.val - 1) (Nat.lt_of_le_of_lt (Nat.sub_le _ _) t.isLt)).2.1, (outsAt0 V c (t.val - 1) (Nat.lt_of_le_of_lt (Nat.sub_le _ _) t.isLt)).2.2.1, at0 sout0_B_2 c t (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 2500 = 0) (h1 : t.val % 2500 = 2499) :
    outsAt0 V c t.val t.isLt = (at0 out0_C_3 c t (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, (outsAt0 V c (t.val - 1) (Nat.lt_of_le_of_lt (Nat.sub_le _ _) t.isLt)).2.1, (outsAt0 V c (t.val - 1) (Nat.lt_of_le_of_lt (Nat.sub_le _ _) t.isLt)).2.2.1, at0 sout0_C_2 c t (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

-- between points the three scratch buffers hold what the point before left
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2) ∗ rest0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0; rw [bodyAt0_eq]
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 5000 := lt_of_lt_of_eq t.isLt (show cfg0.N = 5000 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 2500 = 0
  · by_cases h1 : t.val % 2500 = 2499
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      dsimp only [at0]
      have hΦ : (dat0 V c).Φ t.castSucc ⊢ Pipeline.ΦA spec0 c := by
        by_cases hz : t.val = 0
        · rw [PhiS0_castSucc V c t, PhiS0_zero V c _ _ hz]
        · exact Phi_out0 V c t.castSucc (by rwa [Fin.coe_castSucc])
      rw [PhiA0_eq] at hΦ
      exact (sep_mono hΦ .rfl).trans (stepA _ _ _ _ _ _ _ _ _ _ _ _ _ _ _ _ _ _ _ _ _ _ _ _ _)
  · have hz : t.val ≠ 0 := fun h => h0 (by rw [h])
    by_cases h1 : t.val % 2500 = 2499
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      dsimp only [at0]
      rw [PhiS0_castSucc V c t, PhiS0_pos V c _ _ hz]
      exact stepC _ _ _ _ _ _ _ _ _ _ _ _ _ _ _ _ _ _ _ _ _ _ _ _ _ _ _ _
    · rw [Dat.leavesExact_idle (dat0 V c) 3 t (idleAt0_3 t (fun h => h1 ((hcond0_1 t).mp h))) (noFlush0_3 t (fun h => h1 ((hcond0_1 t).mp h)))]
      rw [outsAt0_B V c t h0 h1]
      dsimp only [at0]
      rw [PhiS0_castSucc V c t, PhiS0_pos V c _ _ hz]
      exact stepB _ _ _ _ _ _ _ _ _ _ _ _ _ _ _ _ _ _ _ _ _ _ _ _ _ _ _ _

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c :=
  Phi_out0 V c _ (by rw [Fin.val_last]; have : cfg0.N = 5000 := N_0; omega)

end

end Cert.Kernel.Gen

end
-- ==== Proof.KB.R1Runs.lean ====
import proofs.«408425_j84189948936514_2_alg».proof.Proof.KB.Pieces

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

theorem liveAt1_0 : ∀ t : Fin cfg1.N, cfg1.idle 0 (grid1.coords t) = false := live_0
theorem liveAt1_1 : ∀ t : Fin cfg1.N, cfg1.idle 1 (grid1.coords t) = false := live_1
theorem liveAt1_2 : ∀ t : Fin cfg1.N, cfg1.idle 2 (grid1.coords t) = false := live_2

theorem idleAt1_3 : ∀ t : Fin cfg1.N, ¬cond0_1 (grid1.coords t) → cfg1.idle 3 (grid1.coords t) = true := idle_3
theorem noFlush1_3 : ∀ t : Fin cfg1.N, ¬cond0_1 (grid1.coords t) → (cfg1.win 3).flush t = false := noFlush_3

theorem liveAt1_3 : ∀ t : Fin cfg1.N, cond0_1 (grid1.coords t) → cfg1.idle 3 (grid1.coords t) = false := live_3

abbrev VO1_3 : View sig .tc .vmem S1x20096x128 .f32 := (Memref.whole cc1_stg3_0 : Memref sig .tc .vmem S1x20096x128 .f32).view
abbrev ms1_0 (t : Fin cfg1.N) : Memref sig .tc .vmem S20096x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x20096x128 .f32 := win1_3.stage (cfg1.slots t 3)
abbrev hs1_3 (t : Fin cfg1.N) : (ms1_3 t).IsWhole := hstage1_3 ((cfg1.slots t 3).cast nbuf1_3)

abbrev scM1_0 : Memref sig .tc .vmem S20096x128 .bf16 := Memref.whole cc1_scratch0
abbrev scM1_1 : Memref sig .tc .vmem S20096x128 .bf16 := Memref.whole cc1_scratch1
abbrev scM1_2 : Memref sig .tc .vmem S20096x128 .f32 := Memref.whole cc1_scratch2

def rest1 (c : Dev nD) : sProp 𝕄 :=
  Pipeline.scopedRestBut (τ := τ) (Ix := Unit) (Name := ℕ) (U := UR sig nD τ) (Lvl := ℕ) (Val := Elt F) spec1 c [cc1_scratch0, cc1_scratch1, cc1_scratch2]

theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ rest1 c) ∗ (∃ r, prngReg c r)) := by
  have h := Pipeline.scopedRest_split_of_list (τ := τ) (Ix := Unit) (Name := ℕ) (U := UR sig nD τ) (Lvl := ℕ) (Val := Elt F) spec1 c [cc1_scratch0, cc1_scratch1, cc1_scratch2] (by decide) (by decide)
  unfold Pipeline.ΦA rest1
  rw [h]
  simp only [bigSepL, scM1_0, scM1_1, scM1_2, owns_whole]
  exact congrArg (fun X : sProp 𝕄 => iprop(X ∗ ∃ r, prngReg c r)) ((equiv_iff.mp ⟨BI.sep_assoc, BI.sep_assoc'⟩).trans (congrArg _ (equiv_iff.mp ⟨BI.sep_assoc, BI.sep_assoc'⟩)))

-- a function of the kernel's seven buffers, taken at the buffers of grid point t
abbrev at1 {β : grid1.Coords → Type} (f : (c : Dev nD) → (i : grid1.Coords) → (arg2 : Memref sig .tc .vmem S20096x128 .f32) → arg2.IsWhole → (arg3 : Memref sig .tc .vmem S128 .i32) → arg3.IsWhole → (arg4 : Memref sig .tc .vmem S128 .i32) → arg4.IsWhole → (arg5 : Memref sig .tc .vmem S1x20096x128 .f32) → arg5.IsWhole → (arg6 : Memref sig .tc .vmem S20096x128 .bf16) → arg6.IsWhole → (arg7 : Memref sig .tc .vmem S20096x128 .bf16) → arg7.IsWhole → (arg8 : Memref sig .tc .vmem S20096x128 .f32) → arg8.IsWhole → β i)
    (c : Dev nD) (t : Fin cfg1.N) : β (grid1.coords t) :=
  f c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _)

theorem bodyAt1_eq (t : Fin cfg1.N) : bodyAt1 (F := F) t = cc0__aggregate_kernel (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) := rfl

end Cert.Kernel.Gen

end
-- ==== Proof.KB.R1Body.lean ====
import proofs.«408425_j84189948936514_2_alg».proof.Proof.KB.R1Runs
import proofs.«408425_j84189948936514_2_alg».proof.Proof.KB.Steps

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def idle1_3 : Vec F S1x20096x128 .f32 := VO1_3.read (Elt F) VO1_3.junk

section
variable (V : (c : Dev nD) → (b : Ref sig .tc) → Buf (Elt F) ((c : Thread nD τ).loc b))

-- after point n: the output block, the two halves of the feature table, the accumulator
def outsAt1 (c : Dev nD) : (n : ℕ) → n < cfg1.N → Vec F S1x20096x128 .f32 × Vec F S20096x128 .bf16 × Vec F S20096x128 .bf16 × Vec F S20096x128 .f32
  | 0, hn => (idle1_3, at1 sout0_A_0 c ⟨0, hn⟩ ((hcond0_0 ⟨0, hn⟩).mpr (Nat.zero_mod _)) (fun h => (fun h => by (try dsimp only at h); omega) ((hcond0_1 ⟨0, hn⟩).mp h)) (iblk1 V c 0 ⟨0, hn⟩) (iblk1 V c 1 ⟨0, hn⟩) (iblk1 V c 2 ⟨0, hn⟩), at1 sout0_A_1 c ⟨0, hn⟩ ((hcond0_0 ⟨0, hn⟩).mpr (Nat.zero_mod _)) (fun h => (fun h => by (try dsimp only at h); omega) ((hcond0_1 ⟨0, hn⟩).mp h)) (iblk1 V c 0 ⟨0, hn⟩) (iblk1 V c 1 ⟨0, hn⟩) (iblk1 V c 2 ⟨0, hn⟩), at1 sout0_A_2 c ⟨0, hn⟩ ((hcond0_0 ⟨0, hn⟩).mpr (Nat.zero_mod _)) (fun h => (fun h => by (try dsimp only at h); omega) ((hcond0_1 ⟨0, hn⟩).mp h)) (iblk1 V c 0 ⟨0, hn⟩) (iblk1 V c 1 ⟨0, hn⟩) (iblk1 V c 2 ⟨0, hn⟩))
  | n + 1, hn =>
    if h0 : (n + 1) % 2500 = 0 then
      if h1 : (n + 1) % 2500 = 2499 then
        False.elim (by omega)
      else
        (idle1_3, at1 sout0_A_0 c ⟨n + 1, hn⟩ ((hcond0_0 ⟨n + 1, hn⟩).mpr h0) (fun h => h1 ((hcond0_1 ⟨n + 1, hn⟩).mp h)) (iblk1 V c 0 ⟨n + 1, hn⟩) (iblk1 V c 1 ⟨n + 1, hn⟩) (iblk1 V c 2 ⟨n + 1, hn⟩), at1 sout0_A_1 c ⟨n + 1, hn⟩ ((hcond0_0 ⟨n + 1, hn⟩).mpr h0) (fun h => h1 ((hcond0_1 ⟨n + 1, hn⟩).mp h)) (iblk1 V c 0 ⟨n + 1, hn⟩) (iblk1 V c 1 ⟨n + 1, hn⟩) (iblk1 V c 2 ⟨n + 1, hn⟩), at1 sout0_A_2 c ⟨n + 1, hn⟩ ((hcond0_0 ⟨n + 1, hn⟩).mpr h0) (fun h => h1 ((hcond0_1 ⟨n + 1, hn⟩).mp h)) (iblk1 V c 0 ⟨n + 1, hn⟩) (iblk1 V c 1 ⟨n + 1, hn⟩) (iblk1 V c 2 ⟨n + 1, hn⟩))
    else
      if h1 : (n + 1) % 2500 = 2499 then
        (at1 out0_C_3 c ⟨n + 1, hn⟩ (fun h => h0 ((hcond0_0 ⟨n + 1, hn⟩).mp h)) ((hcond0_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, (outsAt1 c n (Nat.lt_of_succ_lt hn)).2.1, (outsAt1 c n (Nat.lt_of_succ_lt hn)).2.2.1, at1 sout0_C_2 c ⟨n + 1, hn⟩ (fun h => h0 ((hcond0_0 ⟨n + 1, hn⟩).mp h)) ((hcond0_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (idle1_3, (outsAt1 c n (Nat.lt_of_succ_lt hn)).2.1, (outsAt1 c n (Nat.lt_of_succ_lt hn)).2.2.1, at1 sout0_B_2 c ⟨n + 1, hn⟩ (fun h => h0 ((hcond0_0 ⟨n + 1, hn⟩).mp h)) (fun h => h1 ((hcond0_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 2500 = 0) (h1 : ¬t.val % 2500 = 2499) :
    outsAt1 V c t.val t.isLt = (idle1_3, at1 sout0_A_0 c t ((hcond0_0 t).mpr h0) (fun h => h1 ((hcond0_1 t).mp h)) (iblk1 V c 0 t) (iblk1 V c 1 t) (iblk1 V c 2 t), at1 sout0_A_1 c t ((hcond0_0 t).mpr h0) (fun h => h1 ((hcond0_1 t).mp h)) (iblk1 V c 0 t) (iblk1 V c 1 t) (iblk1 V c 2 t), at1 sout0_A_2 c t ((hcond0_0 t).mpr h0) (fun h => h1 ((hcond0_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 2500 = 0) (h1 : ¬t.val % 2500 = 2499) :
    outsAt1 V c t.val t.isLt = (idle1_3, (outsAt1 V c (t.val - 1) (Nat.lt_of_le_of_lt (Nat.sub_le _ _) t.isLt)).2.1, (outsAt1 V c (t.val - 1) (Nat.lt_of_le_of_lt (Nat.sub_le _ _) t.isLt)).2.2.1, at1 sout0_B_2 c t (fun h => h0 ((hcond0_0 t).mp h)) (fun h => h1 ((hcond0_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 2500 = 0) (h1 : t.val % 2500 = 2499) :
    outsAt1 V c t.val t.isLt = (at1 out0_C_3 c t (fun h => h0 ((hcond0_0 t).mp h)) ((hcond0_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, (outsAt1 V c (t.val - 1) (Nat.lt_of_le_of_lt (Nat.sub_le _ _) t.isLt)).2.1, (outsAt1 V c (t.val - 1) (Nat.lt_of_le_of_lt (Nat.sub_le _ _) t.isLt)).2.2.1, at1 sout0_C_2 c t (fun h => h0 ((hcond0_0 t).mp h)) ((hcond0_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

-- between points the three scratch buffers hold what the point before left
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1; rw [bodyAt1_eq]
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 5000 := lt_of_lt_of_eq t.isLt (show cfg1.N = 5000 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2500 = 0
  · by_cases h1 : t.val % 2500 = 2499
    · exfalso; omega
    · rw [Dat.leavesExact_idle (dat1 V c) 3 t (idleAt1_3 t (fun h => h1 ((hcond0_1 t).mp h))) (noFlush1_3 t (fun h => h1 ((hcond0_1 t).mp h)))]
      rw [outsAt1_A V c t h0 h1]
      dsimp only [at1]
      have hΦ : (dat1 V c).Φ t.castSucc ⊢ Pipeline.ΦA spec1 c := by
        by_cases hz : t.val = 0
        · rw [PhiS1_castSucc V c t, PhiS1_zero V c _ _ hz]
        · exact Phi_out1 V c t.castSucc (by rwa [Fin.coe_castSucc])
      rw [PhiA1_eq] at hΦ
      exact (sep_mono hΦ .rfl).trans (stepA _ _ _ _ _ _ _ _ _ _ _ _ _ _ _ _ _ _ _ _ _ _ _ _ _)
  · have hz : t.val ≠ 0 := fun h => h0 (by rw [h])
    by_cases h1 : t.val % 2500 = 2499
    · rw [show (dat1 V c).leavesExact 3 t = owns (c : Thread nD τ) (ms1_3 t) fullShare ((dat1 V c).after 3 t) from by
        unfold Dat.leavesExact; rw [liveAt1_3 t ((hcond0_1 t).mpr h1)], after1_3]
      rw [outsAt1_C V c t h0 h1]
      dsimp only [at1]
      rw [PhiS1_castSucc V c t, PhiS1_pos V c _ _ hz]
      exact stepC _ _ _ _ _ _ _ _ _ _ _ _ _ _ _ _ _ _ _ _ _ _ _ _ _ _ _ _
    · rw [Dat.leavesExact_idle (dat1 V c) 3 t (idleAt1_3 t (fun h => h1 ((hcond0_1 t).mp h))) (noFlush1_3 t (fun h => h1 ((hcond0_1 t).mp h)))]
      rw [outsAt1_B V c t h0 h1]
      dsimp only [at1]
      rw [PhiS1_castSucc V c t, PhiS1_pos V c _ _ hz]
      exact stepB _ _ _ _ _ _ _ _ _ _ _ _ _ _ _ _ _ _ _ _ _ _ _ _ _ _ _ _

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c :=
  Phi_out1 V c _ (by rw [Fin.val_last]; have : cfg1.N = 5000 := N_1; omega)

end

end Cert.Kernel.Gen

end
-- ==== Proof.KB.R2Runs.lean ====
import proofs.«408425_j84189948936514_2_alg».proof.Proof.KB.Pieces

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
end

theorem liveAt2_0 : ∀ t : Fin cfg2.N, cfg2.idle 0 (grid2.coords t) = false := live_0
theorem liveAt2_1 : ∀ t : Fin cfg2.N, cfg2.idle 1 (grid2.coords t) = false := live_1
theorem liveAt2_2 : ∀ t : Fin cfg2.N, cfg2.idle 2 (grid2.coords t) = false := live_2

theorem idleAt2_3 : ∀ t : Fin cfg2.N, ¬cond0_1 (grid2.coords t) → cfg2.idle 3 (grid2.coords t) = true := idle_3
theorem noFlush2_3 : ∀ t : Fin cfg2.N, ¬cond0_1 (grid2.coords t) → (cfg2.win 3).flush t = false := noFlush_3

theorem liveAt2_3 : ∀ t : Fin cfg2.N, cond0_1 (grid2.coords t) → cfg2.idle 3 (grid2.coords t) = false := live_3

abbrev VO2_3 : View sig .tc .vmem S1x20096x128 .f32 := (Memref.whole cc2_stg3_0 : Memref sig .tc .vmem S1x20096x128 .f32).view
abbrev ms2_0 (t : Fin cfg2.N) : Memref sig .tc .vmem S20096x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x20096x128 .f32 := win2_3.stage (cfg2.slots t 3)
abbrev hs2_3 (t : Fin cfg2.N) : (ms2_3 t).IsWhole := hstage2_3 ((cfg2.slots t 3).cast nbuf2_3)

abbrev scM2_0 : Memref sig .tc .vmem S20096x128 .bf16 := Memref.whole cc2_scratch0
abbrev scM2_1 : Memref sig .tc .vmem S20096x128 .bf16 := Memref.whole cc2_scratch1
abbrev scM2_2 : Memref sig .tc .vmem S20096x128 .f32 := Memref.whole cc2_scratch2

def rest2 (c : Dev nD) : sProp 𝕄 :=
  Pipeline.scopedRestBut (τ := τ) (Ix := Unit) (Name := ℕ) (U := UR sig nD τ) (Lvl := ℕ) (Val := Elt F) spec2 c [cc2_scratch0, cc2_scratch1, cc2_scratch2]

theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ (∃ d, owns (c : Thread nD τ) scM2_2 fullShare d) ∗ rest2 c) ∗ (∃ r, prngReg c r)) := by
  have h := Pipeline.scopedRest_split_of_list (τ := τ) (Ix := Unit) (Name := ℕ) (U := UR sig nD τ) (Lvl := ℕ) (Val := Elt F) spec2 c [cc2_scratch0, cc2_scratch1, cc2_scratch2] (by decide) (by decide)
  unfold Pipeline.ΦA rest2
  rw [h]
  simp only [bigSepL, scM2_0, scM2_1, scM2_2, owns_whole]
  exact congrArg (fun X : sProp 𝕄 => iprop(X ∗ ∃ r, prngReg c r)) ((equiv_iff.mp ⟨BI.sep_assoc, BI.sep_assoc'⟩).trans (congrArg _ (equiv_iff.mp ⟨BI.sep_assoc, BI.sep_assoc'⟩)))

-- a function of the kernel's seven buffers, taken at the buffers of grid point t
abbrev at2 {β : grid2.Coords → Type} (f : (c : Dev nD) → (i : grid2.Coords) → (arg2 : Memref sig .tc .vmem S20096x128 .f32) → arg2.IsWhole → (arg3 : Memref sig .tc .vmem S128 .i32) → arg3.IsWhole → (arg4 : Memref sig .tc .vmem S128 .i32) → arg4.IsWhole → (arg5 : Memref sig .tc .vmem S1x20096x128 .f32) → arg5.IsWhole → (arg6 : Memref sig .tc .vmem S20096x128 .bf16) → arg6.IsWhole → (arg7 : Memref sig .tc .vmem S20096x128 .bf16) → arg7.IsWhole → (arg8 : Memref sig .tc .vmem S20096x128 .f32) → arg8.IsWhole → β i)
    (c : Dev nD) (t : Fin cfg2.N) : β (grid2.coords t) :=
  f c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _)

theorem bodyAt2_eq (t : Fin cfg2.N) : bodyAt2 (F := F) t = cc0__aggregate_kernel (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) := rfl

end Cert.Kernel.Gen

end
-- ==== Proof.KB.R2Body.lean ====
import proofs.«408425_j84189948936514_2_alg».proof.Proof.KB.R2Runs
import proofs.«408425_j84189948936514_2_alg».proof.Proof.KB.Steps

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def idle2_3 : Vec F S1x20096x128 .f32 := VO2_3.read (Elt F) VO2_3.junk

section
variable (V : (c : Dev nD) → (b : Ref sig .tc) → Buf (Elt F) ((c : Thread nD τ).loc b))

-- after point n: the output block, the two halves of the feature table, the accumulator
def outsAt2 (c : Dev nD) : (n : ℕ) → n < cfg2.N → Vec F S1x20096x128 .f32 × Vec F S20096x128 .bf16 × Vec F S20096x128 .bf16 × Vec F S20096x128 .f32
  | 0, hn => (idle2_3, at2 sout0_A_0 c ⟨0, hn⟩ ((hcond0_0 ⟨0, hn⟩).mpr (Nat.zero_mod _)) (fun h => (fun h => by (try dsimp only at h); omega) ((hcond0_1 ⟨0, hn⟩).mp h)) (iblk2 V c 0 ⟨0, hn⟩) (iblk2 V c 1 ⟨0, hn⟩) (iblk2 V c 2 ⟨0, hn⟩), at2 sout0_A_1 c ⟨0, hn⟩ ((hcond0_0 ⟨0, hn⟩).mpr (Nat.zero_mod _)) (fun h => (fun h => by (try dsimp only at h); omega) ((hcond0_1 ⟨0, hn⟩).mp h)) (iblk2 V c 0 ⟨0, hn⟩) (iblk2 V c 1 ⟨0, hn⟩) (iblk2 V c 2 ⟨0, hn⟩), at2 sout0_A_2 c ⟨0, hn⟩ ((hcond0_0 ⟨0, hn⟩).mpr (Nat.zero_mod _)) (fun h => (fun h => by (try dsimp only at h); omega) ((hcond0_1 ⟨0, hn⟩).mp h)) (iblk2 V c 0 ⟨0, hn⟩) (iblk2 V c 1 ⟨0, hn⟩) (iblk2 V c 2 ⟨0, hn⟩))
  | n + 1, hn =>
    if h0 : (n + 1) % 2500 = 0 then
      if h1 : (n + 1) % 2500 = 2499 then
        False.elim (by omega)
      else
        (idle2_3, at2 sout0_A_0 c ⟨n + 1, hn⟩ ((hcond0_0 ⟨n + 1, hn⟩).mpr h0) (fun h => h1 ((hcond0_1 ⟨n + 1, hn⟩).mp h)) (iblk2 V c 0 ⟨n + 1, hn⟩) (iblk2 V c 1 ⟨n + 1, hn⟩) (iblk2 V c 2 ⟨n + 1, hn⟩), at2 sout0_A_1 c ⟨n + 1, hn⟩ ((hcond0_0 ⟨n + 1, hn⟩).mpr h0) (fun h => h1 ((hcond0_1 ⟨n + 1, hn⟩).mp h)) (iblk2 V c 0 ⟨n + 1, hn⟩) (iblk2 V c 1 ⟨n + 1, hn⟩) (iblk2 V c 2 ⟨n + 1, hn⟩), at2 sout0_A_2 c ⟨n + 1, hn⟩ ((hcond0_0 ⟨n + 1, hn⟩).mpr h0) (fun h => h1 ((hcond0_1 ⟨n + 1, hn⟩).mp h)) (iblk2 V c 0 ⟨n + 1, hn⟩) (iblk2 V c 1 ⟨n + 1, hn⟩) (iblk2 V c 2 ⟨n + 1, hn⟩))
    else
      if h1 : (n + 1) % 2500 = 2499 then
        (at2 out0_C_3 c ⟨n + 1, hn⟩ (fun h => h0 ((hcond0_0 ⟨n + 1, hn⟩).mp h)) ((hcond0_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2.1 (outsAt2 c n (Nat.lt_of_succ_lt hn)).2.2.2, (outsAt2 c n (Nat.lt_of_succ_lt hn)).2.1, (outsAt2 c n (Nat.lt_of_succ_lt hn)).2.2.1, at2 sout0_C_2 c ⟨n + 1, hn⟩ (fun h => h0 ((hcond0_0 ⟨n + 1, hn⟩).mp h)) ((hcond0_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2.1 (outsAt2 c n (Nat.lt_of_succ_lt hn)).2.2.2)
      else
        (idle2_3, (outsAt2 c n (Nat.lt_of_succ_lt hn)).2.1, (outsAt2 c n (Nat.lt_of_succ_lt hn)).2.2.1, at2 sout0_B_2 c ⟨n + 1, hn⟩ (fun h => h0 ((hcond0_0 ⟨n + 1, hn⟩).mp h)) (fun h => h1 ((hcond0_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2.1 (outsAt2 c n (Nat.lt_of_succ_lt hn)).2.2.2)

theorem outsAt2_A (c : Dev nD) (t : Fin cfg2.N) (h0 : t.val % 2500 = 0) (h1 : ¬t.val % 2500 = 2499) :
    outsAt2 V c t.val t.isLt = (idle2_3, at2 sout0_A_0 c t ((hcond0_0 t).mpr h0) (fun h => h1 ((hcond0_1 t).mp h)) (iblk2 V c 0 t) (iblk2 V c 1 t) (iblk2 V c 2 t), at2 sout0_A_1 c t ((hcond0_0 t).mpr h0) (fun h => h1 ((hcond0_1 t).mp h)) (iblk2 V c 0 t) (iblk2 V c 1 t) (iblk2 V c 2 t), at2 sout0_A_2 c t ((hcond0_0 t).mpr h0) (fun h => h1 ((hcond0_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 2500 = 0) (h1 : ¬t.val % 2500 = 2499) :
    outsAt2 V c t.val t.isLt = (idle2_3, (outsAt2 V c (t.val - 1) (Nat.lt_of_le_of_lt (Nat.sub_le _ _) t.isLt)).2.1, (outsAt2 V c (t.val - 1) (Nat.lt_of_le_of_lt (Nat.sub_le _ _) t.isLt)).2.2.1, at2 sout0_B_2 c t (fun h => h0 ((hcond0_0 t).mp h)) (fun h => h1 ((hcond0_1 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 2500 = 0) (h1 : t.val % 2500 = 2499) :
    outsAt2 V c t.val t.isLt = (at2 out0_C_3 c t (fun h => h0 ((hcond0_0 t).mp h)) ((hcond0_1 t).mpr h1) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, (outsAt2 V c (t.val - 1) (Nat.lt_of_le_of_lt (Nat.sub_le _ _) t.isLt)).2.1, (outsAt2 V c (t.val - 1) (Nat.lt_of_le_of_lt (Nat.sub_le _ _) t.isLt)).2.2.1, at2 sout0_C_2 c t (fun h => h0 ((hcond0_0 t).mp h)) ((hcond0_1 t).mpr h1) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

-- between points the three scratch buffers hold what the point before left
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2) ∗ rest2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2.1) ∗ owns (c : Thread nD τ) scM2_1 fullShare ((outsAt2 V c (n - 1) (by omega)).2.2.1) ∗ owns (c : Thread nD τ) scM2_2 fullShare ((outsAt2 V c (n - 1) (by omega)).2.2.2) ∗ rest2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 8000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2; rw [bodyAt2_eq]
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 5000 := lt_of_lt_of_eq t.isLt (show cfg2.N = 5000 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 2500 = 0
  · by_cases h1 : t.val % 2500 = 2499
    · exfalso; omega
    · rw [Dat.leavesExact_idle (dat2 V c) 3 t (idleAt2_3 t (fun h => h1 ((hcond0_1 t).mp h))) (noFlush2_3 t (fun h => h1 ((hcond0_1 t).mp h)))]
      rw [outsAt2_A V c t h0 h1]
      dsimp only [at2]
      have hΦ : (dat2 V c).Φ t.castSucc ⊢ Pipeline.ΦA spec2 c := by
        by_cases hz : t.val = 0
        · rw [PhiS2_castSucc V c t, PhiS2_zero V c _ _ hz]
        · exact Phi_out2 V c t.castSucc (by rwa [Fin.coe_castSucc])
      rw [PhiA2_eq] at hΦ
      exact (sep_mono hΦ .rfl).trans (stepA _ _ _ _ _ _ _ _ _ _ _ _ _ _ _ _ _ _ _ _ _ _ _ _ _)
  · have hz : t.val ≠ 0 := fun h => h0 (by rw [h])
    by_cases h1 : t.val % 2500 = 2499
    · rw [show (dat2 V c).leavesExact 3 t = owns (c : Thread nD τ) (ms2_3 t) fullShare ((dat2 V c).after 3 t) from by
        unfold Dat.leavesExact; rw [liveAt2_3 t ((hcond0_1 t).mpr h1)], after2_3]
      rw [outsAt2_C V c t h0 h1]
      dsimp only [at2]
      rw [PhiS2_castSucc V c t, PhiS2_pos V c _ _ hz]
      exact stepC _ _ _ _ _ _ _ _ _ _ _ _ _ _ _ _ _ _ _ _ _ _ _ _ _ _ _ _
    · rw [Dat.leavesExact_idle (dat2 V c) 3 t (idleAt2_3 t (fun h => h1 ((hcond0_1 t).mp h))) (noFlush2_3 t (fun h => h1 ((hcond0_1 t).mp h)))]
      rw [outsAt2_B V c t h0 h1]
      dsimp only [at2]
      rw [PhiS2_castSucc V c t, PhiS2_pos V c _ _ hz]
      exact stepB _ _ _ _ _ _ _ _ _ _ _ _ _ _ _ _ _ _ _ _ _ _ _ _ _ _ _ _

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c :=
  Phi_out2 V c _ (by rw [Fin.val_last]; have : cfg2.N = 5000 := N_2; omega)

end

end Cert.Kernel.Gen

end
-- ==== Proof.KB.Run.lean ====
import proofs.«408425_j84189948936514_2_alg».proof.Proof.KB.R0Body
import proofs.«408425_j84189948936514_2_alg».proof.Proof.KB.R1Body
import proofs.«408425_j84189948936514_2_alg».proof.Proof.KB.R2Body
import proofs.«408425_j84189948936514_2_alg».proof.Proof.Gen.Kernel.Regions

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

abbrev Lz : GSem nD τ sig → Finset Unit := fun _ => ∅
abbrev lvz : GSem nD τ sig → Unit → ℕ := fun _ _ => 0

abbrev Rr (c : Dev nD) : sProp 𝕄 := iprop((∃ r, prngReg c r) ∗ ∃ W, owes (c : Thread nD τ) (0 : CellTallies nD τ sig Unit) W)

abbrev Ve8 : (c : Dev nD) → (b : Ref sig .tc) → Buf (Elt F) ((c : Thread nD τ).loc b) := fun c b => V8 m c b
abbrev Ve9 (outs : Outs (F := F)) : (c : Dev nD) → (b : Ref sig .tc) → Buf (Elt F) ((c : Thread nD τ).loc b) := fun c b => V9 m outs c b
abbrev Ve11 (outs : Outs (F := F)) : (c : Dev nD) → (b : Ref sig .tc) → Buf (Elt F) ((c : Thread nD τ).loc b) := fun c b => V11 m outs c b
abbrev Ve12 (outs : Outs (F := F)) : (c : Dev nD) → (b : Ref sig .tc) → Buf (Elt F) ((c : Thread nD τ).loc b) := fun c b => V12 m outs c b
abbrev Ve14 (outs : Outs (F := F)) : (c : Dev nD) → (b : Ref sig .tc) → Buf (Elt F) ((c : Thread nD τ).loc b) := fun c b => V14 m outs c b
abbrev Ve15 (outs : Outs (F := F)) : (c : Dev nD) → (b : Ref sig .tc) → Buf (Elt F) ((c : Thread nD τ).loc b) := fun c b => V15 m outs c b

def pdats (outs : Outs (F := F)) : (p : Fin 3) → (c : Dev nD) → Dat τ (Elt F) Unit ℕ (UR sig nD τ) ℕ (cfgs p) c
  | ⟨0, _⟩ => fun c => dat0 (Ve8 m) c
  | ⟨1, _⟩ => fun c => dat1 (Ve11 m outs) c
  | ⟨2, _⟩ => fun c => dat2 (Ve14 m outs) c

structure GoodOuts (outs : Outs (F := F)) : Prop where
  h9 : ∀ c : Dev nD, outs 9 main_v27 c = (pdats m outs 0 c).arrAt 3 cfg0.N
  h12 : ∀ c : Dev nD, outs 12 main_v47 c = (pdats m outs 1 c).arrAt 3 cfg1.N
  h15 : ∀ c : Dev nD, outs 15 main_v67 c = (pdats m outs 2 c).arrAt 3 cfg2.N

set_option maxHeartbeats 1000000 in

theorem hF0 (outs : Outs (F := F)) (hO : GoodOuts m outs) (c : Dev nD) (w : Fin cfg0.W) :
    (pdats m outs 0 c).arrAt w cfg0.N = Ve9 m outs c (Pipeline.arrRef spec0 w) := by
  have h0 : (dat0 (Ve8 m) c).arrAt 0 cfg0.N = Ve9 m outs c (Pipeline.arrRef spec0 0) :=
    ((dat0 (Ve8 m) c).arrAt_in 0 rfl _).trans ((A_eq0 (Ve8 m) c 0).trans (V9_of m outs c (Pipeline.arrRef spec0 0) (by decide)).symm)
  have h1 : (dat0 (Ve8 m) c).arrAt 1 cfg0.N = Ve9 m outs c (Pipeline.arrRef spec0 1) :=
    ((dat0 (Ve8 m) c).arrAt_in 1 rfl _).trans ((A_eq0 (Ve8 m) c 1).trans (V9_of m outs c (Pipeline.arrRef spec0 1) (by decide)).symm)
  have h2 : (dat0 (Ve8 m) c).arrAt 2 cfg0.N = Ve9 m outs c (Pipeline.arrRef spec0 2) :=
    ((dat0 (Ve8 m) c).arrAt_in 2 rfl _).trans ((A_eq0 (Ve8 m) c 2).trans (V9_of m outs c (Pipeline.arrRef spec0 2) (by decide)).symm)
  have h3 : (pdats m outs 0 c).arrAt 3 cfg0.N = Ve9 m outs c (Pipeline.arrRef spec0 3) :=
    (hO.h9 c).symm.trans (Eq.symm (by
      show Function.update (V8 m c) (Proc.devRef .tc main_v27) (outs 9 main_v27 c) (Proc.devRef .tc main_v27) = outs 9 main_v27 c
      first | exact Function.update_self _ _ _ | exact Function.update_same _ _ _))
  obtain ⟨n, hn⟩ := w
  match n, hn with
  | 0, _ => exact h0
  | 1, _ => exact h1
  | 2, _ => exact h2
  | 3, _ => exact h3
  | n + 4, h => exact absurd (show n + 4 < 4 from h) (by omega)
theorem hrest0 (outs : Outs (F := F)) (c : Dev nD) : ∀ b : Ref sig .tc, b ∉ Finset.univ.image (Pipeline.arrRef spec0) →
    Ve9 m outs c b = Ve8 m c b :=
  fun b hb => V9_of m outs c b (fun h => hb (Finset.mem_image.mpr ⟨3, Finset.mem_univ _, ((List.mem_singleton.mp h)).symm⟩))

set_option backward.isDefEq.respectTransparency.types false in

def reg0 (outs : Outs (F := F)) (hO : GoodOuts m outs) : Pipeline.RegionSeg (pcfgs (F := F)) adm (pdats m outs) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Ve8 m) c).loose
  hwaits := Pipeline.hwaits_of_owed_zero _ _ _ _ Lz lvz 0 fun _ _ => rfl
  pre c := iprop(StableHlo.held (c : Thread nD τ) (Pipeline.ucRefs τ sig) (V8 m c) ∗ Rr c)
  post c := iprop(StableHlo.held (c : Thread nD τ) (Pipeline.ucRefs τ sig) (V9 m outs c) ∗ Rr c)
  X c := iprop(∃ r, prngReg c r)
  Y c := iprop(∃ r, prngReg c r)
  Z c := Pipeline.unscopedRest (Ix := Unit) (Name := ℕ) (U := UR sig nD τ) (Lvl := ℕ) spec0 c (Ve8 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (Ve8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none]
    have h1 := hout0 (Ve8 m) c
    have h2 : (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (Ve8 m c) (Ve9 m outs c) ((pdats m outs 0 c).arrAt · cfg0.N) (hF0 m outs hO c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in

theorem hF1 (outs : Outs (F := F)) (hO : GoodOuts m outs) (c : Dev nD) (w : Fin cfg1.W) :
    (pdats m outs 1 c).arrAt w cfg1.N = Ve12 m outs c (Pipeline.arrRef spec1 w) := by
  have h0 : (dat1 (Ve11 m outs) c).arrAt 0 cfg1.N = Ve12 m outs c (Pipeline.arrRef spec1 0) :=
    ((dat1 (Ve11 m outs) c).arrAt_in 0 rfl _).trans ((A_eq1 (Ve11 m outs) c 0).trans (V12_of m outs c (Pipeline.arrRef spec1 0) (by decide)).symm)
  have h1 : (dat1 (Ve11 m outs) c).arrAt 1 cfg1.N = Ve12 m outs c (Pipeline.arrRef spec1 1) :=
    ((dat1 (Ve11 m outs) c).arrAt_in 1 rfl _).trans ((A_eq1 (Ve11 m outs) c 1).trans (V12_of m outs c (Pipeline.arrRef spec1 1) (by decide)).symm)
  have h2 : (dat1 (Ve11 m outs) c).arrAt 2 cfg1.N = Ve12 m outs c (Pipeline.arrRef spec1 2) :=
    ((dat1 (Ve11 m outs) c).arrAt_in 2 rfl _).trans ((A_eq1 (Ve11 m outs) c 2).trans (V12_of m outs c (Pipeline.arrRef spec1 2) (by decide)).symm)
  have h3 : (pdats m outs 1 c).arrAt 3 cfg1.N = Ve12 m outs c (Pipeline.arrRef spec1 3) :=
    (hO.h12 c).symm.trans (Eq.symm (by
      show Function.update (V11 m outs c) (Proc.devRef .tc main_v47) (outs 12 main_v47 c) (Proc.devRef .tc main_v47) = outs 12 main_v47 c
      first | exact Function.update_self _ _ _ | exact Function.update_same _ _ _))
  obtain ⟨n, hn⟩ := w
  match n, hn with
  | 0, _ => exact h0
  | 1, _ => exact h1
  | 2, _ => exact h2
  | 3, _ => exact h3
  | n + 4, h => exact absurd (show n + 4 < 4 from h) (by omega)
theorem hrest1 (outs : Outs (F := F)) (c : Dev nD) : ∀ b : Ref sig .tc, b ∉ Finset.univ.image (Pipeline.arrRef spec1) →
    Ve12 m outs c b = Ve11 m outs c b :=
  fun b hb => V12_of m outs c b (fun h => hb (Finset.mem_image.mpr ⟨3, Finset.mem_univ _, ((List.mem_singleton.mp h)).symm⟩))

set_option backward.isDefEq.respectTransparency.types false in

def reg1 (outs : Outs (F := F)) (hO : GoodOuts m outs) : Pipeline.RegionSeg (pcfgs (F := F)) adm (pdats m outs) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Ve11 m outs) c).loose
  hwaits := Pipeline.hwaits_of_owed_zero _ _ _ _ Lz lvz 1 fun _ _ => rfl
  pre c := iprop(StableHlo.held (c : Thread nD τ) (Pipeline.ucRefs τ sig) (V11 m outs c) ∗ Rr c)
  post c := iprop(StableHlo.held (c : Thread nD τ) (Pipeline.ucRefs τ sig) (V12 m outs c) ∗ Rr c)
  X c := iprop(∃ r, prngReg c r)
  Y c := iprop(∃ r, prngReg c r)
  Z c := Pipeline.unscopedRest (Ix := Unit) (Name := ℕ) (U := UR sig nD τ) (Lvl := ℕ) spec1 c (Ve11 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (Ve11 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 := hout1 (Ve11 m outs) c
    have h2 : (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (Ve11 m outs c) (Ve12 m outs c) ((pdats m outs 1 c).arrAt · cfg1.N) (hF1 m outs hO c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in

theorem hF2 (outs : Outs (F := F)) (hO : GoodOuts m outs) (c : Dev nD) (w : Fin cfg2.W) :
    (pdats m outs 2 c).arrAt w cfg2.N = Ve15 m outs c (Pipeline.arrRef spec2 w) := by
  have h0 : (dat2 (Ve14 m outs) c).arrAt 0 cfg2.N = Ve15 m outs c (Pipeline.arrRef spec2 0) :=
    ((dat2 (Ve14 m outs) c).arrAt_in 0 rfl _).trans ((A_eq2 (Ve14 m outs) c 0).trans (V15_of m outs c (Pipeline.arrRef spec2 0) (by decide)).symm)
  have h1 : (dat2 (Ve14 m outs) c).arrAt 1 cfg2.N = Ve15 m outs c (Pipeline.arrRef spec2 1) :=
    ((dat2 (Ve14 m outs) c).arrAt_in 1 rfl _).trans ((A_eq2 (Ve14 m outs) c 1).trans (V15_of m outs c (Pipeline.arrRef spec2 1) (by decide)).symm)
  have h2 : (dat2 (Ve14 m outs) c).arrAt 2 cfg2.N = Ve15 m outs c (Pipeline.arrRef spec2 2) :=
    ((dat2 (Ve14 m outs) c).arrAt_in 2 rfl _).trans ((A_eq2 (Ve14 m outs) c 2).trans (V15_of m outs c (Pipeline.arrRef spec2 2) (by decide)).symm)
  have h3 : (pdats m outs 2 c).arrAt 3 cfg2.N = Ve15 m outs c (Pipeline.arrRef spec2 3) :=
    (hO.h15 c).symm.trans (Eq.symm (by
      show Function.update (V14 m outs c) (Proc.devRef .tc main_v67) (outs 15 main_v67 c) (Proc.devRef .tc main_v67) = outs 15 main_v67 c
      first | exact Function.update_self _ _ _ | exact Function.update_same _ _ _))
  obtain ⟨n, hn⟩ := w
  match n, hn with
  | 0, _ => exact h0
  | 1, _ => exact h1
  | 2, _ => exact h2
  | 3, _ => exact h3
  | n + 4, h => exact absurd (show n + 4 < 4 from h) (by omega)
theorem hrest2 (outs : Outs (F := F)) (c : Dev nD) : ∀ b : Ref sig .tc, b ∉ Finset.univ.image (Pipeline.arrRef spec2) →
    Ve15 m outs c b = Ve14 m outs c b :=
  fun b hb => V15_of m outs c b (fun h => hb (Finset.mem_image.mpr ⟨3, Finset.mem_univ _, ((List.mem_singleton.mp h)).symm⟩))

set_option backward.isDefEq.respectTransparency.types false in

def reg2 (outs : Outs (F := F)) (hO : GoodOuts m outs) : Pipeline.RegionSeg (pcfgs (F := F)) adm (pdats m outs) () defs₀ Variants.none Lz lvz 2 where
  win := launch2.win.to₀
  block_pos := launch2.block_pos
  stage_whole := launch2.stage_whole
  K := PEmpty
  osem k := k.elim
  ho := Pipeline.OwnSemFacts.none _
  hbody c := (body_obligation2 (Ve14 m outs) c).loose
  hwaits := Pipeline.hwaits_of_owed_zero _ _ _ _ Lz lvz 2 fun _ _ => rfl
  pre c := iprop(StableHlo.held (c : Thread nD τ) (Pipeline.ucRefs τ sig) (V14 m outs c) ∗ Rr c)
  post c := iprop(StableHlo.held (c : Thread nD τ) (Pipeline.ucRefs τ sig) (V15 m outs c) ∗ Rr c)
  X c := iprop(∃ r, prngReg c r)
  Y c := iprop(∃ r, prngReg c r)
  Z c := Pipeline.unscopedRest (Ix := Unit) (Name := ℕ) (U := UR sig nD τ) (Lvl := ℕ) spec2 c (Ve14 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (Ve14 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none]
    have h1 := hout2 (Ve14 m outs) c
    have h2 : (Pipeline.ΦA spec2 c : sProp 𝕄) ⊢ iprop((∃ r, prngReg c r) ∗ BI.emp ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (Ve14 m outs c) (Ve15 m outs c) ((pdats m outs 2 c).arrAt · cfg2.N) (hF2 m outs hO c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem Rr_owes (c : Dev nD) : (Rr c : sProp 𝕄) ⊢ iprop(∃ W, owes (c : Thread nD τ) (0 : CellTallies nD τ sig Unit) W) := by
  iintro ⟨-, HO⟩
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_all (outs : Outs (F := F)) (hO : GoodOuts m outs) :
    θ_run defs (onTc (τ := τ) (main (F := F))) ⟨m, fun _ => 0, ρ⟩ (fun r => ∀ c : Dev nD,
      ∀ b ∈ Pipeline.ucRefs τ sig, r.2.mem (((c : Thread nD τ)).1, b) = V16 m outs c b) := by
  refine Pipeline.θ_run_regions_kit_dev (pcfgs (F := F)) adm (pdats m outs) () cellOf_inj emb₁ defs₀ Variants.none Lz lvz m ρ main
    (segs m outs Variants.none Lz lvz (fun _ c => Rr c) () (pdats m outs) (reg0 m outs hO) (reg1 m outs hO) (reg2 m outs hO))
    (fun c Q => by
      rewrite [main_chain c, Seg.run_eq_chain,
        show (segs m outs Variants.none Lz lvz (fun _ c => Rr c) () (pdats m outs) (reg0 m outs hO) (reg1 m outs hO) (reg2 m outs hO) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V16 m outs c))
    (hch := fun c => ⟨.rfl, .rfl, .rfl, .rfl, .rfl, .rfl, .rfl, .rfl, .rfl, .rfl, .rfl, .rfl, .rfl, .rfl, .rfl, .rfl, sep_mono .rfl (Rr_owes c)⟩)
    (hinit := by
      refine Pipeline.initEach Lz lvz fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V16 m outs c b)
    (hfin := fun c s' => by
      unfold StableHlo.held
      iintro ⟨Hh, HSI⟩
      imodintro
      iapply (pointsTo_read_all (Pipeline.ucRefs τ sig) (fun b => (((c : Thread nD τ)).1, b)) (V16 m outs c) s')
      isplitl [Hh] <;> iassumption)
    (hQ := fun _ h => h)

theorem frame_of_outs (outs : Outs (F := F)) (hO : GoodOuts m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (V16_main_arg0 m outs c),
     (h c _ (mem_uc main_arg1 (by decide))).trans (V16_main_arg1 m outs c),
     (h c _ (mem_uc main_arg2 (by decide))).trans (V16_main_arg2 m outs c),
     (h c _ (mem_uc main_arg3 (by decide))).trans (V16_main_arg3 m outs c),
     (h c _ (mem_uc main_arg4 (by decide))).trans (V16_main_arg4 m outs c),
     (h c _ (mem_uc main_arg5 (by decide))).trans (V16_main_arg5 m outs c),
     (h c _ (mem_uc main_arg6 (by decide))).trans (V16_main_arg6 m outs c),
     (h c _ (mem_uc main_arg7 (by decide))).trans (V16_main_arg7 m outs c)⟩) (run_all m ρ outs hO)

def o9 (c : Dev nD) : Buf (Elt F) ((c : Thread nD τ).loc main_v27) := (dat0 (Ve8 m) c).arrAt 3 cfg0.N
def outsA : Outs (F := F) := fun _ r c => if h : r = main_v27 then h ▸ o9 m c else V8 m c r

def o12 (c : Dev nD) : Buf (Elt F) ((c : Thread nD τ).loc main_v47) := (dat1 (Ve11 m (outsA m)) c).arrAt 3 cfg1.N
def outsB : Outs (F := F) := fun _ r c => if h : r = main_v27 then h ▸ o9 m c else if h : r = main_v47 then h ▸ o12 m c else V8 m c r

def o15 (c : Dev nD) : Buf (Elt F) ((c : Thread nD τ).loc main_v67) := (dat2 (Ve14 m (outsB m)) c).arrAt 3 cfg2.N
def outsC : Outs (F := F) := fun _ r c => if h : r = main_v27 then h ▸ o9 m c else if h : r = main_v47 then h ▸ o12 m c else if h : r = main_v67 then h ▸ o15 m c else V8 m c r

theorem outsA_9 (J : ℕ) (c : Dev nD) : outsA m J main_v27 c = o9 m c := by unfold outsA; rw [dif_pos rfl]
theorem outsB_9 (J : ℕ) (c : Dev nD) : outsB m J main_v27 c = o9 m c := by unfold outsB; rw [dif_pos rfl]
theorem outsC_9 (J : ℕ) (c : Dev nD) : outsC m J main_v27 c = o9 m c := by unfold outsC; rw [dif_pos rfl]
theorem outsB_12 (J : ℕ) (c : Dev nD) : outsB m J main_v47 c = o12 m c := by
  unfold outsB; rw [dif_neg (by decide : ¬(main_v47 : Ref sig .tc) = main_v27), dif_pos rfl]
theorem outsC_12 (J : ℕ) (c : Dev nD) : outsC m J main_v47 c = o12 m c := by
  unfold outsC; rw [dif_neg (by decide : ¬(main_v47 : Ref sig .tc) = main_v27), dif_pos rfl]
theorem outsC_15 (J : ℕ) (c : Dev nD) : outsC m J main_v67 c = o15 m c := by
  unfold outsC; rw [dif_neg (by decide : ¬(main_v67 : Ref sig .tc) = main_v27), dif_neg (by decide : ¬(main_v67 : Ref sig .tc) = main_v47), dif_pos rfl]

theorem V11_C (c : Dev nD) : V11 m (outsC m) c = V11 m (outsA m) c := by
  simp only [V11, V10, V9, outsC_9, outsA_9]
theorem V14_C (c : Dev nD) : V14 m (outsC m) c = V14 m (outsB m) c := by
  simp only [V14, V13, V12, V11, V10, V9, outsC_9, outsB_9, outsC_12, outsB_12]
theorem Ve11_C : Ve11 m (outsC m) = Ve11 m (outsA m) := by
  funext c b; exact congrFun (V11_C m c) _
theorem Ve14_C : Ve14 m (outsC m) = Ve14 m (outsB m) := by
  funext c b; exact congrFun (V14_C m c) _

theorem good : GoodOuts m (outsC (F := F) m) where
  h9 c := (outsC_9 m 9 c).trans rfl
  h12 c := (outsC_12 m 12 c).trans (by unfold o12; rw [← Ve11_C]; rfl)
  h15 c := (outsC_15 m 15 c).trans (by unfold o15; rw [← Ve14_C]; rfl)

end Cert.Kernel.Gen

end
-- ==== Proof.KI.Conds.lean ====
import proofs.«408425_j84189948936514_2_alg».proof.Proof.Gen.KernelIdeal.Launch
import proofs.«408425_j84189948936514_2_alg».proof.Proof.Gen.KernelIdeal.Skeleton
import proofs.«408425_j84189948936514_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the step within a half of the edges is the first (0), respectively the last (2499)
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2500 = 0 :=
  (by decide +kernel : ∀ t : Fin grid0.N, cond0_0 (grid0.coords t) ↔ t.val % 2500 = 0)

abbrev cond0_1 (i : grid0.Coords) : Prop := k0_cond2 i = 1#1
theorem hcond0_1 : ∀ t : Fin cfg0.N, cond0_1 (grid0.coords t) ↔ t.val % 2500 = 2499 :=
  (by decide +kernel : ∀ t : Fin grid0.N, cond0_1 (grid0.coords t) ↔ t.val % 2500 = 2499)

-- decided once over the 5000 grid points; the three launches share these facts
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem idle_3 : ∀ t : Fin cfg0.N, ¬cond0_1 (grid0.coords t) → cfg0.idle 3 (grid0.coords t) = true := by decide +kernel
theorem noFlush_3 : ∀ t : Fin cfg0.N, ¬cond0_1 (grid0.coords t) → (cfg0.win 3).flush t = false := by decide +kernel
theorem live_3 : ∀ t : Fin cfg0.N, cond0_1 (grid0.coords t) → cfg0.idle 3 (grid0.coords t) = false := by decide +kernel

end Cert.KernelIdeal.Gen

end
-- ==== Proof.KI.RunA.lean ====
import proofs.«408425_j84189948936514_2_alg».proof.Proof.KI.Conds

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (arg2 : Memref sig .tc .vmem S20096x128 .f32) (harg2 : arg2.IsWhole) (arg3 : Memref sig .tc .vmem S128 .i32) (harg3 : arg3.IsWhole) (arg4 : Memref sig .tc .vmem S128 .i32) (harg4 : arg4.IsWhole) (arg5 : Memref sig .tc .vmem S1x20096x128 .f32) (harg5 : arg5.IsWhole) (arg6 : Memref sig .tc .vmem S20096x128 .bf16) (harg6 : arg6.IsWhole) (arg7 : Memref sig .tc .vmem S20096x128 .bf16) (harg7 : arg7.IsWhole) (arg8 : Memref sig .tc .vmem S20096x128 .f32) (harg8 : arg8.IsWhole) (hc0 : cond0_0 i) (hc1 : ¬cond0_1 i)
    (x0 : Vec F S20096x128 .f32) (x1 : Vec F S128 .i32) (x2 : Vec F S128 .i32) :
    Σ' (LS0 : List (View.Piece (Elt F) S20096x128 .bf16)), Σ' (LS1 : List (View.Piece (Elt F) S20096x128 .bf16)), { LS2 : List (View.Piece (Elt F) S20096x128 .f32) //
      ∀ (xi3 : Vec F S1x20096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__aggregate_kernel i arg2 harg2 arg3 harg3 arg4 harg4 arg5 harg5 arg6 harg6 arg7 harg7 arg8 harg8) K } := by
  refine ⟨?_, ?_, ?_, fun xi3 E K => ?run⟩
  case run =>
    simp only [cc0__aggregate_kernel_eq_skeleton]; unfold cc0__aggregate_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Gen

end
-- ==== Proof.KI.RunB.lean ====
import proofs.«408425_j84189948936514_2_alg».proof.Proof.KI.Conds

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_B (c : Dev nD) (i : grid0.Coords) (arg2 : Memref sig .tc .vmem S20096x128 .f32) (harg2 : arg2.IsWhole) (arg3 : Memref sig .tc .vmem S128 .i32) (harg3 : arg3.IsWhole) (arg4 : Memref sig .tc .vmem S128 .i32) (harg4 : arg4.IsWhole) (arg5 : Memref sig .tc .vmem S1x20096x128 .f32) (harg5 : arg5.IsWhole) (arg6 : Memref sig .tc .vmem S20096x128 .bf16) (harg6 : arg6.IsWhole) (arg7 : Memref sig .tc .vmem S20096x128 .bf16) (harg7 : arg7.IsWhole) (arg8 : Memref sig .tc .vmem S20096x128 .f32) (harg8 : arg8.IsWhole) (hc0 : ¬cond0_0 i) (hc1 : ¬cond0_1 i)
    (x0 : Vec F S20096x128 .f32) (x1 : Vec F S128 .i32) (x2 : Vec F S128 .i32) (xs0 : Vec F S20096x128 .bf16) (xs1 : Vec F S20096x128 .bf16) (xs2 : Vec F S20096x128 .f32) :
    { LS2 : List (View.Piece (Elt F) S20096x128 .f32) //
      ∀ (xi3 : Vec F S1x20096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ owns (c : Thread nD τ) arg6 fullShare xs0 ∗ owns (c : Thread nD τ) arg7 fullShare xs1
                ∗ (∃ f, arg8.view.loc (c : Thread nD τ) ↦[arg8.view.set]{fullShare} arg8.view.writes (Elt F) f LS2)) -∗ K ⟨⟩))
          ⊢ wp frame (wpE (defs₀ (F := F)) Variants.none c none) E (cc0__aggregate_kernel i arg2 harg2 arg3 harg3 arg4 harg4 arg5 harg5 arg6 harg6 arg7 harg7 arg8 harg8) K } := by
  refine ⟨?_, fun xi3 E K => ?run⟩
  case run =>
    simp only [cc0__aggregate_kernel_eq_skeleton]; unfold cc0__aggregate_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; isplitr; · ipureintro; exact harg6.read_unread _
      iexact HS0
    isplitl [HS1]
    · iexists _; isplitr; · ipureintro; exact harg7.read_unread _
      iexact HS1
    iexists _; iexact HS2

end Cert.KernelIdeal.Gen

end
-- ==== Proof.KI.RunC.lean ====
import proofs.«408425_j84189948936514_2_alg».proof.Proof.KI.Conds

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_C (c : Dev nD) (i : grid0.Coords) (arg2 : Memref sig .tc .vmem S20096x128 .f32) (harg2 : arg2.IsWhole) (arg3 : Memref sig .tc .vmem S128 .i32) (harg3 : arg3.IsWhole) (arg4 : Memref sig .tc .vmem S128 .i32) (harg4 : arg4.IsWhole) (arg5 : Memref sig .tc .vmem S1x20096x128 .f32) (harg5 : arg5.IsWhole) (arg6 : Memref sig .tc .vmem S20096x128 .bf16) (harg6 : arg6.IsWhole) (arg7 : Memref sig .tc .vmem S20096x128 .bf16) (harg7 : arg7.IsWhole) (arg8 : Memref sig .tc .vmem S20096x128 .f32) (harg8 : arg8.IsWhole) (hc0 : ¬cond0_0 i) (hc1 : cond0_1 i)
    (x0 : Vec F S20096x128 .f32) (x1 : Vec F S128 .i32) (x2 : Vec F S128 .i32) (xs0 : Vec F S20096x128 .bf16) (xs1 : Vec F S20096x128 .bf16) (xs2 : Vec F S20096x128 .f32) :
    Σ' (L3 : List (View.Piece (Elt F) S1x20096x128 .f32)), { LS2 : List (View.Piece (Elt F) S20096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xs0 ∗ owns (c : Thread nD τ) arg7 fullShare xs1
                ∗ (∃ f, arg8.view.loc (c : Thread nD τ) ↦[arg8.view.set]{fullShare} arg8.view.writes (Elt F) f LS2)) -∗ K ⟨⟩))
          ⊢ wp frame (wpE (defs₀ (F := F)) Variants.none c none) E (cc0__aggregate_kernel i arg2 harg2 arg3 harg3 arg4 harg4 arg5 harg5 arg6 harg6 arg7 harg7 arg8 harg8) K } := by
  refine ⟨?_, ?_, fun E K => ?run⟩
  case run =>
    simp only [cc0__aggregate_kernel_eq_skeleton]; unfold cc0__aggregate_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    isplitl [HS1]
    · iexists _; isplitr; · ipureintro; exact harg7.read_unread _
      iexact HS1
    iexists _; iexact HS2

end Cert.KernelIdeal.Gen

end
-- ==== Proof.KI.Pieces.lean ====
import proofs.«408425_j84189948936514_2_alg».proof.Proof.KI.RunA
import proofs.«408425_j84189948936514_2_alg».proof.Proof.KI.RunB
import proofs.«408425_j84189948936514_2_alg».proof.Proof.KI.RunC

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S20096x128 .f32) (harg2 : arg2.IsWhole) (arg3 : Memref sig .tc .vmem S128 .i32) (harg3 : arg3.IsWhole) (arg4 : Memref sig .tc .vmem S128 .i32) (harg4 : arg4.IsWhole) (arg5 : Memref sig .tc .vmem S1x20096x128 .f32) (harg5 : arg5.IsWhole) (arg6 : Memref sig .tc .vmem S20096x128 .bf16) (harg6 : arg6.IsWhole) (arg7 : Memref sig .tc .vmem S20096x128 .bf16) (harg7 : arg7.IsWhole) (arg8 : Memref sig .tc .vmem S20096x128 .f32) (harg8 : arg8.IsWhole)

-- what each case's stores leave in a buffer: the buffer read back after them, and that they cover it
section
variable (hc0 : cond0_0 i) (hc1 : ¬cond0_1 i) (x0 : Vec F S20096x128 .f32) (x1 : Vec F S128 .i32) (x2 : Vec F S128 .i32)

theorem scover0_A_0 (y : S20096x128.Idx) :
    ∃ pc ∈ (kernelRun0_A c i arg2 harg2 arg3 harg3 arg4 harg4 arg5 harg5 arg6 harg6 arg7 harg7 arg8 harg8 hc0 hc1 x0 x1 x2).1, y ∈ pc.1.set :=
  View.cover_of_tiledL (kernelRun0_A c i arg2 harg2 arg3 harg3 arg4 harg4 arg5 harg5 arg6 harg6 arg7 harg7 arg8 harg8 hc0 hc1 x0 x1 x2).1 S20096x128.size (by sl_kernel_rfl) y
def sout0_A_0 : Vec F S20096x128 .bf16 :=
  arg6.view.read (Elt F) (arg6.view.writes (Elt F) arg6.view.junk (kernelRun0_A c i arg2 harg2 arg3 harg3 arg4 harg4 arg5 harg5 arg6 harg6 arg7 harg7 arg8 harg8 hc0 hc1 x0 x1 x2).1)
theorem scover0_A_1 (y : S20096x128.Idx) :
    ∃ pc ∈ (kernelRun0_A c i arg2 harg2 arg3 harg3 arg4 harg4 arg5 harg5 arg6 harg6 arg7 harg7 arg8 harg8 hc0 hc1 x0 x1 x2).2.1, y ∈ pc.1.set :=
  View.cover_of_tiledL (kernelRun0_A c i arg2 harg2 arg3 harg3 arg4 harg4 arg5 harg5 arg6 harg6 arg7 harg7 arg8 harg8 hc0 hc1 x0 x1 x2).2.1 S20096x128.size (by sl_kernel_rfl) y
def sout0_A_1 : Vec F S20096x128 .bf16 :=
  arg7.view.read (Elt F) (arg7.view.writes (Elt F) arg7.view.junk (kernelRun0_A c i arg2 harg2 arg3 harg3 arg4 harg4 arg5 harg5 arg6 harg6 arg7 harg7 arg8 harg8 hc0 hc1 x0 x1 x2).2.1)
theorem scover0_A_2 (y : S20096x128.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S20096x128.size (by sl_kernel_rfl) y
def sout0_A_2 : Vec F S20096x128 .f32 :=
  arg8.view.read (Elt F) (arg8.view.writes (Elt F) arg8.view.junk (kernelRun0_A c i arg2 harg2 arg3 harg3 arg4 harg4 arg5 harg5 arg6 harg6 arg7 harg7 arg8 harg8 hc0 hc1 x0 x1 x2).2.2.1)

end

section
variable (hc0 : ¬cond0_0 i) (hc1 : ¬cond0_1 i) (x0 : Vec F S20096x128 .f32) (x1 : Vec F S128 .i32) (x2 : Vec F S128 .i32) (xs0 : Vec F S20096x128 .bf16) (xs1 : Vec F S20096x128 .bf16) (xs2 : Vec F S20096x128 .f32)

theorem scover0_B_2 (y : S20096x128.Idx) :
    ∃ pc ∈ (kernelRun0_B c i arg2 harg2 arg3 harg3 arg4 harg4 arg5 harg5 arg6 harg6 arg7 harg7 arg8 harg8 hc0 hc1 x0 x1 x2 xs0 xs1 xs2).1, y ∈ pc.1.set :=
  View.cover_of_tiledL (kernelRun0_B c i arg2 harg2 arg3 harg3 arg4 harg4 arg5 harg5 arg6 harg6 arg7 harg7 arg8 harg8 hc0 hc1 x0 x1 x2 xs0 xs1 xs2).1 S20096x128.size (by sl_kernel_rfl) y
def sout0_B_2 : Vec F S20096x128 .f32 :=
  arg8.view.read (Elt F) (arg8.view.writes (Elt F) arg8.view.junk (kernelRun0_B c i arg2 harg2 arg3 harg3 arg4 harg4 arg5 harg5 arg6 harg6 arg7 harg7 arg8 harg8 hc0 hc1 x0 x1 x2 xs0 xs1 xs2).1)

end

section
variable (hc0 : ¬cond0_0 i) (hc1 : cond0_1 i) (x0 : Vec F S20096x128 .f32) (x1 : Vec F S128 .i32) (x2 : Vec F S128 .i32) (xs0 : Vec F S20096x128 .bf16) (xs1 : Vec F S20096x128 .bf16) (xs2 : Vec F S20096x128 .f32)

theorem cover0_C_3 (y : S1x20096x128.Idx) :
    ∃ pc ∈ (kernelRun0_C c i arg2 harg2 arg3 harg3 arg4 harg4 arg5 harg5 arg6 harg6 arg7 harg7 arg8 harg8 hc0 hc1 x0 x1 x2 xs0 xs1 xs2).1, y ∈ pc.1.set :=
  View.cover_of_tiledL (kernelRun0_C c i arg2 harg2 arg3 harg3 arg4 harg4 arg5 harg5 arg6 harg6 arg7 harg7 arg8 harg8 hc0 hc1 x0 x1 x2 xs0 xs1 xs2).1 S1x20096x128.size (by sl_kernel_rfl) y
def out0_C_3 : Vec F S1x20096x128 .f32 :=
  arg5.view.read (Elt F) (arg5.view.writes (Elt F) arg5.view.junk (kernelRun0_C c i arg2 harg2 arg3 harg3 arg4 harg4 arg5 harg5 arg6 harg6 arg7 harg7 arg8 harg8 hc0 hc1 x0 x1 x2 xs0 xs1 xs2).1)
theorem scover0_C_2 (y : S20096x128.Idx) :
    ∃ pc ∈ (kernelRun0_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun0_C c i arg2 harg2 arg3 harg3 arg4 harg4 arg5 harg5 arg6 harg6 arg7 harg7 arg8 harg8 hc0 hc1 x0 x1 x2 xs0 xs1 xs2).2.1 S20096x128.size (by sl_kernel_rfl) y
def sout0_C_2 : Vec F S20096x128 .f32 :=
  arg8.view.read (Elt F) (arg8.view.writes (Elt F) arg8.view.junk (kernelRun0_C c i arg2 harg2 arg3 harg3 arg4 harg4 arg5 harg5 arg6 harg6 arg7 harg7 arg8 harg8 hc0 hc1 x0 x1 x2 xs0 xs1 xs2).2.1)

end

end Cert.KernelIdeal.Gen

end
-- ==== Proof.KI.R0Runs.lean ====
import proofs.«408425_j84189948936514_2_alg».proof.Proof.KI.Pieces

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

theorem liveAt0_0 : ∀ t : Fin cfg0.N, cfg0.idle 0 (grid0.coords t) = false := live_0
theorem liveAt0_1 : ∀ t : Fin cfg0.N, cfg0.idle 1 (grid0.coords t) = false := live_1
theorem liveAt0_2 : ∀ t : Fin cfg0.N, cfg0.idle 2 (grid0.coords t) = false := live_2

theorem idleAt0_3 : ∀ t : Fin cfg0.N, ¬cond0_1 (grid0.coords t) → cfg0.idle 3 (grid0.coords t) = true := idle_3
theorem noFlush0_3 : ∀ t : Fin cfg0.N, ¬cond0_1 (grid0.coords t) → (cfg0.win 3).flush t = false := noFlush_3

theorem liveAt0_3 : ∀ t : Fin cfg0.N, cond0_1 (grid0.coords t) → cfg0.idle 3 (grid0.coords t) = false := live_3

abbrev VO0_3 : View sig .tc .vmem S1x20096x128 .f32 := (Memref.whole cc0_stg3_0 : Memref sig .tc .vmem S1x20096x128 .f32).view
abbrev ms0_0 (t : Fin cfg0.N) : Memref sig .tc .vmem S20096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x20096x128 .f32 := win0_3.stage (cfg0.slots t 3)
abbrev hs0_3 (t : Fin cfg0.N) : (ms0_3 t).IsWhole := hstage0_3 ((cfg0.slots t 3).cast nbuf0_3)

abbrev scM0_0 : Memref sig .tc .vmem S20096x128 .bf16 := Memref.whole cc0_scratch0
abbrev scM0_1 : Memref sig .tc .vmem S20096x128 .bf16 := Memref.whole cc0_scratch1
abbrev scM0_2 : Memref sig .tc .vmem S20096x128 .f32 := Memref.whole cc0_scratch2

def rest0 (c : Dev nD) : sProp 𝕄 :=
  Pipeline.scopedRestBut (τ := τ) (Ix := Unit) (Name := ℕ) (U := UR sig nD τ) (Lvl := ℕ) (Val := Elt F) spec0 c [cc0_scratch0, cc0_scratch1, cc0_scratch2]

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ rest0 c) ∗ (∃ r, prngReg c r)) := by
  have h := Pipeline.scopedRest_split_of_list (τ := τ) (Ix := Unit) (Name := ℕ) (U := UR sig nD τ) (Lvl := ℕ) (Val := Elt F) spec0 c [cc0_scratch0, cc0_scratch1, cc0_scratch2] (by decide) (by decide)
  unfold Pipeline.ΦA rest0
  rw [h]
  simp only [bigSepL, scM0_0, scM0_1, scM0_2, owns_whole]
  exact congrArg (fun X : sProp 𝕄 => iprop(X ∗ ∃ r, prngReg c r)) ((equiv_iff.mp ⟨BI.sep_assoc, BI.sep_assoc'⟩).trans (congrArg _ (equiv_iff.mp ⟨BI.sep_assoc, BI.sep_assoc'⟩)))

-- a function of the kernel's seven buffers, taken at the buffers of grid point t
abbrev at0 {β : grid0.Coords → Type} (f : (c : Dev nD) → (i : grid0.Coords) → (arg2 : Memref sig .tc .vmem S20096x128 .f32) → arg2.IsWhole → (arg3 : Memref sig .tc .vmem S128 .i32) → arg3.IsWhole → (arg4 : Memref sig .tc .vmem S128 .i32) → arg4.IsWhole → (arg5 : Memref sig .tc .vmem S1x20096x128 .f32) → arg5.IsWhole → (arg6 : Memref sig .tc .vmem S20096x128 .bf16) → arg6.IsWhole → (arg7 : Memref sig .tc .vmem S20096x128 .bf16) → arg7.IsWhole → (arg8 : Memref sig .tc .vmem S20096x128 .f32) → arg8.IsWhole → β i)
    (c : Dev nD) (t : Fin cfg0.N) : β (grid0.coords t) :=
  f c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _)

theorem bodyAt0_eq (t : Fin cfg0.N) : bodyAt0 (F := F) t = cc0__aggregate_kernel (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) := rfl

end Cert.KernelIdeal.Gen

end
-- ==== Proof.KI.Steps.lean ====
import proofs.«408425_j84189948936514_2_alg».proof.Proof.KI.Pieces

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S20096x128 .f32) (harg2 : arg2.IsWhole) (arg3 : Memref sig .tc .vmem S128 .i32) (harg3 : arg3.IsWhole) (arg4 : Memref sig .tc .vmem S128 .i32) (harg4 : arg4.IsWhole) (arg5 : Memref sig .tc .vmem S1x20096x128 .f32) (harg5 : arg5.IsWhole) (arg6 : Memref sig .tc .vmem S20096x128 .bf16) (harg6 : arg6.IsWhole) (arg7 : Memref sig .tc .vmem S20096x128 .bf16) (harg7 : arg7.IsWhole) (arg8 : Memref sig .tc .vmem S20096x128 .f32) (harg8 : arg8.IsWhole)
variable {D0 D1 D2 D3 : Type}

-- one grid point as a triple, per control case: the first step of a half, a middle step, the last step
theorem stepA (hc0 : cond0_0 i) (hc1 : ¬cond0_1 i) (x0 : Vec F S20096x128 .f32) (x1 : Vec F S128 .i32) (x2 : Vec F S128 .i32) (R G Ho : sProp 𝕄) (b3 : D3 → Vec F S1x20096x128 .f32) :
    iprop(iprop(iprop((∃ d, owns (c : Thread nD τ) arg6 fullShare d) ∗ (∃ d, owns (c : Thread nD τ) arg7 fullShare d) ∗ (∃ d, owns (c : Thread nD τ) arg8 fullShare d) ∗ R) ∗ G) ∗ Ho
        ∗ (∃ _ : D0, owns (c : Thread nD τ) arg2 fullShare x0) ∗ (∃ _ : D1, owns (c : Thread nD τ) arg3 fullShare x1) ∗ (∃ _ : D2, owns (c : Thread nD τ) arg4 fullShare x2) ∗ (∃ d, owns (c : Thread nD τ) arg5 fullShare (b3 d)))
      ⊢ wp frame (wpE (defs₀ (F := F)) Variants.none c none) Set.univ (cc0__aggregate_kernel i arg2 harg2 arg3 harg3 arg4 harg4 arg5 harg5 arg6 harg6 arg7 harg7 arg8 harg8)
          (fun _ => iprop(iprop(iprop(owns (c : Thread nD τ) arg6 fullShare (sout0_A_0 c i arg2 harg2 arg3 harg3 arg4 harg4 arg5 harg5 arg6 harg6 arg7 harg7 arg8 harg8 hc0 hc1 x0 x1 x2) ∗ owns (c : Thread nD τ) arg7 fullShare (sout0_A_1 c i arg2 harg2 arg3 harg3 arg4 harg4 arg5 harg5 arg6 harg6 arg7 harg7 arg8 harg8 hc0 hc1 x0 x1 x2) ∗ owns (c : Thread nD τ) arg8 fullShare (sout0_A_2 c i arg2 harg2 arg3 harg3 arg4 harg4 arg5 harg5 arg6 harg6 arg7 harg7 arg8 harg8 hc0 hc1 x0 x1 x2) ∗ R) ∗ G) ∗ Ho
            ∗ owns (c : Thread nD τ) arg2 fullShare x0 ∗ owns (c : Thread nD τ) arg3 fullShare x1 ∗ owns (c : Thread nD τ) arg4 fullShare x2 ∗ (∃ d, owns (c : Thread nD τ) arg5 fullShare (b3 d)))) := by
  unfold sout0_A_0 sout0_A_1 sout0_A_2
  iintro ⟨⟨⟨HS0, HS1, HS2, HR⟩, Hg⟩, Ho, ⟨%d0, H0⟩, ⟨%d1, H1⟩, ⟨%d2, H2⟩, ⟨%d3, H3⟩⟩
  iapply ((kernelRun0_A c i arg2 harg2 arg3 harg3 arg4 harg4 arg5 harg5 arg6 harg6 arg7 harg7 arg8 harg8 hc0 hc1 x0 x1 x2).2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%es0, HS0⟩, ⟨%es1, HS1⟩, ⟨%es2, HS2⟩⟩
  isplitl [HS0 HS1 HS2 HR Hg]
  · isplitl [HS0 HS1 HS2 HR]
    · isplitl [HS0]
      · unfold owns; iexists _; isplitr
        swap; · iexact HS0
        ipureintro; exact View.read_writes_of_cover _ _ _ _ _ (scover0_A_0 c _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  iexists _; iexact H3

theorem stepB (hc0 : ¬cond0_0 i) (hc1 : ¬cond0_1 i) (x0 : Vec F S20096x128 .f32) (x1 : Vec F S128 .i32) (x2 : Vec F S128 .i32) (xs0 : Vec F S20096x128 .bf16) (xs1 : Vec F S20096x128 .bf16) (xs2 : Vec F S20096x128 .f32) (R G Ho : sProp 𝕄) (b3 : D3 → Vec F S1x20096x128 .f32) :
    iprop(iprop(iprop(owns (c : Thread nD τ) arg6 fullShare xs0 ∗ owns (c : Thread nD τ) arg7 fullShare xs1 ∗ owns (c : Thread nD τ) arg8 fullShare xs2 ∗ R) ∗ G) ∗ Ho
        ∗ (∃ _ : D0, owns (c : Thread nD τ) arg2 fullShare x0) ∗ (∃ _ : D1, owns (c : Thread nD τ) arg3 fullShare x1) ∗ (∃ _ : D2, owns (c : Thread nD τ) arg4 fullShare x2) ∗ (∃ d, owns (c : Thread nD τ) arg5 fullShare (b3 d)))
      ⊢ wp frame (wpE (defs₀ (F := F)) Variants.none c none) Set.univ (cc0__aggregate_kernel i arg2 harg2 arg3 harg3 arg4 harg4 arg5 harg5 arg6 harg6 arg7 harg7 arg8 harg8)
          (fun _ => iprop(iprop(iprop(owns (c : Thread nD τ) arg6 fullShare xs0 ∗ owns (c : Thread nD τ) arg7 fullShare xs1 ∗ owns (c : Thread nD τ) arg8 fullShare (sout0_B_2 c i arg2 harg2 arg3 harg3 arg4 harg4 arg5 harg5 arg6 harg6 arg7 harg7 arg8 harg8 hc0 hc1 x0 x1 x2 xs0 xs1 xs2) ∗ R) ∗ G) ∗ Ho
            ∗ owns (c : Thread nD τ) arg2 fullShare x0 ∗ owns (c : Thread nD τ) arg3 fullShare x1 ∗ owns (c : Thread nD τ) arg4 fullShare x2 ∗ (∃ d, owns (c : Thread nD τ) arg5 fullShare (b3 d)))) := by
  unfold sout0_B_2
  iintro ⟨⟨⟨HS0, HS1, HS2, HR⟩, Hg⟩, Ho, ⟨%d0, H0⟩, ⟨%d1, H1⟩, ⟨%d2, H2⟩, ⟨%d3, H3⟩⟩
  iapply ((kernelRun0_B c i arg2 harg2 arg3 harg3 arg4 harg4 arg5 harg5 arg6 harg6 arg7 harg7 arg8 harg8 hc0 hc1 x0 x1 x2 xs0 xs1 xs2).2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, ⟨%es2, HS2⟩⟩
  isplitl [HS0 HS1 HS2 HR Hg]
  · isplitl [HS0 HS1 HS2 HR]
    · isplitl [HS0]; · iexact HS0
      isplitl [HS1]; · iexact HS1
      isplitl [HS2]
      · unfold owns; iexists _; isplitr
        swap; · iexact HS2
        ipureintro; exact View.read_writes_of_cover _ _ _ _ _ (scover0_B_2 c _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  iexists _; iexact H3

theorem stepC (hc0 : ¬cond0_0 i) (hc1 : cond0_1 i) (x0 : Vec F S20096x128 .f32) (x1 : Vec F S128 .i32) (x2 : Vec F S128 .i32) (xs0 : Vec F S20096x128 .bf16) (xs1 : Vec F S20096x128 .bf16) (xs2 : Vec F S20096x128 .f32) (R G Ho : sProp 𝕄) (b3 : D3 → Vec F S1x20096x128 .f32) :
    iprop(iprop(iprop(owns (c : Thread nD τ) arg6 fullShare xs0 ∗ owns (c : Thread nD τ) arg7 fullShare xs1 ∗ owns (c : Thread nD τ) arg8 fullShare xs2 ∗ R) ∗ G) ∗ Ho
        ∗ (∃ _ : D0, owns (c : Thread nD τ) arg2 fullShare x0) ∗ (∃ _ : D1, owns (c : Thread nD τ) arg3 fullShare x1) ∗ (∃ _ : D2, owns (c : Thread nD τ) arg4 fullShare x2) ∗ (∃ d, owns (c : Thread nD τ) arg5 fullShare (b3 d)))
      ⊢ wp frame (wpE (defs₀ (F := F)) Variants.none c none) Set.univ (cc0__aggregate_kernel i arg2 harg2 arg3 harg3 arg4 harg4 arg5 harg5 arg6 harg6 arg7 harg7 arg8 harg8)
          (fun _ => iprop(iprop(iprop(owns (c : Thread nD τ) arg6 fullShare xs0 ∗ owns (c : Thread nD τ) arg7 fullShare xs1 ∗ owns (c : Thread nD τ) arg8 fullShare (sout0_C_2 c i arg2 harg2 arg3 harg3 arg4 harg4 arg5 harg5 arg6 harg6 arg7 harg7 arg8 harg8 hc0 hc1 x0 x1 x2 xs0 xs1 xs2) ∗ R) ∗ G) ∗ Ho
            ∗ owns (c : Thread nD τ) arg2 fullShare x0 ∗ owns (c : Thread nD τ) arg3 fullShare x1 ∗ owns (c : Thread nD τ) arg4 fullShare x2 ∗ owns (c : Thread nD τ) arg5 fullShare (out0_C_3 c i arg2 harg2 arg3 harg3 arg4 harg4 arg5 harg5 arg6 harg6 arg7 harg7 arg8 harg8 hc0 hc1 x0 x1 x2 xs0 xs1 xs2))) := by
  unfold out0_C_3 sout0_C_2
  iintro ⟨⟨⟨HS0, HS1, HS2, HR⟩, Hg⟩, Ho, ⟨%d0, H0⟩, ⟨%d1, H1⟩, ⟨%d2, H2⟩, ⟨%d3, H3⟩⟩
  iapply ((kernelRun0_C c i arg2 harg2 arg3 harg3 arg4 harg4 arg5 harg5 arg6 harg6 arg7 harg7 arg8 harg8 hc0 hc1 x0 x1 x2 xs0 xs1 xs2).2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, HS0, HS1, ⟨%es2, HS2⟩⟩
  isplitl [HS0 HS1 HS2 HR Hg]
  · isplitl [HS0 HS1 HS2 HR]
    · isplitl [HS0]; · iexact HS0
      isplitl [HS1]; · iexact HS1
      isplitl [HS2]
      · unfold owns; iexists _; isplitr
        swap; · iexact HS2
        ipureintro; exact View.read_writes_of_cover _ _ _ _ _ (scover0_C_2 c _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_C_3 c _ _ _ _ _ _ _ _ _ _ _ _ _ _ _ _ _ _ _ _ _ _ _)

end Cert.KernelIdeal.Gen

end
-- ==== Proof.KI.R0Body.lean ====
import proofs.«408425_j84189948936514_2_alg».proof.Proof.KI.R0Runs
import proofs.«408425_j84189948936514_2_alg».proof.Proof.KI.Steps

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def idle0_3 : Vec F S1x20096x128 .f32 := VO0_3.read (Elt F) VO0_3.junk

section
variable (V : (c : Dev nD) → (b : Ref sig .tc) → Buf (Elt F) ((c : Thread nD τ).loc b))

-- after point n: the output block, the two halves of the feature table, the accumulator
def outsAt0 (c : Dev nD) : (n : ℕ) → n < cfg0.N → Vec F S1x20096x128 .f32 × Vec F S20096x128 .bf16 × Vec F S20096x128 .bf16 × Vec F S20096x128 .f32
  | 0, hn => (idle0_3, at0 sout0_A_0 c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), at0 sout0_A_1 c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), at0 sout0_A_2 c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 2500 = 0 then
      if h1 : (n + 1) % 2500 = 2499 then
        False.elim (by omega)
      else
        (idle0_3, at0 sout0_A_0 c ⟨n + 1, hn⟩ ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), at0 sout0_A_1 c ⟨n + 1, hn⟩ ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), at0 sout0_A_2 c ⟨n + 1, hn⟩ ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 2500 = 2499 then
        (at0 out0_C_3 c ⟨n + 1, hn⟩ (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2, (outsAt0 c n (Nat.lt_of_succ_lt hn)).2.1, (outsAt0 c n (Nat.lt_of_succ_lt hn)).2.2.1, at0 sout0_C_2 c ⟨n + 1, hn⟩ (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2)
      else
        (idle0_3, (outsAt0 c n (Nat.lt_of_succ_lt hn)).2.1, (outsAt0 c n (Nat.lt_of_succ_lt hn)).2.2.1, at0 sout0_B_2 c ⟨n + 1, hn⟩ (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 2500 = 0) (h1 : ¬t.val % 2500 = 2499) :
    outsAt0 V c t.val t.isLt = (idle0_3, at0 sout0_A_0 c t ((hcond0_0 t).mpr h0) (fun h => h1 ((hcond0_1 t).mp h)) (iblk0 V c 0 t) (iblk0 V c 1 t) (iblk0 V c 2 t), at0 sout0_A_1 c t ((hcond0_0 t).mpr h0) (fun h => h1 ((hcond0_1 t).mp h)) (iblk0 V c 0 t) (iblk0 V c 1 t) (iblk0 V c 2 t), at0 sout0_A_2 c t ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 2500 = 0) (h1 : ¬t.val % 2500 = 2499) :
    outsAt0 V c t.val t.isLt = (idle0_3, (outsAt0 V c (t.val - 1) (Nat.lt_of_le_of_lt (Nat.sub_le _ _) t.isLt)).2.1, (outsAt0 V c (t.val - 1) (Nat.lt_of_le_of_lt (Nat.sub_le _ _) t.isLt)).2.2.1, at0 sout0_B_2 c t (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 2500 = 0) (h1 : t.val % 2500 = 2499) :
    outsAt0 V c t.val t.isLt = (at0 out0_C_3 c t (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, (outsAt0 V c (t.val - 1) (Nat.lt_of_le_of_lt (Nat.sub_le _ _) t.isLt)).2.1, (outsAt0 V c (t.val - 1) (Nat.lt_of_le_of_lt (Nat.sub_le _ _) t.isLt)).2.2.1, at0 sout0_C_2 c t (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

-- between points the three scratch buffers hold what the point before left
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2) ∗ rest0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0; rw [bodyAt0_eq]
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 5000 := lt_of_lt_of_eq t.isLt (show cfg0.N = 5000 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 2500 = 0
  · by_cases h1 : t.val % 2500 = 2499
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      dsimp only [at0]
      have hΦ : (dat0 V c).Φ t.castSucc ⊢ Pipeline.ΦA spec0 c := by
        by_cases hz : t.val = 0
        · rw [PhiS0_castSucc V c t, PhiS0_zero V c _ _ hz]
        · exact Phi_out0 V c t.castSucc (by rwa [Fin.coe_castSucc])
      rw [PhiA0_eq] at hΦ
      exact (sep_mono hΦ .rfl).trans (stepA _ _ _ _ _ _ _ _ _ _ _ _ _ _ _ _ _ _ _ _ _ _ _ _ _)
  · have hz : t.val ≠ 0 := fun h => h0 (by rw [h])
    by_cases h1 : t.val % 2500 = 2499
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      dsimp only [at0]
      rw [PhiS0_castSucc V c t, PhiS0_pos V c _ _ hz]
      exact stepC _ _ _ _ _ _ _ _ _ _ _ _ _ _ _ _ _ _ _ _ _ _ _ _ _ _ _ _
    · rw [Dat.leavesExact_idle (dat0 V c) 3 t (idleAt0_3 t (fun h => h1 ((hcond0_1 t).mp h))) (noFlush0_3 t (fun h => h1 ((hcond0_1 t).mp h)))]
      rw [outsAt0_B V c t h0 h1]
      dsimp only [at0]
      rw [PhiS0_castSucc V c t, PhiS0_pos V c _ _ hz]
      exact stepB _ _ _ _ _ _ _ _ _ _ _ _ _ _ _ _ _ _ _ _ _ _ _ _ _ _ _ _

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c :=
  Phi_out0 V c _ (by rw [Fin.val_last]; have : cfg0.N = 5000 := N_0; omega)

end

end Cert.KernelIdeal.Gen

end
-- ==== Proof.KI.R1Runs.lean ====
import proofs.«408425_j84189948936514_2_alg».proof.Proof.KI.Pieces

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

theorem liveAt1_0 : ∀ t : Fin cfg1.N, cfg1.idle 0 (grid1.coords t) = false := live_0
theorem liveAt1_1 : ∀ t : Fin cfg1.N, cfg1.idle 1 (grid1.coords t) = false := live_1
theorem liveAt1_2 : ∀ t : Fin cfg1.N, cfg1.idle 2 (grid1.coords t) = false := live_2

theorem idleAt1_3 : ∀ t : Fin cfg1.N, ¬cond0_1 (grid1.coords t) → cfg1.idle 3 (grid1.coords t) = true := idle_3
theorem noFlush1_3 : ∀ t : Fin cfg1.N, ¬cond0_1 (grid1.coords t) → (cfg1.win 3).flush t = false := noFlush_3

theorem liveAt1_3 : ∀ t : Fin cfg1.N, cond0_1 (grid1.coords t) → cfg1.idle 3 (grid1.coords t) = false := live_3

abbrev VO1_3 : View sig .tc .vmem S1x20096x128 .f32 := (Memref.whole cc1_stg3_0 : Memref sig .tc .vmem S1x20096x128 .f32).view
abbrev ms1_0 (t : Fin cfg1.N) : Memref sig .tc .vmem S20096x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x20096x128 .f32 := win1_3.stage (cfg1.slots t 3)
abbrev hs1_3 (t : Fin cfg1.N) : (ms1_3 t).IsWhole := hstage1_3 ((cfg1.slots t 3).cast nbuf1_3)

abbrev scM1_0 : Memref sig .tc .vmem S20096x128 .bf16 := Memref.whole cc1_scratch0
abbrev scM1_1 : Memref sig .tc .vmem S20096x128 .bf16 := Memref.whole cc1_scratch1
abbrev scM1_2 : Memref sig .tc .vmem S20096x128 .f32 := Memref.whole cc1_scratch2

def rest1 (c : Dev nD) : sProp 𝕄 :=
  Pipeline.scopedRestBut (τ := τ) (Ix := Unit) (Name := ℕ) (U := UR sig nD τ) (Lvl := ℕ) (Val := Elt F) spec1 c [cc1_scratch0, cc1_scratch1, cc1_scratch2]

theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ rest1 c) ∗ (∃ r, prngReg c r)) := by
  have h := Pipeline.scopedRest_split_of_list (τ := τ) (Ix := Unit) (Name := ℕ) (U := UR sig nD τ) (Lvl := ℕ) (Val := Elt F) spec1 c [cc1_scratch0, cc1_scratch1, cc1_scratch2] (by decide) (by decide)
  unfold Pipeline.ΦA rest1
  rw [h]
  simp only [bigSepL, scM1_0, scM1_1, scM1_2, owns_whole]
  exact congrArg (fun X : sProp 𝕄 => iprop(X ∗ ∃ r, prngReg c r)) ((equiv_iff.mp ⟨BI.sep_assoc, BI.sep_assoc'⟩).trans (congrArg _ (equiv_iff.mp ⟨BI.sep_assoc, BI.sep_assoc'⟩)))

-- a function of the kernel's seven buffers, taken at the buffers of grid point t
abbrev at1 {β : grid1.Coords → Type} (f : (c : Dev nD) → (i : grid1.Coords) → (arg2 : Memref sig .tc .vmem S20096x128 .f32) → arg2.IsWhole → (arg3 : Memref sig .tc .vmem S128 .i32) → arg3.IsWhole → (arg4 : Memref sig .tc .vmem S128 .i32) → arg4.IsWhole → (arg5 : Memref sig .tc .vmem S1x20096x128 .f32) → arg5.IsWhole → (arg6 : Memref sig .tc .vmem S20096x128 .bf16) → arg6.IsWhole → (arg7 : Memref sig .tc .vmem S20096x128 .bf16) → arg7.IsWhole → (arg8 : Memref sig .tc .vmem S20096x128 .f32) → arg8.IsWhole → β i)
    (c : Dev nD) (t : Fin cfg1.N) : β (grid1.coords t) :=
  f c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _)

theorem bodyAt1_eq (t : Fin cfg1.N) : bodyAt1 (F := F) t = cc0__aggregate_kernel (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) := rfl

end Cert.KernelIdeal.Gen

end
-- ==== Proof.KI.R1Body.lean ====
import proofs.«408425_j84189948936514_2_alg».proof.Proof.KI.R1Runs
import proofs.«408425_j84189948936514_2_alg».proof.Proof.KI.Steps

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def idle1_3 : Vec F S1x20096x128 .f32 := VO1_3.read (Elt F) VO1_3.junk

section
variable (V : (c : Dev nD) → (b : Ref sig .tc) → Buf (Elt F) ((c : Thread nD τ).loc b))

-- after point n: the output block, the two halves of the feature table, the accumulator
def outsAt1 (c : Dev nD) : (n : ℕ) → n < cfg1.N → Vec F S1x20096x128 .f32 × Vec F S20096x128 .bf16 × Vec F S20096x128 .bf16 × Vec F S20096x128 .f32
  | 0, hn => (idle1_3, at1 sout0_A_0 c ⟨0, hn⟩ ((hcond0_0 ⟨0, hn⟩).mpr (Nat.zero_mod _)) (fun h => (fun h => by (try dsimp only at h); omega) ((hcond0_1 ⟨0, hn⟩).mp h)) (iblk1 V c 0 ⟨0, hn⟩) (iblk1 V c 1 ⟨0, hn⟩) (iblk1 V c 2 ⟨0, hn⟩), at1 sout0_A_1 c ⟨0, hn⟩ ((hcond0_0 ⟨0, hn⟩).mpr (Nat.zero_mod _)) (fun h => (fun h => by (try dsimp only at h); omega) ((hcond0_1 ⟨0, hn⟩).mp h)) (iblk1 V c 0 ⟨0, hn⟩) (iblk1 V c 1 ⟨0, hn⟩) (iblk1 V c 2 ⟨0, hn⟩), at1 sout0_A_2 c ⟨0, hn⟩ ((hcond0_0 ⟨0, hn⟩).mpr (Nat.zero_mod _)) (fun h => (fun h => by (try dsimp only at h); omega) ((hcond0_1 ⟨0, hn⟩).mp h)) (iblk1 V c 0 ⟨0, hn⟩) (iblk1 V c 1 ⟨0, hn⟩) (iblk1 V c 2 ⟨0, hn⟩))
  | n + 1, hn =>
    if h0 : (n + 1) % 2500 = 0 then
      if h1 : (n + 1) % 2500 = 2499 then
        False.elim (by omega)
      else
        (idle1_3, at1 sout0_A_0 c ⟨n + 1, hn⟩ ((hcond0_0 ⟨n + 1, hn⟩).mpr h0) (fun h => h1 ((hcond0_1 ⟨n + 1, hn⟩).mp h)) (iblk1 V c 0 ⟨n + 1, hn⟩) (iblk1 V c 1 ⟨n + 1, hn⟩) (iblk1 V c 2 ⟨n + 1, hn⟩), at1 sout0_A_1 c ⟨n + 1, hn⟩ ((hcond0_0 ⟨n + 1, hn⟩).mpr h0) (fun h => h1 ((hcond0_1 ⟨n + 1, hn⟩).mp h)) (iblk1 V c 0 ⟨n + 1, hn⟩) (iblk1 V c 1 ⟨n + 1, hn⟩) (iblk1 V c 2 ⟨n + 1, hn⟩), at1 sout0_A_2 c ⟨n + 1, hn⟩ ((hcond0_0 ⟨n + 1, hn⟩).mpr h0) (fun h => h1 ((hcond0_1 ⟨n + 1, hn⟩).mp h)) (iblk1 V c 0 ⟨n + 1, hn⟩) (iblk1 V c 1 ⟨n + 1, hn⟩) (iblk1 V c 2 ⟨n + 1, hn⟩))
    else
      if h1 : (n + 1) % 2500 = 2499 then
        (at1 out0_C_3 c ⟨n + 1, hn⟩ (fun h => h0 ((hcond0_0 ⟨n + 1, hn⟩).mp h)) ((hcond0_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, (outsAt1 c n (Nat.lt_of_succ_lt hn)).2.1, (outsAt1 c n (Nat.lt_of_succ_lt hn)).2.2.1, at1 sout0_C_2 c ⟨n + 1, hn⟩ (fun h => h0 ((hcond0_0 ⟨n + 1, hn⟩).mp h)) ((hcond0_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (idle1_3, (outsAt1 c n (Nat.lt_of_succ_lt hn)).2.1, (outsAt1 c n (Nat.lt_of_succ_lt hn)).2.2.1, at1 sout0_B_2 c ⟨n + 1, hn⟩ (fun h => h0 ((hcond0_0 ⟨n + 1, hn⟩).mp h)) (fun h => h1 ((hcond0_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 2500 = 0) (h1 : ¬t.val % 2500 = 2499) :
    outsAt1 V c t.val t.isLt = (idle1_3, at1 sout0_A_0 c t ((hcond0_0 t).mpr h0) (fun h => h1 ((hcond0_1 t).mp h)) (iblk1 V c 0 t) (iblk1 V c 1 t) (iblk1 V c 2 t), at1 sout0_A_1 c t ((hcond0_0 t).mpr h0) (fun h => h1 ((hcond0_1 t).mp h)) (iblk1 V c 0 t) (iblk1 V c 1 t) (iblk1 V c 2 t), at1 sout0_A_2 c t ((hcond0_0 t).mpr h0) (fun h => h1 ((hcond0_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 2500 = 0) (h1 : ¬t.val % 2500 = 2499) :
    outsAt1 V c t.val t.isLt = (idle1_3, (outsAt1 V c (t.val - 1) (Nat.lt_of_le_of_lt (Nat.sub_le _ _) t.isLt)).2.1, (outsAt1 V c (t.val - 1) (Nat.lt_of_le_of_lt (Nat.sub_le _ _) t.isLt)).2.2.1, at1 sout0_B_2 c t (fun h => h0 ((hcond0_0 t).mp h)) (fun h => h1 ((hcond0_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 2500 = 0) (h1 : t.val % 2500 = 2499) :
    outsAt1 V c t.val t.isLt = (at1 out0_C_3 c t (fun h => h0 ((hcond0_0 t).mp h)) ((hcond0_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, (outsAt1 V c (t.val - 1) (Nat.lt_of_le_of_lt (Nat.sub_le _ _) t.isLt)).2.1, (outsAt1 V c (t.val - 1) (Nat.lt_of_le_of_lt (Nat.sub_le _ _) t.isLt)).2.2.1, at1 sout0_C_2 c t (fun h => h0 ((hcond0_0 t).mp h)) ((hcond0_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

-- between points the three scratch buffers hold what the point before left
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1; rw [bodyAt1_eq]
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 5000 := lt_of_lt_of_eq t.isLt (show cfg1.N = 5000 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2500 = 0
  · by_cases h1 : t.val % 2500 = 2499
    · exfalso; omega
    · rw [Dat.leavesExact_idle (dat1 V c) 3 t (idleAt1_3 t (fun h => h1 ((hcond0_1 t).mp h))) (noFlush1_3 t (fun h => h1 ((hcond0_1 t).mp h)))]
      rw [outsAt1_A V c t h0 h1]
      dsimp only [at1]
      have hΦ : (dat1 V c).Φ t.castSucc ⊢ Pipeline.ΦA spec1 c := by
        by_cases hz : t.val = 0
        · rw [PhiS1_castSucc V c t, PhiS1_zero V c _ _ hz]
        · exact Phi_out1 V c t.castSucc (by rwa [Fin.coe_castSucc])
      rw [PhiA1_eq] at hΦ
      exact (sep_mono hΦ .rfl).trans (stepA _ _ _ _ _ _ _ _ _ _ _ _ _ _ _ _ _ _ _ _ _ _ _ _ _)
  · have hz : t.val ≠ 0 := fun h => h0 (by rw [h])
    by_cases h1 : t.val % 2500 = 2499
    · rw [show (dat1 V c).leavesExact 3 t = owns (c : Thread nD τ) (ms1_3 t) fullShare ((dat1 V c).after 3 t) from by
        unfold Dat.leavesExact; rw [liveAt1_3 t ((hcond0_1 t).mpr h1)], after1_3]
      rw [outsAt1_C V c t h0 h1]
      dsimp only [at1]
      rw [PhiS1_castSucc V c t, PhiS1_pos V c _ _ hz]
      exact stepC _ _ _ _ _ _ _ _ _ _ _ _ _ _ _ _ _ _ _ _ _ _ _ _ _ _ _ _
    · rw [Dat.leavesExact_idle (dat1 V c) 3 t (idleAt1_3 t (fun h => h1 ((hcond0_1 t).mp h))) (noFlush1_3 t (fun h => h1 ((hcond0_1 t).mp h)))]
      rw [outsAt1_B V c t h0 h1]
      dsimp only [at1]
      rw [PhiS1_castSucc V c t, PhiS1_pos V c _ _ hz]
      exact stepB _ _ _ _ _ _ _ _ _ _ _ _ _ _ _ _ _ _ _ _ _ _ _ _ _ _ _ _

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c :=
  Phi_out1 V c _ (by rw [Fin.val_last]; have : cfg1.N = 5000 := N_1; omega)

end

end Cert.KernelIdeal.Gen

end
-- ==== Proof.KI.R2Runs.lean ====
import proofs.«408425_j84189948936514_2_alg».proof.Proof.KI.Pieces

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
end

theorem liveAt2_0 : ∀ t : Fin cfg2.N, cfg2.idle 0 (grid2.coords t) = false := live_0
theorem liveAt2_1 : ∀ t : Fin cfg2.N, cfg2.idle 1 (grid2.coords t) = false := live_1
theorem liveAt2_2 : ∀ t : Fin cfg2.N, cfg2.idle 2 (grid2.coords t) = false := live_2

theorem idleAt2_3 : ∀ t : Fin cfg2.N, ¬cond0_1 (grid2.coords t) → cfg2.idle 3 (grid2.coords t) = true := idle_3
theorem noFlush2_3 : ∀ t : Fin cfg2.N, ¬cond0_1 (grid2.coords t) → (cfg2.win 3).flush t = false := noFlush_3

theorem liveAt2_3 : ∀ t : Fin cfg2.N, cond0_1 (grid2.coords t) → cfg2.idle 3 (grid2.coords t) = false := live_3

abbrev VO2_3 : View sig .tc .vmem S1x20096x128 .f32 := (Memref.whole cc2_stg3_0 : Memref sig .tc .vmem S1x20096x128 .f32).view
abbrev ms2_0 (t : Fin cfg2.N) : Memref sig .tc .vmem S20096x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x20096x128 .f32 := win2_3.stage (cfg2.slots t 3)
abbrev hs2_3 (t : Fin cfg2.N) : (ms2_3 t).IsWhole := hstage2_3 ((cfg2.slots t 3).cast nbuf2_3)

abbrev scM2_0 : Memref sig .tc .vmem S20096x128 .bf16 := Memref.whole cc2_scratch0
abbrev scM2_1 : Memref sig .tc .vmem S20096x128 .bf16 := Memref.whole cc2_scratch1
abbrev scM2_2 : Memref sig .tc .vmem S20096x128 .f32 := Memref.whole cc2_scratch2

def rest2 (c : Dev nD) : sProp 𝕄 :=
  Pipeline.scopedRestBut (τ := τ) (Ix := Unit) (Name := ℕ) (U := UR sig nD τ) (Lvl := ℕ) (Val := Elt F) spec2 c [cc2_scratch0, cc2_scratch1, cc2_scratch2]

theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ (∃ d, owns (c : Thread nD τ) scM2_2 fullShare d) ∗ rest2 c) ∗ (∃ r, prngReg c r)) := by
  have h := Pipeline.scopedRest_split_of_list (τ := τ) (Ix := Unit) (Name := ℕ) (U := UR sig nD τ) (Lvl := ℕ) (Val := Elt F) spec2 c [cc2_scratch0, cc2_scratch1, cc2_scratch2] (by decide) (by decide)
  unfold Pipeline.ΦA rest2
  rw [h]
  simp only [bigSepL, scM2_0, scM2_1, scM2_2, owns_whole]
  exact congrArg (fun X : sProp 𝕄 => iprop(X ∗ ∃ r, prngReg c r)) ((equiv_iff.mp ⟨BI.sep_assoc, BI.sep_assoc'⟩).trans (congrArg _ (equiv_iff.mp ⟨BI.sep_assoc, BI.sep_assoc'⟩)))

-- a function of the kernel's seven buffers, taken at the buffers of grid point t
abbrev at2 {β : grid2.Coords → Type} (f : (c : Dev nD) → (i : grid2.Coords) → (arg2 : Memref sig .tc .vmem S20096x128 .f32) → arg2.IsWhole → (arg3 : Memref sig .tc .vmem S128 .i32) → arg3.IsWhole → (arg4 : Memref sig .tc .vmem S128 .i32) → arg4.IsWhole → (arg5 : Memref sig .tc .vmem S1x20096x128 .f32) → arg5.IsWhole → (arg6 : Memref sig .tc .vmem S20096x128 .bf16) → arg6.IsWhole → (arg7 : Memref sig .tc .vmem S20096x128 .bf16) → arg7.IsWhole → (arg8 : Memref sig .tc .vmem S20096x128 .f32) → arg8.IsWhole → β i)
    (c : Dev nD) (t : Fin cfg2.N) : β (grid2.coords t) :=
  f c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _)

theorem bodyAt2_eq (t : Fin cfg2.N) : bodyAt2 (F := F) t = cc0__aggregate_kernel (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) := rfl

end Cert.KernelIdeal.Gen

end
-- ==== Proof.KI.R2Body.lean ====
import proofs.«408425_j84189948936514_2_alg».proof.Proof.KI.R2Runs
import proofs.«408425_j84189948936514_2_alg».proof.Proof.KI.Steps

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def idle2_3 : Vec F S1x20096x128 .f32 := VO2_3.read (Elt F) VO2_3.junk

section
variable (V : (c : Dev nD) → (b : Ref sig .tc) → Buf (Elt F) ((c : Thread nD τ).loc b))

-- after point n: the output block, the two halves of the feature table, the accumulator
def outsAt2 (c : Dev nD) : (n : ℕ) → n < cfg2.N → Vec F S1x20096x128 .f32 × Vec F S20096x128 .bf16 × Vec F S20096x128 .bf16 × Vec F S20096x128 .f32
  | 0, hn => (idle2_3, at2 sout0_A_0 c ⟨0, hn⟩ ((hcond0_0 ⟨0, hn⟩).mpr (Nat.zero_mod _)) (fun h => (fun h => by (try dsimp only at h); omega) ((hcond0_1 ⟨0, hn⟩).mp h)) (iblk2 V c 0 ⟨0, hn⟩) (iblk2 V c 1 ⟨0, hn⟩) (iblk2 V c 2 ⟨0, hn⟩), at2 sout0_A_1 c ⟨0, hn⟩ ((hcond0_0 ⟨0, hn⟩).mpr (Nat.zero_mod _)) (fun h => (fun h => by (try dsimp only at h); omega) ((hcond0_1 ⟨0, hn⟩).mp h)) (iblk2 V c 0 ⟨0, hn⟩) (iblk2 V c 1 ⟨0, hn⟩) (iblk2 V c 2 ⟨0, hn⟩), at2 sout0_A_2 c ⟨0, hn⟩ ((hcond0_0 ⟨0, hn⟩).mpr (Nat.zero_mod _)) (fun h => (fun h => by (try dsimp only at h); omega) ((hcond0_1 ⟨0, hn⟩).mp h)) (iblk2 V c 0 ⟨0, hn⟩) (iblk2 V c 1 ⟨0, hn⟩) (iblk2 V c 2 ⟨0, hn⟩))
  | n + 1, hn =>
    if h0 : (n + 1) % 2500 = 0 then
      if h1 : (n + 1) % 2500 = 2499 then
        False.elim (by omega)
      else
        (idle2_3, at2 sout0_A_0 c ⟨n + 1, hn⟩ ((hcond0_0 ⟨n + 1, hn⟩).mpr h0) (fun h => h1 ((hcond0_1 ⟨n + 1, hn⟩).mp h)) (iblk2 V c 0 ⟨n + 1, hn⟩) (iblk2 V c 1 ⟨n + 1, hn⟩) (iblk2 V c 2 ⟨n + 1, hn⟩), at2 sout0_A_1 c ⟨n + 1, hn⟩ ((hcond0_0 ⟨n + 1, hn⟩).mpr h0) (fun h => h1 ((hcond0_1 ⟨n + 1, hn⟩).mp h)) (iblk2 V c 0 ⟨n + 1, hn⟩) (iblk2 V c 1 ⟨n + 1, hn⟩) (iblk2 V c 2 ⟨n + 1, hn⟩), at2 sout0_A_2 c ⟨n + 1, hn⟩ ((hcond0_0 ⟨n + 1, hn⟩).mpr h0) (fun h => h1 ((hcond0_1 ⟨n + 1, hn⟩).mp h)) (iblk2 V c 0 ⟨n + 1, hn⟩) (iblk2 V c 1 ⟨n + 1, hn⟩) (iblk2 V c 2 ⟨n + 1, hn⟩))
    else
      if h1 : (n + 1) % 2500 = 2499 then
        (at2 out0_C_3 c ⟨n + 1, hn⟩ (fun h => h0 ((hcond0_0 ⟨n + 1, hn⟩).mp h)) ((hcond0_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2.1 (outsAt2 c n (Nat.lt_of_succ_lt hn)).2.2.2, (outsAt2 c n (Nat.lt_of_succ_lt hn)).2.1, (outsAt2 c n (Nat.lt_of_succ_lt hn)).2.2.1, at2 sout0_C_2 c ⟨n + 1, hn⟩ (fun h => h0 ((hcond0_0 ⟨n + 1, hn⟩).mp h)) ((hcond0_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2.1 (outsAt2 c n (Nat.lt_of_succ_lt hn)).2.2.2)
      else
        (idle2_3, (outsAt2 c n (Nat.lt_of_succ_lt hn)).2.1, (outsAt2 c n (Nat.lt_of_succ_lt hn)).2.2.1, at2 sout0_B_2 c ⟨n + 1, hn⟩ (fun h => h0 ((hcond0_0 ⟨n + 1, hn⟩).mp h)) (fun h => h1 ((hcond0_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2.1 (outsAt2 c n (Nat.lt_of_succ_lt hn)).2.2.2)

theorem outsAt2_A (c : Dev nD) (t : Fin cfg2.N) (h0 : t.val % 2500 = 0) (h1 : ¬t.val % 2500 = 2499) :
    outsAt2 V c t.val t.isLt = (idle2_3, at2 sout0_A_0 c t ((hcond0_0 t).mpr h0) (fun h => h1 ((hcond0_1 t).mp h)) (iblk2 V c 0 t) (iblk2 V c 1 t) (iblk2 V c 2 t), at2 sout0_A_1 c t ((hcond0_0 t).mpr h0) (fun h => h1 ((hcond0_1 t).mp h)) (iblk2 V c 0 t) (iblk2 V c 1 t) (iblk2 V c 2 t), at2 sout0_A_2 c t ((hcond0_0 t).mpr h0) (fun h => h1 ((hcond0_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 2500 = 0) (h1 : ¬t.val % 2500 = 2499) :
    outsAt2 V c t.val t.isLt = (idle2_3, (outsAt2 V c (t.val - 1) (Nat.lt_of_le_of_lt (Nat.sub_le _ _) t.isLt)).2.1, (outsAt2 V c (t.val - 1) (Nat.lt_of_le_of_lt (Nat.sub_le _ _) t.isLt)).2.2.1, at2 sout0_B_2 c t (fun h => h0 ((hcond0_0 t).mp h)) (fun h => h1 ((hcond0_1 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 2500 = 0) (h1 : t.val % 2500 = 2499) :
    outsAt2 V c t.val t.isLt = (at2 out0_C_3 c t (fun h => h0 ((hcond0_0 t).mp h)) ((hcond0_1 t).mpr h1) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, (outsAt2 V c (t.val - 1) (Nat.lt_of_le_of_lt (Nat.sub_le _ _) t.isLt)).2.1, (outsAt2 V c (t.val - 1) (Nat.lt_of_le_of_lt (Nat.sub_le _ _) t.isLt)).2.2.1, at2 sout0_C_2 c t (fun h => h0 ((hcond0_0 t).mp h)) ((hcond0_1 t).mpr h1) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

-- between points the three scratch buffers hold what the point before left
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2) ∗ rest2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2.1) ∗ owns (c : Thread nD τ) scM2_1 fullShare ((outsAt2 V c (n - 1) (by omega)).2.2.1) ∗ owns (c : Thread nD τ) scM2_2 fullShare ((outsAt2 V c (n - 1) (by omega)).2.2.2) ∗ rest2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 8000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2; rw [bodyAt2_eq]
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 5000 := lt_of_lt_of_eq t.isLt (show cfg2.N = 5000 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 2500 = 0
  · by_cases h1 : t.val % 2500 = 2499
    · exfalso; omega
    · rw [Dat.leavesExact_idle (dat2 V c) 3 t (idleAt2_3 t (fun h => h1 ((hcond0_1 t).mp h))) (noFlush2_3 t (fun h => h1 ((hcond0_1 t).mp h)))]
      rw [outsAt2_A V c t h0 h1]
      dsimp only [at2]
      have hΦ : (dat2 V c).Φ t.castSucc ⊢ Pipeline.ΦA spec2 c := by
        by_cases hz : t.val = 0
        · rw [PhiS2_castSucc V c t, PhiS2_zero V c _ _ hz]
        · exact Phi_out2 V c t.castSucc (by rwa [Fin.coe_castSucc])
      rw [PhiA2_eq] at hΦ
      exact (sep_mono hΦ .rfl).trans (stepA _ _ _ _ _ _ _ _ _ _ _ _ _ _ _ _ _ _ _ _ _ _ _ _ _)
  · have hz : t.val ≠ 0 := fun h => h0 (by rw [h])
    by_cases h1 : t.val % 2500 = 2499
    · rw [show (dat2 V c).leavesExact 3 t = owns (c : Thread nD τ) (ms2_3 t) fullShare ((dat2 V c).after 3 t) from by
        unfold Dat.leavesExact; rw [liveAt2_3 t ((hcond0_1 t).mpr h1)], after2_3]
      rw [outsAt2_C V c t h0 h1]
      dsimp only [at2]
      rw [PhiS2_castSucc V c t, PhiS2_pos V c _ _ hz]
      exact stepC _ _ _ _ _ _ _ _ _ _ _ _ _ _ _ _ _ _ _ _ _ _ _ _ _ _ _ _
    · rw [Dat.leavesExact_idle (dat2 V c) 3 t (idleAt2_3 t (fun h => h1 ((hcond0_1 t).mp h))) (noFlush2_3 t (fun h => h1 ((hcond0_1 t).mp h)))]
      rw [outsAt2_B V c t h0 h1]
      dsimp only [at2]
      rw [PhiS2_castSucc V c t, PhiS2_pos V c _ _ hz]
      exact stepB _ _ _ _ _ _ _ _ _ _ _ _ _ _ _ _ _ _ _ _ _ _ _ _ _ _ _ _

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c :=
  Phi_out2 V c _ (by rw [Fin.val_last]; have : cfg2.N = 5000 := N_2; omega)

end

end Cert.KernelIdeal.Gen

end
-- ==== Proof.KI.Run.lean ====
import proofs.«408425_j84189948936514_2_alg».proof.Proof.KI.R0Body
import proofs.«408425_j84189948936514_2_alg».proof.Proof.KI.R1Body
import proofs.«408425_j84189948936514_2_alg».proof.Proof.KI.R2Body
import proofs.«408425_j84189948936514_2_alg».proof.Proof.Gen.KernelIdeal.Regions

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

abbrev Lz : GSem nD τ sig → Finset Unit := fun _ => ∅
abbrev lvz : GSem nD τ sig → Unit → ℕ := fun _ _ => 0

abbrev Rr (c : Dev nD) : sProp 𝕄 := iprop((∃ r, prngReg c r) ∗ ∃ W, owes (c : Thread nD τ) (0 : CellTallies nD τ sig Unit) W)

abbrev Ve8 : (c : Dev nD) → (b : Ref sig .tc) → Buf (Elt F) ((c : Thread nD τ).loc b) := fun c b => V8 m c b
abbrev Ve9 (outs : Outs (F := F)) : (c : Dev nD) → (b : Ref sig .tc) → Buf (Elt F) ((c : Thread nD τ).loc b) := fun c b => V9 m outs c b
abbrev Ve11 (outs : Outs (F := F)) : (c : Dev nD) → (b : Ref sig .tc) → Buf (Elt F) ((c : Thread nD τ).loc b) := fun c b => V11 m outs c b
abbrev Ve12 (outs : Outs (F := F)) : (c : Dev nD) → (b : Ref sig .tc) → Buf (Elt F) ((c : Thread nD τ).loc b) := fun c b => V12 m outs c b
abbrev Ve14 (outs : Outs (F := F)) : (c : Dev nD) → (b : Ref sig .tc) → Buf (Elt F) ((c : Thread nD τ).loc b) := fun c b => V14 m outs c b
abbrev Ve15 (outs : Outs (F := F)) : (c : Dev nD) → (b : Ref sig .tc) → Buf (Elt F) ((c : Thread nD τ).loc b) := fun c b => V15 m outs c b

def pdats (outs : Outs (F := F)) : (p : Fin 3) → (c : Dev nD) → Dat τ (Elt F) Unit ℕ (UR sig nD τ) ℕ (cfgs p) c
  | ⟨0, _⟩ => fun c => dat0 (Ve8 m) c
  | ⟨1, _⟩ => fun c => dat1 (Ve11 m outs) c
  | ⟨2, _⟩ => fun c => dat2 (Ve14 m outs) c

structure GoodOuts (outs : Outs (F := F)) : Prop where
  h9 : ∀ c : Dev nD, outs 9 main_v27 c = (pdats m outs 0 c).arrAt 3 cfg0.N
  h12 : ∀ c : Dev nD, outs 12 main_v47 c = (pdats m outs 1 c).arrAt 3 cfg1.N
  h15 : ∀ c : Dev nD, outs 15 main_v67 c = (pdats m outs 2 c).arrAt 3 cfg2.N

set_option maxHeartbeats 1000000 in

theorem hF0 (outs : Outs (F := F)) (hO : GoodOuts m outs) (c : Dev nD) (w : Fin cfg0.W) :
    (pdats m outs 0 c).arrAt w cfg0.N = Ve9 m outs c (Pipeline.arrRef spec0 w) := by
  have h0 : (dat0 (Ve8 m) c).arrAt 0 cfg0.N = Ve9 m outs c (Pipeline.arrRef spec0 0) :=
    ((dat0 (Ve8 m) c).arrAt_in 0 rfl _).trans ((A_eq0 (Ve8 m) c 0).trans (V9_of m outs c (Pipeline.arrRef spec0 0) (by decide)).symm)
  have h1 : (dat0 (Ve8 m) c).arrAt 1 cfg0.N = Ve9 m outs c (Pipeline.arrRef spec0 1) :=
    ((dat0 (Ve8 m) c).arrAt_in 1 rfl _).trans ((A_eq0 (Ve8 m) c 1).trans (V9_of m outs c (Pipeline.arrRef spec0 1) (by decide)).symm)
  have h2 : (dat0 (Ve8 m) c).arrAt 2 cfg0.N = Ve9 m outs c (Pipeline.arrRef spec0 2) :=
    ((dat0 (Ve8 m) c).arrAt_in 2 rfl _).trans ((A_eq0 (Ve8 m) c 2).trans (V9_of m outs c (Pipeline.arrRef spec0 2) (by decide)).symm)
  have h3 : (pdats m outs 0 c).arrAt 3 cfg0.N = Ve9 m outs c (Pipeline.arrRef spec0 3) :=
    (hO.h9 c).symm.trans (Eq.symm (by
      show Function.update (V8 m c) (Proc.devRef .tc main_v27) (outs 9 main_v27 c) (Proc.devRef .tc main_v27) = outs 9 main_v27 c
      first | exact Function.update_self _ _ _ | exact Function.update_same _ _ _))
  obtain ⟨n, hn⟩ := w
  match n, hn with
  | 0, _ => exact h0
  | 1, _ => exact h1
  | 2, _ => exact h2
  | 3, _ => exact h3
  | n + 4, h => exact absurd (show n + 4 < 4 from h) (by omega)
theorem hrest0 (outs : Outs (F := F)) (c : Dev nD) : ∀ b : Ref sig .tc, b ∉ Finset.univ.image (Pipeline.arrRef spec0) →
    Ve9 m outs c b = Ve8 m c b :=
  fun b hb => V9_of m outs c b (fun h => hb (Finset.mem_image.mpr ⟨3, Finset.mem_univ _, ((List.mem_singleton.mp h)).symm⟩))

set_option backward.isDefEq.respectTransparency.types false in

def reg0 (outs : Outs (F := F)) (hO : GoodOuts m outs) : Pipeline.RegionSeg (pcfgs (F := F)) adm (pdats m outs) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Ve8 m) c).loose
  hwaits := Pipeline.hwaits_of_owed_zero _ _ _ _ Lz lvz 0 fun _ _ => rfl
  pre c := iprop(StableHlo.held (c : Thread nD τ) (Pipeline.ucRefs τ sig) (V8 m c) ∗ Rr c)
  post c := iprop(StableHlo.held (c : Thread nD τ) (Pipeline.ucRefs τ sig) (V9 m outs c) ∗ Rr c)
  X c := iprop(∃ r, prngReg c r)
  Y c := iprop(∃ r, prngReg c r)
  Z c := Pipeline.unscopedRest (Ix := Unit) (Name := ℕ) (U := UR sig nD τ) (Lvl := ℕ) spec0 c (Ve8 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (Ve8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none]
    have h1 := hout0 (Ve8 m) c
    have h2 : (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (Ve8 m c) (Ve9 m outs c) ((pdats m outs 0 c).arrAt · cfg0.N) (hF0 m outs hO c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in

theorem hF1 (outs : Outs (F := F)) (hO : GoodOuts m outs) (c : Dev nD) (w : Fin cfg1.W) :
    (pdats m outs 1 c).arrAt w cfg1.N = Ve12 m outs c (Pipeline.arrRef spec1 w) := by
  have h0 : (dat1 (Ve11 m outs) c).arrAt 0 cfg1.N = Ve12 m outs c (Pipeline.arrRef spec1 0) :=
    ((dat1 (Ve11 m outs) c).arrAt_in 0 rfl _).trans ((A_eq1 (Ve11 m outs) c 0).trans (V12_of m outs c (Pipeline.arrRef spec1 0) (by decide)).symm)
  have h1 : (dat1 (Ve11 m outs) c).arrAt 1 cfg1.N = Ve12 m outs c (Pipeline.arrRef spec1 1) :=
    ((dat1 (Ve11 m outs) c).arrAt_in 1 rfl _).trans ((A_eq1 (Ve11 m outs) c 1).trans (V12_of m outs c (Pipeline.arrRef spec1 1) (by decide)).symm)
  have h2 : (dat1 (Ve11 m outs) c).arrAt 2 cfg1.N = Ve12 m outs c (Pipeline.arrRef spec1 2) :=
    ((dat1 (Ve11 m outs) c).arrAt_in 2 rfl _).trans ((A_eq1 (Ve11 m outs) c 2).trans (V12_of m outs c (Pipeline.arrRef spec1 2) (by decide)).symm)
  have h3 : (pdats m outs 1 c).arrAt 3 cfg1.N = Ve12 m outs c (Pipeline.arrRef spec1 3) :=
    (hO.h12 c).symm.trans (Eq.symm (by
      show Function.update (V11 m outs c) (Proc.devRef .tc main_v47) (outs 12 main_v47 c) (Proc.devRef .tc main_v47) = outs 12 main_v47 c
      first | exact Function.update_self _ _ _ | exact Function.update_same _ _ _))
  obtain ⟨n, hn⟩ := w
  match n, hn with
  | 0, _ => exact h0
  | 1, _ => exact h1
  | 2, _ => exact h2
  | 3, _ => exact h3
  | n + 4, h => exact absurd (show n + 4 < 4 from h) (by omega)
theorem hrest1 (outs : Outs (F := F)) (c : Dev nD) : ∀ b : Ref sig .tc, b ∉ Finset.univ.image (Pipeline.arrRef spec1) →
    Ve12 m outs c b = Ve11 m outs c b :=
  fun b hb => V12_of m outs c b (fun h => hb (Finset.mem_image.mpr ⟨3, Finset.mem_univ _, ((List.mem_singleton.mp h)).symm⟩))

set_option backward.isDefEq.respectTransparency.types false in

def reg1 (outs : Outs (F := F)) (hO : GoodOuts m outs) : Pipeline.RegionSeg (pcfgs (F := F)) adm (pdats m outs) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Ve11 m outs) c).loose
  hwaits := Pipeline.hwaits_of_owed_zero _ _ _ _ Lz lvz 1 fun _ _ => rfl
  pre c := iprop(StableHlo.held (c : Thread nD τ) (Pipeline.ucRefs τ sig) (V11 m outs c) ∗ Rr c)
  post c := iprop(StableHlo.held (c : Thread nD τ) (Pipeline.ucRefs τ sig) (V12 m outs c) ∗ Rr c)
  X c := iprop(∃ r, prngReg c r)
  Y c := iprop(∃ r, prngReg c r)
  Z c := Pipeline.unscopedRest (Ix := Unit) (Name := ℕ) (U := UR sig nD τ) (Lvl := ℕ) spec1 c (Ve11 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (Ve11 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 := hout1 (Ve11 m outs) c
    have h2 : (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (Ve11 m outs c) (Ve12 m outs c) ((pdats m outs 1 c).arrAt · cfg1.N) (hF1 m outs hO c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in

theorem hF2 (outs : Outs (F := F)) (hO : GoodOuts m outs) (c : Dev nD) (w : Fin cfg2.W) :
    (pdats m outs 2 c).arrAt w cfg2.N = Ve15 m outs c (Pipeline.arrRef spec2 w) := by
  have h0 : (dat2 (Ve14 m outs) c).arrAt 0 cfg2.N = Ve15 m outs c (Pipeline.arrRef spec2 0) :=
    ((dat2 (Ve14 m outs) c).arrAt_in 0 rfl _).trans ((A_eq2 (Ve14 m outs) c 0).trans (V15_of m outs c (Pipeline.arrRef spec2 0) (by decide)).symm)
  have h1 : (dat2 (Ve14 m outs) c).arrAt 1 cfg2.N = Ve15 m outs c (Pipeline.arrRef spec2 1) :=
    ((dat2 (Ve14 m outs) c).arrAt_in 1 rfl _).trans ((A_eq2 (Ve14 m outs) c 1).trans (V15_of m outs c (Pipeline.arrRef spec2 1) (by decide)).symm)
  have h2 : (dat2 (Ve14 m outs) c).arrAt 2 cfg2.N = Ve15 m outs c (Pipeline.arrRef spec2 2) :=
    ((dat2 (Ve14 m outs) c).arrAt_in 2 rfl _).trans ((A_eq2 (Ve14 m outs) c 2).trans (V15_of m outs c (Pipeline.arrRef spec2 2) (by decide)).symm)
  have h3 : (pdats m outs 2 c).arrAt 3 cfg2.N = Ve15 m outs c (Pipeline.arrRef spec2 3) :=
    (hO.h15 c).symm.trans (Eq.symm (by
      show Function.update (V14 m outs c) (Proc.devRef .tc main_v67) (outs 15 main_v67 c) (Proc.devRef .tc main_v67) = outs 15 main_v67 c
      first | exact Function.update_self _ _ _ | exact Function.update_same _ _ _))
  obtain ⟨n, hn⟩ := w
  match n, hn with
  | 0, _ => exact h0
  | 1, _ => exact h1
  | 2, _ => exact h2
  | 3, _ => exact h3
  | n + 4, h => exact absurd (show n + 4 < 4 from h) (by omega)
theorem hrest2 (outs : Outs (F := F)) (c : Dev nD) : ∀ b : Ref sig .tc, b ∉ Finset.univ.image (Pipeline.arrRef spec2) →
    Ve15 m outs c b = Ve14 m outs c b :=
  fun b hb => V15_of m outs c b (fun h => hb (Finset.mem_image.mpr ⟨3, Finset.mem_univ _, ((List.mem_singleton.mp h)).symm⟩))

set_option backward.isDefEq.respectTransparency.types false in

def reg2 (outs : Outs (F := F)) (hO : GoodOuts m outs) : Pipeline.RegionSeg (pcfgs (F := F)) adm (pdats m outs) () defs₀ Variants.none Lz lvz 2 where
  win := launch2.win.to₀
  block_pos := launch2.block_pos
  stage_whole := launch2.stage_whole
  K := PEmpty
  osem k := k.elim
  ho := Pipeline.OwnSemFacts.none _
  hbody c := (body_obligation2 (Ve14 m outs) c).loose
  hwaits := Pipeline.hwaits_of_owed_zero _ _ _ _ Lz lvz 2 fun _ _ => rfl
  pre c := iprop(StableHlo.held (c : Thread nD τ) (Pipeline.ucRefs τ sig) (V14 m outs c) ∗ Rr c)
  post c := iprop(StableHlo.held (c : Thread nD τ) (Pipeline.ucRefs τ sig) (V15 m outs c) ∗ Rr c)
  X c := iprop(∃ r, prngReg c r)
  Y c := iprop(∃ r, prngReg c r)
  Z c := Pipeline.unscopedRest (Ix := Unit) (Name := ℕ) (U := UR sig nD τ) (Lvl := ℕ) spec2 c (Ve14 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (Ve14 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none]
    have h1 := hout2 (Ve14 m outs) c
    have h2 : (Pipeline.ΦA spec2 c : sProp 𝕄) ⊢ iprop((∃ r, prngReg c r) ∗ BI.emp ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (Ve14 m outs c) (Ve15 m outs c) ((pdats m outs 2 c).arrAt · cfg2.N) (hF2 m outs hO c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem Rr_owes (c : Dev nD) : (Rr c : sProp 𝕄) ⊢ iprop(∃ W, owes (c : Thread nD τ) (0 : CellTallies nD τ sig Unit) W) := by
  iintro ⟨-, HO⟩
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_all (outs : Outs (F := F)) (hO : GoodOuts m outs) :
    θ_run defs (onTc (τ := τ) (main (F := F))) ⟨m, fun _ => 0, ρ⟩ (fun r => ∀ c : Dev nD,
      ∀ b ∈ Pipeline.ucRefs τ sig, r.2.mem (((c : Thread nD τ)).1, b) = V16 m outs c b) := by
  refine Pipeline.θ_run_regions_kit_dev (pcfgs (F := F)) adm (pdats m outs) () cellOf_inj emb₁ defs₀ Variants.none Lz lvz m ρ main
    (segs m outs Variants.none Lz lvz (fun _ c => Rr c) () (pdats m outs) (reg0 m outs hO) (reg1 m outs hO) (reg2 m outs hO))
    (fun c Q => by
      rewrite [main_chain c, Seg.run_eq_chain,
        show (segs m outs Variants.none Lz lvz (fun _ c => Rr c) () (pdats m outs) (reg0 m outs hO) (reg1 m outs hO) (reg2 m outs hO) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V16 m outs c))
    (hch := fun c => ⟨.rfl, .rfl, .rfl, .rfl, .rfl, .rfl, .rfl, .rfl, .rfl, .rfl, .rfl, .rfl, .rfl, .rfl, .rfl, .rfl, sep_mono .rfl (Rr_owes c)⟩)
    (hinit := by
      refine Pipeline.initEach Lz lvz fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V16 m outs c b)
    (hfin := fun c s' => by
      unfold StableHlo.held
      iintro ⟨Hh, HSI⟩
      imodintro
      iapply (pointsTo_read_all (Pipeline.ucRefs τ sig) (fun b => (((c : Thread nD τ)).1, b)) (V16 m outs c) s')
      isplitl [Hh] <;> iassumption)
    (hQ := fun _ h => h)

theorem frame_of_outs (outs : Outs (F := F)) (hO : GoodOuts m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (V16_main_arg0 m outs c),
     (h c _ (mem_uc main_arg1 (by decide))).trans (V16_main_arg1 m outs c),
     (h c _ (mem_uc main_arg2 (by decide))).trans (V16_main_arg2 m outs c),
     (h c _ (mem_uc main_arg3 (by decide))).trans (V16_main_arg3 m outs c),
     (h c _ (mem_uc main_arg4 (by decide))).trans (V16_main_arg4 m outs c),
     (h c _ (mem_uc main_arg5 (by decide))).trans (V16_main_arg5 m outs c),
     (h c _ (mem_uc main_arg6 (by decide))).trans (V16_main_arg6 m outs c),
     (h c _ (mem_uc main_arg7 (by decide))).trans (V16_main_arg7 m outs c)⟩) (run_all m ρ outs hO)

def o9 (c : Dev nD) : Buf (Elt F) ((c : Thread nD τ).loc main_v27) := (dat0 (Ve8 m) c).arrAt 3 cfg0.N
def outsA : Outs (F := F) := fun _ r c => if h : r = main_v27 then h ▸ o9 m c else V8 m c r

def o12 (c : Dev nD) : Buf (Elt F) ((c : Thread nD τ).loc main_v47) := (dat1 (Ve11 m (outsA m)) c).arrAt 3 cfg1.N
def outsB : Outs (F := F) := fun _ r c => if h : r = main_v27 then h ▸ o9 m c else if h : r = main_v47 then h ▸ o12 m c else V8 m c r

def o15 (c : Dev nD) : Buf (Elt F) ((c : Thread nD τ).loc main_v67) := (dat2 (Ve14 m (outsB m)) c).arrAt 3 cfg2.N
def outsC : Outs (F := F) := fun _ r c => if h : r = main_v27 then h ▸ o9 m c else if h : r = main_v47 then h ▸ o12 m c else if h : r = main_v67 then h ▸ o15 m c else V8 m c r

theorem outsA_9 (J : ℕ) (c : Dev nD) : outsA m J main_v27 c = o9 m c := by unfold outsA; rw [dif_pos rfl]
theorem outsB_9 (J : ℕ) (c : Dev nD) : outsB m J main_v27 c = o9 m c := by unfold outsB; rw [dif_pos rfl]
theorem outsC_9 (J : ℕ) (c : Dev nD) : outsC m J main_v27 c = o9 m c := by unfold outsC; rw [dif_pos rfl]
theorem outsB_12 (J : ℕ) (c : Dev nD) : outsB m J main_v47 c = o12 m c := by
  unfold outsB; rw [dif_neg (by decide : ¬(main_v47 : Ref sig .tc) = main_v27), dif_pos rfl]
theorem outsC_12 (J : ℕ) (c : Dev nD) : outsC m J main_v47 c = o12 m c := by
  unfold outsC; rw [dif_neg (by decide : ¬(main_v47 : Ref sig .tc) = main_v27), dif_pos rfl]
theorem outsC_15 (J : ℕ) (c : Dev nD) : outsC m J main_v67 c = o15 m c := by
  unfold outsC; rw [dif_neg (by decide : ¬(main_v67 : Ref sig .tc) = main_v27), dif_neg (by decide : ¬(main_v67 : Ref sig .tc) = main_v47), dif_pos rfl]

theorem V11_C (c : Dev nD) : V11 m (outsC m) c = V11 m (outsA m) c := by
  simp only [V11, V10, V9, outsC_9, outsA_9]
theorem V14_C (c : Dev nD) : V14 m (outsC m) c = V14 m (outsB m) c := by
  simp only [V14, V13, V12, V11, V10, V9, outsC_9, outsB_9, outsC_12, outsB_12]
theorem Ve11_C : Ve11 m (outsC m) = Ve11 m (outsA m) := by
  funext c b; exact congrFun (V11_C m c) _
theorem Ve14_C : Ve14 m (outsC m) = Ve14 m (outsB m) := by
  funext c b; exact congrFun (V14_C m c) _

theorem good : GoodOuts m (outsC (F := F) m) where
  h9 c := (outsC_9 m 9 c).trans rfl
  h12 c := (outsC_12 m 12 c).trans (by unfold o12; rw [← Ve11_C]; rfl)
  h15 c := (outsC_15 m 15 c).trans (by unfold o15; rw [← Ve14_C]; rfl)

end Cert.KernelIdeal.Gen

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev SN : Shape := ⟨2, ![20000, 128]⟩

abbrev SW : Shape := ⟨2, ![128, 128]⟩

abbrev SB : Shape := ⟨1, ![128]⟩

abbrev SE : Shape := ⟨2, ![2, 640000]⟩

def edge (ei : SE.Idx → BitVec 32) (r : Fin 2) (e : Fin 640000) : BitVec 32 := ei (ix2 r e)

def node (s : BitVec 32) : Fin 20000 := ⟨s.toNat % 20000, Nat.mod_lt _ (by decide)⟩

def SrcInRange (ei : SE.Idx → BitVec 32) : Prop :=
  ∀ e : Fin 640000, 0 ≤ (edge ei 0 e).toInt ∧ (edge ei 0 e).toInt < 20000

def IsReal {s : Shape} (x : s.Idx → EReal) : Prop := ∀ i, ∃ r : ℝ, x i = (r : EReal)

def lin (x : SN.Idx → EReal) (W : SW.Idx → EReal) (b : SB.Idx → EReal) : SN.Idx → EReal :=
  fun i => (∑ k : Fin 128, x (ix2 (i 0) k) * W (ix2 (i 1) k)) + b (ix1 (i 1))

def into (ei : SE.Idx → BitVec 32) (n : ℕ) : Finset (Fin 640000) :=
  Finset.univ.filter fun e : Fin 640000 => (edge ei 1 e).toInt = (n : ℤ)

def deg (ei : SE.Idx → BitVec 32) (n : Fin 20000) : EReal := ∑ _e ∈ into ei n.val, (1 : EReal)

def dinv (ei : SE.Idx → BitVec 32) (n : Fin 20000) : EReal :=
  if 0 < deg ei n then Ideal.div 1 (max (deg ei n) 1) else 0

def agg (xt : SN.Idx → EReal) (ei : SE.Idx → BitVec 32) : SN.Idx → EReal :=
  fun i => ∑ e ∈ into ei (i 0).val, xt (ix2 (node (edge ei 0 e)) (i 1))

def layer (x : SN.Idx → EReal) (W : SW.Idx → EReal) (b : SB.Idx → EReal) (ei : SE.Idx → BitVec 32) : SN.Idx → EReal :=
  fun i => max (agg (lin x W b) ei i * dinv ei ⟨(i 0).val, (i 0).isLt⟩) 0 + lin x W b i

def gcn (x : SN.Idx → EReal) (ei : SE.Idx → BitVec 32) (W1 : SW.Idx → EReal) (b1 : SB.Idx → EReal)
    (W2 : SW.Idx → EReal) (b2 : SB.Idx → EReal) (W3 : SW.Idx → EReal) (b3 : SB.Idx → EReal) : SN.Idx → EReal :=
  layer (layer (layer x W1 b1 ei) W2 b2 ei) W3 b3 ei

end Cert.Spec

end
-- ==== Proof.Contrib.lean ====
import proofs.«408425_j84189948936514_2_alg».proof.Proof.Spec

noncomputable section

namespace Cert.Contrib

open Idealize.ShloMosaic Idealize.ShloMosaic.ValueIdx
open scoped BigOperators

abbrev SP : Shape := ⟨2, ![20096, 128]⟩

abbrev SL : Shape := ⟨1, ![128]⟩

abbrev SO : Shape := ⟨3, ![2, 20096, 128]⟩

def gath (xt : SP.Idx → EReal) (s : BitVec 32) (d : Fin 128) : EReal :=
  if h : s.toNat < 20096 then xt (ix2 ⟨s.toNat, h⟩ d) else 0

def contrib (xt : SP.Idx → EReal) (src dst : SL.Idx → BitVec 32) : SP.Idx → EReal :=
  fun i => ∑ l : Fin 128, (if dst (ix1 l) = BitVec.ofNat 32 (i 0).val then (1 : EReal) else 0)
    * gath xt (src (ix1 l)) ⟨(i 1).val, (i 1).isLt⟩

def blockOf (ei : Cert.Spec.SE.Idx → BitVec 32) (r : Fin 2) (c : Fin 2) (j : Fin 2500) : SL.Idx → BitVec 32 :=
  fun y => ei (ix2 r ⟨(c.val * 2500 + j.val) * 128 + (y 0).val, by
    have h0 : (y 0).val < 128 := (y 0).isLt
    have hc : c.val < 2 := c.isLt
    have hj : j.val < 2500 := j.isLt
    show (c.val * 2500 + j.val) * 128 + (y 0).val < 640000
    omega⟩)

def half (xt : SP.Idx → EReal) (ei : Cert.Spec.SE.Idx → BitVec 32) (c : Fin 2) : SP.Idx → EReal :=
  fun i => ∑ j : Fin 2500, contrib xt (blockOf ei 0 c j) (blockOf ei 1 c j) i

def padLin (x : Cert.Spec.SN.Idx → EReal) (W : Cert.Spec.SW.Idx → EReal) (b : Cert.Spec.SB.Idx → EReal) : SP.Idx → EReal :=
  fun i => if h : (i 0).val < 20000 then Cert.Spec.lin x W b (ix2 ⟨(i 0).val, h⟩ ⟨(i 1).val, (i 1).isLt⟩) else 0

end Cert.Contrib

end
-- ==== Proof.Pad.lean ====
import proofs.«408425_j84189948936514_2_alg».proof.Proof.Contrib

noncomputable section

namespace Cert.Pad

open Idealize.ShloMosaic Idealize.ShloMosaic.ValueIdx Cert.Spec Cert.Contrib
open scoped BigOperators

def restr (xp : SP.Idx → EReal) : SN.Idx → EReal :=
  fun i => xp (ix2 ⟨(i 0).val, Nat.lt_trans (i 0).isLt (by decide)⟩ ⟨(i 1).val, (i 1).isLt⟩)

abbrev SC : Shape := ⟨2, ![20096, 1]⟩
def dinvP (ei : SE.Idx → BitVec 32) : SC.Idx → EReal :=
  fun i => if h : (i 0).val < 20000 then dinv ei ⟨(i 0).val, h⟩ else 0

def kLayer (xt : SP.Idx → EReal) (o : SO.Idx → EReal) (dc : SC.Idx → EReal) : SP.Idx → EReal :=
  fun i => max ((o (ix3 (0 : Fin 2) ⟨(i 0).val, (i 0).isLt⟩ ⟨(i 1).val, (i 1).isLt⟩)
      + o (ix3 (1 : Fin 2) ⟨(i 0).val, (i 0).isLt⟩ ⟨(i 1).val, (i 1).isLt⟩))
      * dc (ix2 ⟨(i 0).val, (i 0).isLt⟩ (0 : Fin 1))) 0 + xt i

def outOf (xt : SP.Idx → EReal) (ei : SE.Idx → BitVec 32) : SO.Idx → EReal :=
  fun i => half xt ei ⟨(i 0).val, (i 0).isLt⟩ (ix2 ⟨(i 1).val, (i 1).isLt⟩ ⟨(i 2).val, (i 2).isLt⟩)

end Cert.Pad

end
-- ==== Proof.Pad1.lean ====
import proofs.«408425_j84189948936514_2_alg».proof.Proof.Pad

noncomputable section

namespace Cert.Pad

open Idealize.ShloMosaic Idealize.ShloMosaic.ValueIdx Cert.Spec Cert.Contrib
open scoped BigOperators

abbrev SF : Shape := ⟨1, ![640000]⟩

def row (ei : SE.Idx → BitVec 32) (r : Fin 2) : SF.Idx → BitVec 32 := fun i => ei (ix2 r ⟨(i 0).val, (i 0).isLt⟩)

def blockOf1 (s : SF.Idx → BitVec 32) (c : Fin 2) (j : Fin 2500) : SL.Idx → BitVec 32 :=
  fun y => s (ix1 ⟨(c.val * 2500 + j.val) * 128 + (y 0).val, by
    have h0 : (y 0).val < 128 := (y 0).isLt
    have hc : c.val < 2 := c.isLt
    have hj : j.val < 2500 := j.isLt
    show (c.val * 2500 + j.val) * 128 + (y 0).val < 640000
    omega⟩)

def outOf1 (xt : SP.Idx → EReal) (s d : SF.Idx → BitVec 32) : SO.Idx → EReal :=
  fun i => ∑ j : Fin 2500, contrib xt (blockOf1 s ⟨(i 0).val, (i 0).isLt⟩ j) (blockOf1 d ⟨(i 0).val, (i 0).isLt⟩ j)
    (ix2 ⟨(i 1).val, (i 1).isLt⟩ ⟨(i 2).val, (i 2).isLt⟩)

end Cert.Pad

end
-- ==== Proof.KI.HostValue.lean ====
import proofs.«408425_j84189948936514_2_alg».proof.Proof.Gen.KernelIdeal.Regions
import proofs.«408425_j84189948936514_2_alg».proof.Proof.Pad
import proofs.«408425_j84189948936514_2_alg».proof.Proof.Pad1
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.IdealHost
import Idealize.ShloMosaic.Lib.KernelVsHost
import Idealize.ShloMosaic.Lib.ValueIdxRank1

set_option maxRecDepth 8192

noncomputable section

namespace Cert.KernelIdeal.HostValue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (outs : Outs (F := Ideal))

section Pure

open Cert.Contrib Cert.Pad Cert.Spec
open scoped BigOperators

theorem slab0_apply {α : Type} (o : S2x20096x128.Idx → α) (hs : S2x20096x128.Slices ![0, 0, 0] S1x20096x128)
    (hc : S1x20096x128.ShapeCasts S20096x128) (p : Fin 20096) (q : Fin 128) :
    shapeCast S20096x128 (extractStridedSlice S1x20096x128 ![0, 0, 0] o hs) hc (ix2 p q) = o (ix3 (0 : Fin 2) p q) := by
  refine (shapeCast_1ab_ab_apply _ hc p q).trans ?_
  exact extractStridedSlice_apply ![0, 0, 0] o hs (ix3 (0 : Fin 1) p q) (ix3 (0 : Fin 2) p q) (fun a => match a with
    | ⟨0, _⟩ => by show (0 : ℕ) = 0 + 0; omega
    | ⟨1, _⟩ => by show p.val = 0 + p.val; omega
    | ⟨2, _⟩ => by show q.val = 0 + q.val; omega)

theorem slab1_apply {α : Type} (o : S2x20096x128.Idx → α) (hs : S2x20096x128.Slices ![1, 0, 0] S1x20096x128)
    (hc : S1x20096x128.ShapeCasts S20096x128) (p : Fin 20096) (q : Fin 128) :
    shapeCast S20096x128 (extractStridedSlice S1x20096x128 ![1, 0, 0] o hs) hc (ix2 p q) = o (ix3 (1 : Fin 2) p q) := by
  refine (shapeCast_1ab_ab_apply _ hc p q).trans ?_
  exact extractStridedSlice_apply ![1, 0, 0] o hs (ix3 (0 : Fin 1) p q) (ix3 (1 : Fin 2) p q) (fun a => match a with
    | ⟨0, _⟩ => by show (1 : ℕ) = 1 + 0; omega
    | ⟨1, _⟩ => by show p.val = 0 + p.val; omega
    | ⟨2, _⟩ => by show q.val = 0 + q.val; omega)

theorem col_apply {α : Type} (dc : S20096x1.Idx → α) (hb : S20096x1.BroadcastsInDim S20096x128 ![0, 1]) (p : Fin 20096) (q : Fin 128) :
    broadcastInDim S20096x128 ![0, 1] hb dc (ix2 p q) = dc (ix2 p (0 : Fin 1)) :=
  broadcastInDim_apply _ hb dc (ix2 p q) (ix2 p (0 : Fin 1)) (fun a => match a with
    | ⟨0, _⟩ => by show p.val = if (20096 : ℕ) = 1 then 0 else p.val; rw [if_neg (by decide)]
    | ⟨1, _⟩ => by show (0 : ℕ) = if (1 : ℕ) = 1 then 0 else q.val; rw [if_pos rfl])

theorem bias_apply {α : Type} (b : S128.Idx → α) (hc : S128.ShapeCasts S1x128) (hb : S1x128.BroadcastsInDim S20096x128 ![0, 1])
    (p : Fin 20096) (q : Fin 128) :
    broadcastInDim S20096x128 ![0, 1] hb (shapeCast S1x128 b hc) (ix2 p q) = b (ix1 q) := by
  refine (broadcastInDim_apply _ hb _ (ix2 p q) (ix2 (0 : Fin 1) q) (fun a => match a with
    | ⟨0, _⟩ => by show (0 : ℕ) = if (1 : ℕ) = 1 then 0 else p.val; rw [if_pos rfl]
    | ⟨1, _⟩ => by show q.val = if (128 : ℕ) = 1 then 0 else q.val; rw [if_neg (by decide)])).trans ?_
  exact shapeCast_a_1a_apply b hc (0 : Fin 1) q

theorem wt_apply {α : Type} (W : S128x128.Idx → α) (ht : S128x128.Transposes [1, 0] S128x128) (k q : Fin 128) :
    transpose S128x128 [1, 0] W ht (ix2 k q) = W (ix2 q k) := transpose_ix2_apply W ht k q

theorem mask_apply (hb' : S_.BroadcastsInDim S20096x1 ![]) (hb : S20096x1.BroadcastsInDim S20096x128 ![0, 1]) (p : Fin 20096) (q : Fin 128) :
    broadcastInDim S20096x128 ![0, 1] hb
        (cmpi .slt (iotaInDim S20096x1 32 0) (broadcastInDim S20096x1 ![] hb' (constantI S_ 32 20000#32))) (ix2 p q)
      = BitVec.ofBool (decide (p.val < 20000)) := by
  rw [col_apply]
  show IntOp.cmpi .slt (BitVec.ofNat 32 p.val) (broadcastInDim S20096x1 ![] hb' (constantI S_ 32 20000#32) (ix2 p (0 : Fin 1))) = _
  rw [broadcastInDim_scalar_apply]
  show IntOp.cmpi .slt (BitVec.ofNat 32 p.val) 20000#32 = _
  have hp : p.val < 20096 := p.isLt
  have h1 : (BitVec.ofNat 32 p.val).toNat = p.val := by rw [BitVec.toNat_ofNat]; omega
  have h2 : (20000#32 : BitVec 32).toNat = 20000 := by decide
  by_cases h : p.val < 20000
  · rw [decide_eq_true h]
    exact (Predicate.slt_iff_toNat (by rw [h1]; omega) (by rw [h2]; decide)).2 (by rw [h1, h2]; exact h)
  · rw [decide_eq_false h]
    have hn : ¬ IntOp.cmpi .slt (BitVec.ofNat 32 p.val) 20000#32 = 1#1 := fun hh =>
      h (by have := (Predicate.slt_iff_toNat (by rw [h1]; omega) (by rw [h2]; decide)).1 hh; rw [h1, h2] at this; exact this)
    exact eq_zero_of_ne_one hn

end Pure

section Terms

open Cert.Contrib Cert.Pad Cert.Spec
open scoped BigOperators

theorem dot_lhs0 (i : S20096x128.Idx) (c : dot_S20096x128_S128x128_S20096x128_1_0_0_1_n_n.contr.Idx) :
    (dot_S20096x128_S128x128_S20096x128_1_0_0_1_n_n.lhsIdx i c 0).val = (i 0).val := by
  unfold DotDims.lhsIdx
  rw [dif_neg (show ¬(0 : Fin S20096x128.rank) ∈ dot_S20096x128_S128x128_S20096x128_1_0_0_1_n_n.lhsBatch by decide), dif_pos (show (0 : Fin S20096x128.rank) ∈ dot_S20096x128_S128x128_S20096x128_1_0_0_1_n_n.lhsNonContracting by decide)]
  rfl
theorem dot_lhs1 (i : S20096x128.Idx) (c : dot_S20096x128_S128x128_S20096x128_1_0_0_1_n_n.contr.Idx) :
    (dot_S20096x128_S128x128_S20096x128_1_0_0_1_n_n.lhsIdx i c 1).val = (c ⟨0, by decide⟩).val :=
  dot_S20096x128_S128x128_S20096x128_1_0_0_1_n_n.lhsIdx_val_of_single rfl i c
theorem dot_rhs0 (i : S20096x128.Idx) (c : dot_S20096x128_S128x128_S20096x128_1_0_0_1_n_n.contr.Idx) :
    (dot_S20096x128_S128x128_S20096x128_1_0_0_1_n_n.rhsIdx i c 0).val = (c ⟨0, by decide⟩).val :=
  dot_S20096x128_S128x128_S20096x128_1_0_0_1_n_n.rhsIdx_val_of_single rfl i c
theorem dot_rhs1 (i : S20096x128.Idx) (c : dot_S20096x128_S128x128_S20096x128_1_0_0_1_n_n.contr.Idx) :
    (dot_S20096x128_S128x128_S20096x128_1_0_0_1_n_n.rhsIdx i c 1).val = (i 1).val := by
  unfold DotDims.rhsIdx
  rw [dif_neg (show ¬(1 : Fin S128x128.rank) ∈ dot_S20096x128_S128x128_S20096x128_1_0_0_1_n_n.rhsBatch by decide), dif_pos (show (1 : Fin S128x128.rank) ∈ dot_S20096x128_S128x128_S20096x128_1_0_0_1_n_n.rhsNonContracting by decide)]
  rfl

theorem dot_apply (prec : Option ContractPrecision) (xp : FVec Ideal S20096x128 .f32) (y : FVec Ideal S128x128 .f32) (p : Fin 20096) (q : Fin 128) :
    Host.dotGeneral (F := Ideal) dot_S20096x128_S128x128_S20096x128_1_0_0_1_n_n prec xp y (ix2 p q)
      = ∑ k : Fin 128, xp (ix2 p k) * y (ix2 k q) := by
  simp only [Host.dotGeneral]
  rw [Ideal.dotGeneral_apply, ← Equiv.sum_comp (ValueIdx.contrEquiv1 dot_S20096x128_S128x128_S20096x128_1_0_0_1_n_n 128 rfl rfl).symm]
  refine Finset.sum_congr rfl fun k _ => ?_
  have hk := ValueIdx.contrEquiv1_symm_val dot_S20096x128_S128x128_S20096x128_1_0_0_1_n_n 128 rfl rfl k
  have el : dot_S20096x128_S128x128_S20096x128_1_0_0_1_n_n.lhsIdx (ix2 p q) ((ValueIdx.contrEquiv1 dot_S20096x128_S128x128_S20096x128_1_0_0_1_n_n 128 rfl rfl).symm k) = ix2 p k := funext fun a => Fin.ext (by
    match a with
    | ⟨0, _⟩ => exact dot_lhs0 _ _
    | ⟨1, _⟩ => exact (dot_lhs1 _ _).trans hk)
  have er : dot_S20096x128_S128x128_S20096x128_1_0_0_1_n_n.rhsIdx (ix2 p q) ((ValueIdx.contrEquiv1 dot_S20096x128_S128x128_S20096x128_1_0_0_1_n_n 128 rfl rfl).symm k) = ix2 k q := funext fun a => Fin.ext (by
    match a with
    | ⟨0, _⟩ => exact (dot_rhs0 _ _).trans hk
    | ⟨1, _⟩ => exact dot_rhs1 _ _)
  rw [el, er]

theorem layerTerm_eq (o : FVec Ideal S2x20096x128 .f32) (dc : FVec Ideal S20096x1 .f32) (xt : FVec Ideal S20096x128 .f32)
    (hs0 : S2x20096x128.Slices ![0, 0, 0] S1x20096x128) (hs1 : S2x20096x128.Slices ![1, 0, 0] S1x20096x128)
    (hc : S1x20096x128.ShapeCasts S20096x128) (hb : S20096x1.BroadcastsInDim S20096x128 ![0, 1]) (hz : S_.BroadcastsInDim S20096x128 ![]) :
    addf (F := Ideal)
        (maximumf (F := Ideal)
          (mulf (F := Ideal)
            (addf (F := Ideal) (shapeCast S20096x128 (extractStridedSlice S1x20096x128 ![0, 0, 0] o hs0) hc)
              (shapeCast S20096x128 (extractStridedSlice S1x20096x128 ![1, 0, 0] o hs1) hc))
            (broadcastInDim S20096x128 ![0, 1] hb dc))
          (broadcastInDim S20096x128 ![] hz (constant (F := Ideal) S_ .f32 0x00000000#32)))
        xt
      = kLayer xt o dc := by
  funext i
  obtain ⟨p, q, rfl⟩ : ∃ (p : Fin 20096) (q : Fin 128), i = ix2 p q := ⟨i 0, i 1, eq_ix2 i⟩
  show max ((shapeCast S20096x128 (extractStridedSlice S1x20096x128 ![0, 0, 0] o hs0) hc (ix2 p q)
      + shapeCast S20096x128 (extractStridedSlice S1x20096x128 ![1, 0, 0] o hs1) hc (ix2 p q))
      * broadcastInDim S20096x128 ![0, 1] hb dc (ix2 p q))
      (broadcastInDim S20096x128 ![] hz (constant (F := Ideal) S_ .f32 0x00000000#32) (ix2 p q)) + xt (ix2 p q) = _
  rw [slab0_apply, slab1_apply, col_apply, broadcastInDim_scalar_apply, constant_apply, Ideal.ofBits_zero_f32]
  rfl

theorem restr_pad (x : FVec Ideal S20000x128 .f32) {u : Shape} (v : FVec Ideal u .f32)
    (hp : S20000x128.Pads (![0, 0] : Fin 2 → ℕ) ![96, 0] ![0, 0] S20096x128) (hu : 0 < u.numel) :
    restr (pad S20096x128 ![0, 0] ![96, 0] ![0, 0] x v hp hu) = x := by
  funext i
  obtain ⟨p, q, rfl⟩ : ∃ (p : Fin 20000) (q : Fin 128), i = ix2 p q := ⟨i 0, i 1, eq_ix2 i⟩
  show pad S20096x128 ![0, 0] ![96, 0] ![0, 0] x v hp hu (ix2 ⟨p.val, _⟩ ⟨q.val, _⟩) = _
  exact pad_apply_of_inside ![0, 0] ![96, 0] ![0, 0] x v hp hu _ (ix2 p q) (fun a => match a with
    | ⟨0, _⟩ => by show p.val = 0 + p.val * (0 + 1); omega
    | ⟨1, _⟩ => by show q.val = 0 + q.val * (0 + 1); omega)

theorem slice_eq_restr (xp : FVec Ideal S20096x128 .f32) (hs : S20096x128.Slices ![0, 0] S20000x128) :
    extractStridedSlice S20000x128 ![0, 0] xp hs = restr xp := by
  funext i
  obtain ⟨p, q, rfl⟩ : ∃ (p : Fin 20000) (q : Fin 128), i = ix2 p q := ⟨i 0, i 1, eq_ix2 i⟩
  exact extractStridedSlice_apply ![0, 0] xp hs (ix2 p q) (ix2 ⟨p.val, Nat.lt_trans p.isLt (by decide)⟩ ⟨q.val, q.isLt⟩) (fun a => match a with
    | ⟨0, _⟩ => by show p.val = 0 + p.val; omega
    | ⟨1, _⟩ => by show q.val = 0 + q.val; omega)

theorem linTerm_eq (prec : Option ContractPrecision) (xp : FVec Ideal S20096x128 .f32) (W : FVec Ideal S128x128 .f32) (b : FVec Ideal S128 .f32)
    (z : FVec Ideal S_ .f32) (hz0 : z ix0 = 0)
    (ht : S128x128.Transposes [1, 0] S128x128) (hc : S128.ShapeCasts S1x128) (hbb : S1x128.BroadcastsInDim S20096x128 ![0, 1])
    (hb' : S_.BroadcastsInDim S20096x1 ![]) (hb : S20096x1.BroadcastsInDim S20096x128 ![0, 1]) (hz : S_.BroadcastsInDim S20096x128 ![]) :
    select
        (broadcastInDim S20096x128 ![0, 1] hb
          (cmpi .slt (iotaInDim S20096x1 32 0) (broadcastInDim S20096x1 ![] hb' (constantI S_ 32 20000#32))))
        (addf (F := Ideal)
          (Host.dotGeneral (F := Ideal) dot_S20096x128_S128x128_S20096x128_1_0_0_1_n_n prec xp (transpose S128x128 [1, 0] W ht))
          (broadcastInDim S20096x128 ![0, 1] hbb (shapeCast S1x128 b hc)))
        (broadcastInDim S20096x128 ![] hz z)
      = padLin (restr xp) W b := by
  funext i
  obtain ⟨p, q, rfl⟩ : ∃ (p : Fin 20096) (q : Fin 128), i = ix2 p q := ⟨i 0, i 1, eq_ix2 i⟩
  rw [select_apply, mask_apply, addf_apply, dot_apply, bias_apply, broadcastInDim_scalar_apply, hz0]
  unfold padLin
  by_cases h : p.val < 20000
  · have h' : ((ix2 p q : S20096x128.Idx) 0).val < 20000 := h
    rw [dif_pos h', decide_eq_true h]
    show Scalar.select 1#1 _ _ = _
    rw [select_one]
    unfold lin
    refine congrArg₂ (· + ·) (Finset.sum_congr rfl fun k _ => ?_) rfl
    rw [wt_apply]
    rfl
  · have h' : ¬ ((ix2 p q : S20096x128.Idx) 0).val < 20000 := h
    rw [dif_neg h', decide_eq_false h]
    show Scalar.select 0#1 _ _ = _
    rw [select_zero]

end Terms

section Scatter

open Cert.Contrib Cert.Pad Cert.Spec
open scoped BigOperators

theorem scat_start (idx : IVec S640000x1 32) (j : S640000.Idx) :
    scatter_S20000_S640000x1_S640000_n_0_0_1.start j idx (0 : Fin 1) = (idx (ix2 (j 0) (0 : Fin 1))).toInt := by
  unfold ScatterDims.start
  rw [dif_pos (show (0 : Fin S20000.rank) ∈ scatter_S20000_S640000x1_S640000_n_0_0_1.scatterDimsToOperandDims by decide)]
  refine congrArg (fun k => (idx k).toInt) (funext fun b => ?_)
  match b with
  | ⟨0, _⟩ => rfl
  | ⟨1, _⟩ => rfl

theorem scat_window (j : S640000.Idx) : scatter_S20000_S640000x1_S640000_n_0_0_1.window j (0 : Fin 1) = 0 := by
  unfold ScatterDims.window
  rw [dif_neg (show ¬ (0 : Fin S20000.rank) ∈ scatter_S20000_S640000x1_S640000_n_0_0_1.sKept by decide)]

theorem scat_result (idx : IVec S640000x1 32) (j : S640000.Idx) (n : Fin 20000) :
    scatter_S20000_S640000x1_S640000_n_0_0_1.resultIdx? j idx = some (ix1 n)
      ↔ (idx (ix2 (j 0) (0 : Fin 1))).toInt = (n.val : ℤ) := by
  have hsw : ∀ a : Fin S20000.rank, scatter_S20000_S640000x1_S640000_n_0_0_1.start j idx a
      + scatter_S20000_S640000x1_S640000_n_0_0_1.window j a = (idx (ix2 (j 0) (0 : Fin 1))).toInt := fun a => by
    have ha : a = (0 : Fin 1) := Subsingleton.elim _ _
    subst ha
    rw [scat_start, scat_window]; simp
  have hn : n.val < 20000 := n.isLt
  unfold ScatterDims.resultIdx?
  by_cases h : ∀ a, 0 ≤ scatter_S20000_S640000x1_S640000_n_0_0_1.start j idx a + scatter_S20000_S640000x1_S640000_n_0_0_1.window j a
      ∧ scatter_S20000_S640000x1_S640000_n_0_0_1.start j idx a + scatter_S20000_S640000x1_S640000_n_0_0_1.window j a < S20000.size a
  · rw [dif_pos h]
    have h0 := h (0 : Fin 1)
    rw [hsw] at h0
    constructor
    · intro e
      have e' := congrFun (Option.some.inj e) (0 : Fin 1)
      have e'' : ((scatter_S20000_S640000x1_S640000_n_0_0_1.start j idx (0 : Fin 1) + scatter_S20000_S640000x1_S640000_n_0_0_1.window j (0 : Fin 1)).toNat : ℕ) = n.val :=
        congrArg Fin.val e'
      rw [hsw] at e''
      omega
    · intro e
      refine congrArg some (funext fun a => ?_)
      have ha : a = (0 : Fin 1) := Subsingleton.elim _ _
      subst ha
      apply Fin.ext
      show (scatter_S20000_S640000x1_S640000_n_0_0_1.start j idx (0 : Fin 1) + scatter_S20000_S640000x1_S640000_n_0_0_1.window j (0 : Fin 1)).toNat = n.val
      rw [hsw]; omega
  · rw [dif_neg h]
    constructor
    · intro e; exact absurd e (by simp)
    · intro e
      exfalso
      apply h
      intro a
      rw [hsw, e]
      have ha : a = (0 : Fin 1) := Subsingleton.elim _ _
      subst ha
      constructor
      · omega
      · show (n.val : ℤ) < ((20000 : ℕ) : ℤ); omega

end Scatter

section Degree

open Cert.Contrib Cert.Pad Cert.Spec
open scoped BigOperators

theorem row0_eq (x1 : IVec S2x640000 32) (hs : S2x640000.Slices ![0, 0] S1x640000) (hc : S1x640000.ShapeCasts S640000) :
    shapeCast S640000 (extractStridedSlice S1x640000 ![0, 0] x1 hs) hc = Cert.Pad.row x1 0 := by
  funext i
  obtain ⟨k, rfl⟩ : ∃ k : Fin 640000, i = ix1 k := ⟨i 0, eq_ix1 i⟩
  refine (shapeCast_apply _ hc (ix1 k) (ix2 (0 : Fin 1) k) ?_).trans ?_
  · rw [Shape.rowMajor_val_two, Shape.rowMajor_val_one]
    show (0 : ℕ) * 640000 + k.val = k.val
    omega
  · exact extractStridedSlice_apply ![0, 0] x1 hs (ix2 (0 : Fin 1) k) (ix2 (0 : Fin 2) k) (fun a => match a with
      | ⟨0, _⟩ => by show (0 : ℕ) = 0 + 0; omega
      | ⟨1, _⟩ => by show k.val = 0 + k.val; omega)

theorem row1_eq (x1 : IVec S2x640000 32) (hs : S2x640000.Slices ![1, 0] S1x640000) (hc : S1x640000.ShapeCasts S640000) :
    shapeCast S640000 (extractStridedSlice S1x640000 ![1, 0] x1 hs) hc = Cert.Pad.row x1 1 := by
  funext i
  obtain ⟨k, rfl⟩ : ∃ k : Fin 640000, i = ix1 k := ⟨i 0, eq_ix1 i⟩
  refine (shapeCast_apply _ hc (ix1 k) (ix2 (0 : Fin 1) k) ?_).trans ?_
  · rw [Shape.rowMajor_val_two, Shape.rowMajor_val_one]
    show (0 : ℕ) * 640000 + k.val = k.val
    omega
  · exact extractStridedSlice_apply ![1, 0] x1 hs (ix2 (0 : Fin 1) k) (ix2 (1 : Fin 2) k) (fun a => match a with
      | ⟨0, _⟩ => by show (1 : ℕ) = 1 + 0; omega
      | ⟨1, _⟩ => by show k.val = 0 + k.val; omega)

theorem idxcol_apply {α : Type} (v : S640000.Idx → α) (hb : S640000.BroadcastsInDim S640000x1 ![0]) (k : Fin 640000) (u : Fin 1) :
    broadcastInDim S640000x1 ![0] hb v (ix2 k u) = v (ix1 k) :=
  broadcastInDim_apply _ hb v (ix2 k u) (ix1 k) (fun a => match a with
    | ⟨0, _⟩ => by show k.val = if (640000 : ℕ) = 1 then 0 else k.val; rw [if_neg (by decide)])

theorem sum_filter_ix1 {n : ℕ} (P : (⟨1, ![n]⟩ : Shape).Idx → Prop) [DecidablePred P] (Q : Fin n → Prop) [DecidablePred Q]
    (h : ∀ e : Fin n, P (ix1 e) ↔ Q e) (f : (⟨1, ![n]⟩ : Shape).Idx → EReal) :
    ∑ j ∈ Finset.univ.filter P, f j = ∑ e ∈ Finset.univ.filter Q, f (ix1 e) := by
  refine Finset.sum_equiv idxEquiv1 (fun j => ?_) (fun j _ => ?_)
  · obtain ⟨k, rfl⟩ : ∃ k : Fin n, j = ix1 k := ⟨j 0, eq_ix1 j⟩
    rw [Finset.mem_filter, Finset.mem_filter]
    exact and_congr (by simp) (h k)
  · obtain ⟨k, rfl⟩ : ∃ k : Fin n, j = ix1 k := ⟨j 0, eq_ix1 j⟩
    rfl

theorem scatter_count (x : FVec Ideal S20000 .f32) (idx : IVec S640000x1 32) (upd : FVec Ideal S640000 .f32) (n : Fin 20000)
    (hx : x (ix1 n) = 0) (hu : ∀ e : Fin 640000, upd (ix1 e) = 1) (tgt : Fin 640000 → BitVec 32)
    (hidx : ∀ e : Fin 640000, idx (ix2 e (0 : Fin 1)) = tgt e) :
    Host.scatterAdd (F := Ideal) scatter_S20000_S640000x1_S640000_n_0_0_1 x idx upd (ix1 n)
      = ∑ _e ∈ Finset.univ.filter (fun e : Fin 640000 => (tgt e).toInt = (n.val : ℤ)), (1 : EReal) := by
  simp only [Host.scatterAdd]
  show Ideal.hostScatterAdd scatter_S20000_S640000x1_S640000_n_0_0_1 x idx upd (ix1 n) = _
  unfold Ideal.hostScatterAdd
  rw [hx, zero_add]
  refine (sum_filter_ix1 _ (fun e : Fin 640000 => (tgt e).toInt = (n.val : ℤ)) (fun e => ?_) upd).trans ?_
  · refine (scat_result idx (ix1 e) n).trans ?_
    show (idx (ix2 e (0 : Fin 1))).toInt = (n.val : ℤ) ↔ _
    rw [hidx]
  · exact Finset.sum_congr rfl fun e _ => hu e

theorem bzero {s : Shape} (hb : S_.BroadcastsInDim s ![]) (i : s.Idx) :
    broadcastInDim s ![] hb (constant (F := Ideal) S_ .f32 0x00000000#32) i = 0 := by
  rw [broadcastInDim_scalar_apply, constant_apply, Ideal.ofBits_zero_f32]
theorem bone {s : Shape} (hb : S_.BroadcastsInDim s ![]) (i : s.Idx) :
    broadcastInDim s ![] hb (constant (F := Ideal) S_ .f32 0x3F800000#32) i = 1 := by
  rw [broadcastInDim_scalar_apply, constant_apply, Ideal.ofBits_one_f32]
theorem bzero_id {s : Shape} (hb : S_.BroadcastsInDim s ![]) (i : s.Idx) :
    broadcastInDim s ![] hb (id (constant (F := Ideal) S_ .f32 0x00000000#32)) i = 0 := bzero hb i

def degTerm (x1 : IVec S2x640000 32) : FVec Ideal S20000 .f32 :=
  Host.scatterAdd (F := Ideal) scatter_S20000_S640000x1_S640000_n_0_0_1
    (broadcastInDim S20000 ![] bcast_S_S20000 (constant (F := Ideal) S_ .f32 0x00000000#32))
    (broadcastInDim S640000x1 ![0] bcast_S640000_S640000x1_0
      (shapeCast S640000 (extractStridedSlice S1x640000 ![1, 0] x1 slices_S2x640000_S1x640000_1_0) shapeCasts_S1x640000_S640000))
    (broadcastInDim S640000 ![] bcast_S_S640000 (constant (F := Ideal) S_ .f32 0x3F800000#32))

theorem degTerm_apply (x1 : IVec S2x640000 32) (n : Fin 20000) : degTerm x1 (ix1 n) = deg x1 n := by
  unfold degTerm
  rw [scatter_count _ _ _ n (bzero _ _) (fun e => bone _ _) (fun e => x1 (ix2 (1 : Fin 2) e))
    (fun e => by rw [idxcol_apply, row1_eq]; rfl)]
  rfl

theorem dinv_scalar (d : EReal) :
    Scalar.select (Ideal.cmp .ogt d 0) (Ideal.div 1 (max d 1)) (0 : EReal) = if 0 < d then Ideal.div 1 (max d 1) else 0 := by
  unfold Ideal.cmp
  by_cases h : 0 < d
  · rw [if_pos h]
    show Scalar.select (BitVec.ofBool (decide (0 < d))) _ _ = _
    rw [decide_eq_true h]
    exact select_one _ _
  · rw [if_neg h]
    show Scalar.select (BitVec.ofBool (decide (0 < d))) _ _ = _
    rw [decide_eq_false h]
    exact select_zero _ _

theorem dinv_elem (d z o z' : FVec Ideal S20000 .f32) (n : Fin 20000) (hz : z (ix1 n) = 0) (ho : o (ix1 n) = 1) (hz' : z' (ix1 n) = 0) :
    select (cmpf (F := Ideal) .ogt d z) (Host.divf (F := Ideal) o (maximumf (F := Ideal) d o)) z' (ix1 n)
      = if 0 < d (ix1 n) then Ideal.div 1 (max (d (ix1 n)) 1) else 0 := by
  show Scalar.select (Ideal.cmp .ogt (d (ix1 n)) (z (ix1 n))) (Ideal.div (o (ix1 n)) (max (d (ix1 n)) (o (ix1 n)))) (z' (ix1 n)) = _
  rw [hz, ho, hz']
  exact dinv_scalar _

def dinvTerm (x1 : IVec S2x640000 32) : FVec Ideal S20000 .f32 :=
  select
    (cmpf (F := Ideal) .ogt (degTerm x1) (broadcastInDim S20000 ![] bcast_S_S20000 (constant (F := Ideal) S_ .f32 0x00000000#32)))
    (Host.divf (F := Ideal) (broadcastInDim S20000 ![] bcast_S_S20000 (constant (F := Ideal) S_ .f32 0x3F800000#32))
      (maximumf (F := Ideal) (degTerm x1) (broadcastInDim S20000 ![] bcast_S_S20000 (constant (F := Ideal) S_ .f32 0x3F800000#32))))
    (broadcastInDim S20000 ![] bcast_S_S20000 (id (constant (F := Ideal) S_ .f32 0x00000000#32)))

theorem dinvTerm_apply (x1 : IVec S2x640000 32) (n : Fin 20000) : dinvTerm x1 (ix1 n) = dinv x1 n := by
  unfold dinvTerm
  rw [dinv_elem _ _ _ _ n (bzero _ _) (bone _ _) (bzero_id _ _), degTerm_apply]
  rfl

def colTerm (d : FVec Ideal S20000 .f32) (z : IVec S_ 32) : FVec Ideal S20096x1 .f32 :=
  shapeCast S20096x1 (pad S20096 ![0] ![96] ![0] d (sitofp (F := Ideal) .f32 z) pads_S20000_S20096_0960 h_S_) shapeCasts_S20096_S20096x1

theorem colTerm_eq (x1 : IVec S2x640000 32) : colTerm (dinvTerm x1) (constantI S_ 32 0#32) = dinvP x1 := by
  funext i
  obtain ⟨p, u, rfl⟩ : ∃ (p : Fin 20096) (u : Fin 1), i = ix2 p u := ⟨i 0, i 1, eq_ix2 i⟩
  unfold colTerm
  have hu : u.val = 0 := by omega
  refine (shapeCast_apply _ shapeCasts_S20096_S20096x1 (ix2 p u) (ix1 p) ?_).trans ?_
  · rw [Shape.rowMajor_val_two, Shape.rowMajor_val_one]
    show p.val = p.val * 1 + u.val
    omega
  · unfold dinvP
    by_cases h : p.val < 20000
    · have h' : ((ix2 p u : S20096x1.Idx) 0).val < 20000 := h
      rw [dif_pos h']
      refine (pad_apply_of_inside ![0] ![96] ![0] (dinvTerm x1) _ pads_S20000_S20096_0960 h_S_ (ix1 p) (ix1 ⟨p.val, h⟩) (fun a => match a with
        | ⟨0, _⟩ => by show p.val = 0 + p.val * (0 + 1); omega)).trans ?_
      exact dinvTerm_apply x1 ⟨p.val, h⟩
    · have h' : ¬ ((ix2 p u : S20096x1.Idx) 0).val < 20000 := h
      rw [dif_neg h']
      refine (pad_apply_of_not_inside ![0] ![96] ![0] (dinvTerm x1) _ pads_S20000_S20096_0960 h_S_ (ix1 p) (0 : Fin 1) ?_).trans ?_
      · intro hh
        have h3 : (p.val - 0) / (0 + 1) < 20000 := hh.2.2
        omega
      · exact sitofp_zero

end Degree

section AfterLast

open Cert.Contrib Cert.Pad Cert.Spec

def layerTerm (o : FVec Ideal S2x20096x128 .f32) (dc : FVec Ideal S20096x1 .f32) (xt : FVec Ideal S20096x128 .f32) :
    FVec Ideal S20096x128 .f32 :=
  addf (F := Ideal)
    (maximumf (F := Ideal)
      (mulf (F := Ideal)
        (addf (F := Ideal)
          (shapeCast S20096x128 (extractStridedSlice S1x20096x128 ![0, 0, 0] o slices_S2x20096x128_S1x20096x128_0_0_0) shapeCasts_S1x20096x128_S20096x128)
          (shapeCast S20096x128 (extractStridedSlice S1x20096x128 ![1, 0, 0] o slices_S2x20096x128_S1x20096x128_1_0_0) shapeCasts_S1x20096x128_S20096x128))
        (broadcastInDim S20096x128 ![0, 1] bcast_S20096x1_S20096x128_0_1 dc))
      (broadcastInDim S20096x128 ![] bcast_S_S20096x128 (constant (F := Ideal) S_ .f32 0x00000000#32)))
    xt

def rowMask : IVec S20096x1 1 :=
  cmpi .slt (iotaInDim S20096x1 32 0) (broadcastInDim S20096x1 ![] bcast_S_S20096x1 (constantI S_ 32 20000#32))

def preLin (xp : FVec Ideal S20096x128 .f32) (W : FVec Ideal S128x128 .f32) (b : FVec Ideal S128 .f32) : FVec Ideal S20096x128 .f32 :=
  addf (F := Ideal)
    (Host.dotGeneral (F := Ideal) dot_S20096x128_S128x128_S20096x128_1_0_0_1_n_n (some .fp32) xp
      (transpose S128x128 [1, 0] W transposes_S128x128_S128x128_1_0))
    (broadcastInDim S20096x128 ![0, 1] bcast_S1x128_S20096x128_0_1 (shapeCast S1x128 b shapeCasts_S128_S1x128))

def whereTerm (msk : IVec S20096x1 1) (y : FVec Ideal S20096x128 .f32) (z : FVec Ideal S_ .f32) : FVec Ideal S20096x128 .f32 :=
  select (broadcastInDim S20096x128 ![0, 1] bcast_S20096x1_S20096x128_0_1 msk) y (broadcastInDim S20096x128 ![] bcast_S_S20096x128 z)

theorem layerTerm_eq' (o : FVec Ideal S2x20096x128 .f32) (dc : FVec Ideal S20096x1 .f32) (xt : FVec Ideal S20096x128 .f32) :
    layerTerm o dc xt = kLayer xt o dc := layerTerm_eq o dc xt _ _ _ _ _

theorem whereTerm_eq (xp : FVec Ideal S20096x128 .f32) (W : FVec Ideal S128x128 .f32) (b : FVec Ideal S128 .f32)
    (z : FVec Ideal S_ .f32) (hz0 : z ix0 = 0) : whereTerm rowMask (preLin xp W b) z = padLin (restr xp) W b :=
  linTerm_eq (some .fp32) xp W b z hz0 _ _ _ _ _ _

theorem zero_ix0 : constant (F := Ideal) S_ .f32 0x00000000#32 ix0 = 0 := Ideal.ofBits_zero_f32

theorem col_V15 (c : Dev nD) : V15 m outs c main_v16 = V8 m c main_v16 :=
  (V15_of m outs c main_v16 (by decide)).trans <| (V14_of m outs c main_v16 (by decide)).trans <|
    (V13_of m outs c main_v16 (by decide)).trans <| (V12_of m outs c main_v16 (by decide)).trans <|
    (V11_of m outs c main_v16 (by decide)).trans <| (V10_of m outs c main_v16 (by decide)).trans <|
    (V9_of m outs c main_v16 (by decide))

theorem V15_v67 (c : Dev nD) : V15 m outs c main_v67 = outs 15 main_v67 c := Function.update_self _ _ _

theorem V16_v77_term (c : Dev nD) :
    (V16 m outs c main_v77 : FVec Ideal S20096x128 .f32)
      = layerTerm (V15 m outs c main_v67) (V15 m outs c main_v16) (V15 m outs c main_v66) := by
  show StableHlo.after hostOps3 (V15 m outs c) (Proc.devRef .tc main_v77) = _
  generalize V15 m outs c = W
  after_results
  rfl

theorem V16_v77 (c : Dev nD) :
    (V16 m outs c main_v77 : FVec Ideal S20096x128 .f32)
      = kLayer (V14 m outs c main_v66) (outs 15 main_v67 c) (V8 m c main_v16) := by
  rw [V16_v77_term, layerTerm_eq', col_V15, V15_of m outs c main_v66 (by decide), V15_v67]

theorem V16_v78 (c : Dev nD) :
    (V16 m outs c main_v78 : FVec Ideal S20000x128 .f32) = restr (V16 m outs c main_v77) := by
  have e : (V16 m outs c main_v78 : FVec Ideal S20000x128 .f32)
      = extractStridedSlice S20000x128 ![0, 0] (layerTerm (V15 m outs c main_v67) (V15 m outs c main_v16) (V15 m outs c main_v66)) slices_S20096x128_S20000x128_0_0 := by
    show StableHlo.after hostOps3 (V15 m outs c) (Proc.devRef .tc main_v78) = _
    generalize V15 m outs c = W
    after_results
    rfl
  rw [e, ← V16_v77_term, slice_eq_restr]

end AfterLast

section AfterFirst

open Cert.Contrib Cert.Pad Cert.Spec

theorem V9_v27 (c : Dev nD) : V9 m outs c main_v27 = outs 9 main_v27 c := Function.update_self _ _ _
theorem V12_v47 (c : Dev nD) : V12 m outs c main_v47 = outs 12 main_v47 c := Function.update_self _ _ _

theorem V5_arg0 (c : Dev nD) : V5 m c main_arg0 = V0 m c main_arg0 := (V5_of m c main_arg0 (by decide)).trans <| (V4_of m c main_arg0 (by decide)).trans <| (V3_of m c main_arg0 (by decide)).trans <| (V2_of m c main_arg0 (by decide)).trans <| (V1_of m c main_arg0 (by decide))
theorem V6_arg2 (c : Dev nD) : V6 m c main_arg2 = V0 m c main_arg2 := (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))
theorem V6_arg3 (c : Dev nD) : V6 m c main_arg3 = V0 m c main_arg3 := (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))
theorem V9_arg4 (c : Dev nD) : V9 m outs c main_arg4 = V0 m c main_arg4 := (V9_of m outs c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide))
theorem V9_arg5 (c : Dev nD) : V9 m outs c main_arg5 = V0 m c main_arg5 := (V9_of m outs c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))
theorem V12_arg6 (c : Dev nD) : V12 m outs c main_arg6 = V0 m c main_arg6 := (V12_of m outs c main_arg6 (by decide)).trans <| (V11_of m outs c main_arg6 (by decide)).trans <| (V10_of m outs c main_arg6 (by decide)).trans <| (V9_of m outs c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))
theorem V12_arg7 (c : Dev nD) : V12 m outs c main_arg7 = V0 m c main_arg7 := (V12_of m outs c main_arg7 (by decide)).trans <| (V11_of m outs c main_arg7 (by decide)).trans <| (V10_of m outs c main_arg7 (by decide)).trans <| (V9_of m outs c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide))

theorem col_V9 (c : Dev nD) : V9 m outs c main_v16 = V8 m c main_v16 := V9_of m outs c main_v16 (by decide)
theorem col_V12 (c : Dev nD) : V12 m outs c main_v16 = V8 m c main_v16 :=
  (V12_of m outs c main_v16 (by decide)).trans <| (V11_of m outs c main_v16 (by decide)).trans <|
    (V10_of m outs c main_v16 (by decide)).trans <| (V9_of m outs c main_v16 (by decide))

theorem V10_v37_term (c : Dev nD) :
    (V10 m outs c main_v37 : FVec Ideal S20096x128 .f32)
      = layerTerm (V9 m outs c main_v27) (V9 m outs c main_v16) (V9 m outs c main_v26) := by
  show StableHlo.after hostOps1 (V9 m outs c) (Proc.devRef .tc main_v37) = _
  generalize V9 m outs c = W
  after_results
  rfl

theorem V10_v42_term (c : Dev nD) :
    (V10 m outs c main_v42 : FVec Ideal S20096x128 .f32)
      = preLin (layerTerm (V9 m outs c main_v27) (V9 m outs c main_v16) (V9 m outs c main_v26)) (V9 m outs c main_arg4) (V9 m outs c main_arg5) := by
  show StableHlo.after hostOps1 (V9 m outs c) (Proc.devRef .tc main_v42) = _
  generalize V9 m outs c = W
  after_results_simp
  rfl

theorem V10_v45_term (c : Dev nD) : (V10 m outs c main_v45 : IVec S20096x1 1) = rowMask := by
  show StableHlo.after hostOps1 (V9 m outs c) (Proc.devRef .tc main_v45) = _
  generalize V9 m outs c = W
  after_results_simp
  rfl

theorem V10_cst_10_term (c : Dev nD) :
    (V10 m outs c main_cst_10 : FVec Ideal S_ .f32) = constant (F := Ideal) S_ .f32 0x00000000#32 := by
  show StableHlo.after hostOps1 (V9 m outs c) (Proc.devRef .tc main_cst_10) = _
  generalize V9 m outs c = W
  after_results_simp

theorem V11_v46_term (c : Dev nD) :
    (V11 m outs c main_v46 : FVec Ideal S20096x128 .f32)
      = whereTerm (V10 m outs c main_v45) (V10 m outs c main_v42) (id (V10 m outs c main_cst_10)) := by
  show StableHlo.after hostOps1_1 (V10 m outs c) (Proc.devRef .tc main_v46) = _
  generalize V10 m outs c = W
  after_results_simp <;> (try simp only [TRef.ofBuf, TRef.toBuf, cast_eq]) <;> rfl

theorem V11_v37 (c : Dev nD) :
    (V11 m outs c main_v37 : FVec Ideal S20096x128 .f32)
      = kLayer (V8 m c main_v26) (outs 9 main_v27 c) (V8 m c main_v16) := by
  rw [V11_of m outs c main_v37 (by decide), V10_v37_term, layerTerm_eq', col_V9, V9_v27, V9_of m outs c main_v26 (by decide)]

theorem V11_v46 (c : Dev nD) :
    (V11 m outs c main_v46 : FVec Ideal S20096x128 .f32)
      = padLin (restr (V11 m outs c main_v37)) (V0 m c main_arg4) (V0 m c main_arg5) := by
  rw [V11_v46_term, V10_v45_term, V10_v42_term, V10_cst_10_term, ← V10_v37_term,
    whereTerm_eq _ _ _ (id (constant (F := Ideal) S_ .f32 0x00000000#32)) zero_ix0, V9_arg4, V9_arg5, ← V11_of m outs c main_v37 (by decide)]

end AfterFirst

section Rest

open Cert.Contrib Cert.Pad Cert.Spec

theorem V13_v57_term (c : Dev nD) :
    (V13 m outs c main_v57 : FVec Ideal S20096x128 .f32)
      = layerTerm (V12 m outs c main_v47) (V12 m outs c main_v16) (V12 m outs c main_v46) := by
  show StableHlo.after hostOps2 (V12 m outs c) (Proc.devRef .tc main_v57) = _
  generalize V12 m outs c = W
  after_results
  rfl

theorem V13_v62_term (c : Dev nD) :
    (V13 m outs c main_v62 : FVec Ideal S20096x128 .f32)
      = preLin (layerTerm (V12 m outs c main_v47) (V12 m outs c main_v16) (V12 m outs c main_v46)) (V12 m outs c main_arg6) (V12 m outs c main_arg7) := by
  show StableHlo.after hostOps2 (V12 m outs c) (Proc.devRef .tc main_v62) = _
  generalize V12 m outs c = W
  after_results_simp
  rfl

theorem V13_v65_term (c : Dev nD) : (V13 m outs c main_v65 : IVec S20096x1 1) = rowMask := by
  show StableHlo.after hostOps2 (V12 m outs c) (Proc.devRef .tc main_v65) = _
  generalize V12 m outs c = W
  after_results_simp
  rfl

theorem V13_cst_13_term (c : Dev nD) :
    (V13 m outs c main_cst_13 : FVec Ideal S_ .f32) = constant (F := Ideal) S_ .f32 0x00000000#32 := by
  show StableHlo.after hostOps2 (V12 m outs c) (Proc.devRef .tc main_cst_13) = _
  generalize V12 m outs c = W
  after_results_simp

theorem V14_v66_term (c : Dev nD) :
    (V14 m outs c main_v66 : FVec Ideal S20096x128 .f32)
      = whereTerm (V13 m outs c main_v65) (V13 m outs c main_v62) (id (V13 m outs c main_cst_13)) := by
  show StableHlo.after hostOps2_1 (V13 m outs c) (Proc.devRef .tc main_v66) = _
  generalize V13 m outs c = W
  after_results_simp <;> (try simp only [TRef.ofBuf, TRef.toBuf, cast_eq]) <;> rfl

theorem V14_v57 (c : Dev nD) :
    (V14 m outs c main_v57 : FVec Ideal S20096x128 .f32)
      = kLayer (V11 m outs c main_v46) (outs 12 main_v47 c) (V8 m c main_v16) := by
  rw [V14_of m outs c main_v57 (by decide), V13_v57_term, layerTerm_eq', col_V12, V12_v47, V12_of m outs c main_v46 (by decide)]

theorem V14_v66 (c : Dev nD) :
    (V14 m outs c main_v66 : FVec Ideal S20096x128 .f32)
      = padLin (restr (V14 m outs c main_v57)) (V0 m c main_arg6) (V0 m c main_arg7) := by
  rw [V14_v66_term, V13_v65_term, V13_v62_term, V13_cst_13_term, ← V13_v57_term,
    whereTerm_eq _ _ _ (id (constant (F := Ideal) S_ .f32 0x00000000#32)) zero_ix0, V12_arg6, V12_arg7, ← V14_of m outs c main_v57 (by decide)]

theorem V5_c_5_term (c : Dev nD) : (V5 m c main_c_5 : IVec S_ 32) = constantI S_ 32 0#32 := by
  show StableHlo.after hostOps0_4 (V4 m c) (Proc.devRef .tc main_c_5) = _
  generalize V4 m c = W
  after_results

theorem V6_v17_term (c : Dev nD) :
    (V6 m c main_v17 : FVec Ideal S20096x128 .f32)
      = pad S20096x128 ![0, 0] ![96, 0] ![0, 0] (V5 m c main_arg0 : FVec Ideal S20000x128 .f32)
          (sitofp (F := Ideal) .f32 (V5 m c main_c_5 : IVec S_ 32)) pads_S20000x128_S20096x128_0960_000 h_S_ := by
  show StableHlo.after hostOps0_5 (V5 m c) (Proc.devRef .tc main_v17) = _
  generalize V5 m c = W
  after_results_simp <;> (try simp only [TRef.ofBuf, TRef.toBuf, cast_eq]) <;> rfl

theorem V7_v22_term (c : Dev nD) :
    (V7 m c main_v22 : FVec Ideal S20096x128 .f32) = preLin (V6 m c main_v17) (V6 m c main_arg2) (V6 m c main_arg3) := by
  show StableHlo.after hostOps0_6 (V6 m c) (Proc.devRef .tc main_v22) = _
  generalize V6 m c = W
  after_results_simp
  rfl

theorem V7_v25_term (c : Dev nD) : (V7 m c main_v25 : IVec S20096x1 1) = rowMask := by
  show StableHlo.after hostOps0_6 (V6 m c) (Proc.devRef .tc main_v25) = _
  generalize V6 m c = W
  after_results_simp
  rfl

theorem V7_cst_7_term (c : Dev nD) :
    (V7 m c main_cst_7 : FVec Ideal S_ .f32) = constant (F := Ideal) S_ .f32 0x00000000#32 := by
  show StableHlo.after hostOps0_6 (V6 m c) (Proc.devRef .tc main_cst_7) = _
  generalize V6 m c = W
  after_results_simp

theorem V8_v26_term (c : Dev nD) :
    (V8 m c main_v26 : FVec Ideal S20096x128 .f32)
      = whereTerm (V7 m c main_v25) (V7 m c main_v22) (id (V7 m c main_cst_7)) := by
  show StableHlo.after hostOps0_7 (V7 m c) (Proc.devRef .tc main_v26) = _
  generalize V7 m c = W
  after_results_simp <;> (try simp only [TRef.ofBuf, TRef.toBuf, cast_eq]) <;> rfl

theorem V8_v26 (c : Dev nD) :
    (V8 m c main_v26 : FVec Ideal S20096x128 .f32) = padLin (V0 m c main_arg0) (V0 m c main_arg2) (V0 m c main_arg3) := by
  rw [V8_v26_term, V7_v25_term, V7_v22_term, V7_cst_7_term,
    whereTerm_eq _ _ _ (id (constant (F := Ideal) S_ .f32 0x00000000#32)) zero_ix0, V6_v17_term, restr_pad, V5_arg0, V6_arg2, V6_arg3]

theorem V1_v1_term (c : Dev nD) :
    (V1 m c main_v1 : IVec S640000 32)
      = shapeCast S640000 (extractStridedSlice S1x640000 ![0, 0] (V0 m c main_arg1 : IVec S2x640000 32) slices_S2x640000_S1x640000_0_0) shapeCasts_S1x640000_S640000 := by
  show StableHlo.after hostOps0 (V0 m c) (Proc.devRef .tc main_v1) = _
  generalize V0 m c = W
  after_results_simp
  rfl

theorem V1_v3_term (c : Dev nD) :
    (V1 m c main_v3 : IVec S640000 32)
      = shapeCast S640000 (extractStridedSlice S1x640000 ![1, 0] (V0 m c main_arg1 : IVec S2x640000 32) slices_S2x640000_S1x640000_1_0) shapeCasts_S1x640000_S640000 := by
  show StableHlo.after hostOps0 (V0 m c) (Proc.devRef .tc main_v3) = _
  generalize V0 m c = W
  after_results_simp
  rfl

theorem V8_v1 (c : Dev nD) : (V8 m c main_v1 : IVec S640000 32) = Cert.Pad.row (V0 m c main_arg1) 0 := by
  rw [V8_of m c main_v1 (by decide), V7_of m c main_v1 (by decide), V6_of m c main_v1 (by decide), V5_of m c main_v1 (by decide), V4_of m c main_v1 (by decide), V3_of m c main_v1 (by decide), V2_of m c main_v1 (by decide), V1_v1_term, row0_eq]

theorem V8_v3 (c : Dev nD) : (V8 m c main_v3 : IVec S640000 32) = Cert.Pad.row (V0 m c main_arg1) 1 := by
  rw [V8_of m c main_v3 (by decide), V7_of m c main_v3 (by decide), V6_of m c main_v3 (by decide), V5_of m c main_v3 (by decide), V4_of m c main_v3 (by decide), V3_of m c main_v3 (by decide), V2_of m c main_v3 (by decide), V1_v3_term, row1_eq]

theorem V1_v9_term (c : Dev nD) :
    (V1 m c main_v9 : IVec S20000 1)
      = cmpf (F := Ideal) .ogt (degTerm (V0 m c main_arg1)) (broadcastInDim S20000 ![] bcast_S_S20000 (constant (F := Ideal) S_ .f32 0x00000000#32)) := by
  show StableHlo.after hostOps0 (V0 m c) (Proc.devRef .tc main_v9) = _
  generalize V0 m c = W
  after_results_simp
  rfl

theorem V1_v13_term (c : Dev nD) :
    (V1 m c main_v13 : FVec Ideal S20000 .f32)
      = Host.divf (F := Ideal) (broadcastInDim S20000 ![] bcast_S_S20000 (constant (F := Ideal) S_ .f32 0x3F800000#32))
          (maximumf (F := Ideal) (degTerm (V0 m c main_arg1)) (broadcastInDim S20000 ![] bcast_S_S20000 (constant (F := Ideal) S_ .f32 0x3F800000#32))) := by
  show StableHlo.after hostOps0 (V0 m c) (Proc.devRef .tc main_v13) = _
  generalize V0 m c = W
  after_results_simp
  rfl

theorem V1_cst_4_term (c : Dev nD) :
    (V1 m c main_cst_4 : FVec Ideal S_ .f32) = constant (F := Ideal) S_ .f32 0x00000000#32 := by
  show StableHlo.after hostOps0 (V0 m c) (Proc.devRef .tc main_cst_4) = _
  generalize V0 m c = W
  after_results_simp

theorem V2_v14_term (c : Dev nD) :
    (V2 m c main_v14 : FVec Ideal S20000 .f32)
      = select (V1 m c main_v9 : IVec S20000 1) (V1 m c main_v13 : FVec Ideal S20000 .f32)
          (broadcastInDim S20000 ![] bcast_S_S20000 (id (V1 m c main_cst_4 : FVec Ideal S_ .f32))) := by
  show StableHlo.after hostOps0_1 (V1 m c) (Proc.devRef .tc main_v14) = _
  generalize V1 m c = W
  after_results_simp <;> (try simp only [TRef.ofBuf, TRef.toBuf, cast_eq]) <;> rfl

theorem V2_v14 (c : Dev nD) : (V2 m c main_v14 : FVec Ideal S20000 .f32) = dinvTerm (V0 m c main_arg1) := by
  rw [V2_v14_term, V1_v9_term, V1_v13_term, V1_cst_4_term]
  rfl

theorem V3_c_term (c : Dev nD) : (V3 m c main_c : IVec S_ 32) = constantI S_ 32 0#32 := by
  show StableHlo.after hostOps0_2 (V2 m c) (Proc.devRef .tc main_c) = _
  generalize V2 m c = W
  after_results

theorem V4_v15_term (c : Dev nD) :
    (V4 m c main_v15 : FVec Ideal S20096 .f32)
      = pad S20096 ![0] ![96] ![0] (V3 m c main_v14 : FVec Ideal S20000 .f32) (sitofp (F := Ideal) .f32 (V3 m c main_c : IVec S_ 32))
          pads_S20000_S20096_0960 h_S_ := by
  show StableHlo.after hostOps0_3 (V3 m c) (Proc.devRef .tc main_v15) = _
  generalize V3 m c = W
  after_results_simp <;> (try simp only [TRef.ofBuf, TRef.toBuf, cast_eq]) <;> rfl

theorem V5_v16_term (c : Dev nD) :
    (V5 m c main_v16 : FVec Ideal S20096x1 .f32) = colTerm (V3 m c main_v14) (V3 m c main_c) := by
  have e : (V5 m c main_v16 : FVec Ideal S20096x1 .f32)
      = shapeCast S20096x1 (V4 m c main_v15 : FVec Ideal S20096 .f32) shapeCasts_S20096_S20096x1 := by
    show StableHlo.after hostOps0_4 (V4 m c) (Proc.devRef .tc main_v16) = _
    generalize V4 m c = W
    after_results
    rfl
  rw [e, V4_v15_term]
  rfl

theorem V8_v16 (c : Dev nD) : (V8 m c main_v16 : FVec Ideal S20096x1 .f32) = dinvP (V0 m c main_arg1) := by
  rw [V8_of m c main_v16 (by decide), V7_of m c main_v16 (by decide), V6_of m c main_v16 (by decide), V5_v16_term, V3_c_term,
    V3_of m c main_v14 (by decide), V2_v14, colTerm_eq]

theorem V11_v1 (c : Dev nD) : V11 m outs c main_v1 = V8 m c main_v1 := (V11_of m outs c main_v1 (by decide)).trans <| (V10_of m outs c main_v1 (by decide)).trans <| (V9_of m outs c main_v1 (by decide))
theorem V11_v3 (c : Dev nD) : V11 m outs c main_v3 = V8 m c main_v3 := (V11_of m outs c main_v3 (by decide)).trans <| (V10_of m outs c main_v3 (by decide)).trans <| (V9_of m outs c main_v3 (by decide))
theorem V14_v1 (c : Dev nD) : V14 m outs c main_v1 = V8 m c main_v1 := (V14_of m outs c main_v1 (by decide)).trans <| (V13_of m outs c main_v1 (by decide)).trans <| (V12_of m outs c main_v1 (by decide)).trans <| (V11_of m outs c main_v1 (by decide)).trans <| (V10_of m outs c main_v1 (by decide)).trans <| (V9_of m outs c main_v1 (by decide))
theorem V14_v3 (c : Dev nD) : V14 m outs c main_v3 = V8 m c main_v3 := (V14_of m outs c main_v3 (by decide)).trans <| (V13_of m outs c main_v3 (by decide)).trans <| (V12_of m outs c main_v3 (by decide)).trans <| (V11_of m outs c main_v3 (by decide)).trans <| (V10_of m outs c main_v3 (by decide)).trans <| (V9_of m outs c main_v3 (by decide))
theorem V11_v16 (c : Dev nD) : V11 m outs c main_v16 = V8 m c main_v16 := (V11_of m outs c main_v16 (by decide)).trans <| (V10_of m outs c main_v16 (by decide)).trans <| (V9_of m outs c main_v16 (by decide))
theorem V14_v16 (c : Dev nD) : V14 m outs c main_v16 = V8 m c main_v16 := (V14_of m outs c main_v16 (by decide)).trans <| (V13_of m outs c main_v16 (by decide)).trans <| (V12_of m outs c main_v16 (by decide)).trans <| (V11_of m outs c main_v16 (by decide)).trans <| (V10_of m outs c main_v16 (by decide)).trans <| (V9_of m outs c main_v16 (by decide))

end Rest

end Cert.KernelIdeal.HostValue

end
-- ==== Proof.KI.PayIdeal.lean ====
import proofs.«408425_j84189948936514_2_alg».proof.Proof.Gen.KernelIdeal.Skeleton
import proofs.«408425_j84189948936514_2_alg».proof.Proof.Contrib
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayIdeal

open Cert.KernelIdeal Cert.KernelIdeal.Gen Idealize.ShloMosaic Idealize.ShloMosaic.ValueIdx Idealize.SL.Sem
open scoped BigOperators

theorem lhs_gather_0 (i : S128x128.Idx) (q : dot_S128x20096_S20096x128_S128x128_1_0_0_1_n_n.contr.Idx) :
    (dot_S128x20096_S20096x128_S128x128_1_0_0_1_n_n.lhsIdx i q 0).val = (i 0).val := by
  unfold DotDims.lhsIdx
  rw [dif_neg (show ¬(0 : Fin S128x20096.rank) ∈ dot_S128x20096_S20096x128_S128x128_1_0_0_1_n_n.lhsBatch by decide), dif_pos (show (0 : Fin S128x20096.rank) ∈ dot_S128x20096_S20096x128_S128x128_1_0_0_1_n_n.lhsNonContracting by decide)]
  rfl
theorem lhs_gather_1 (i : S128x128.Idx) (q : dot_S128x20096_S20096x128_S128x128_1_0_0_1_n_n.contr.Idx) :
    (dot_S128x20096_S20096x128_S128x128_1_0_0_1_n_n.lhsIdx i q 1).val = (q ⟨0, by decide⟩).val :=
  dot_S128x20096_S20096x128_S128x128_1_0_0_1_n_n.lhsIdx_val_of_single rfl i q
theorem rhs_gather_0 (i : S128x128.Idx) (q : dot_S128x20096_S20096x128_S128x128_1_0_0_1_n_n.contr.Idx) :
    (dot_S128x20096_S20096x128_S128x128_1_0_0_1_n_n.rhsIdx i q 0).val = (q ⟨0, by decide⟩).val :=
  dot_S128x20096_S20096x128_S128x128_1_0_0_1_n_n.rhsIdx_val_of_single rfl i q
theorem rhs_gather_1 (i : S128x128.Idx) (q : dot_S128x20096_S20096x128_S128x128_1_0_0_1_n_n.contr.Idx) :
    (dot_S128x20096_S20096x128_S128x128_1_0_0_1_n_n.rhsIdx i q 1).val = (i 1).val := by
  unfold DotDims.rhsIdx
  rw [dif_neg (show ¬(1 : Fin S20096x128.rank) ∈ dot_S128x20096_S20096x128_S128x128_1_0_0_1_n_n.rhsBatch by decide), dif_pos (show (1 : Fin S20096x128.rank) ∈ dot_S128x20096_S20096x128_S128x128_1_0_0_1_n_n.rhsNonContracting by decide)]
  rfl

theorem lhs_scatter_0 (i : S20096x128.Idx) (q : dot_S128x20096_S128x128_S20096x128_0_0_1_1_n_n.contr.Idx) :
    (dot_S128x20096_S128x128_S20096x128_0_0_1_1_n_n.lhsIdx i q 0).val = (q ⟨0, by decide⟩).val :=
  dot_S128x20096_S128x128_S20096x128_0_0_1_1_n_n.lhsIdx_val_of_single rfl i q
theorem lhs_scatter_1 (i : S20096x128.Idx) (q : dot_S128x20096_S128x128_S20096x128_0_0_1_1_n_n.contr.Idx) :
    (dot_S128x20096_S128x128_S20096x128_0_0_1_1_n_n.lhsIdx i q 1).val = (i 0).val := by
  unfold DotDims.lhsIdx
  rw [dif_neg (show ¬(1 : Fin S128x20096.rank) ∈ dot_S128x20096_S128x128_S20096x128_0_0_1_1_n_n.lhsBatch by decide), dif_pos (show (1 : Fin S128x20096.rank) ∈ dot_S128x20096_S128x128_S20096x128_0_0_1_1_n_n.lhsNonContracting by decide)]
  rfl
theorem rhs_scatter_0 (i : S20096x128.Idx) (q : dot_S128x20096_S128x128_S20096x128_0_0_1_1_n_n.contr.Idx) :
    (dot_S128x20096_S128x128_S20096x128_0_0_1_1_n_n.rhsIdx i q 0).val = (q ⟨0, by decide⟩).val :=
  dot_S128x20096_S128x128_S20096x128_0_0_1_1_n_n.rhsIdx_val_of_single rfl i q
theorem rhs_scatter_1 (i : S20096x128.Idx) (q : dot_S128x20096_S128x128_S20096x128_0_0_1_1_n_n.contr.Idx) :
    (dot_S128x20096_S128x128_S20096x128_0_0_1_1_n_n.rhsIdx i q 1).val = (i 1).val := by
  unfold DotDims.rhsIdx
  rw [dif_neg (show ¬(1 : Fin S128x128.rank) ∈ dot_S128x20096_S128x128_S20096x128_0_0_1_1_n_n.rhsBatch by decide), dif_pos (show (1 : Fin S128x128.rank) ∈ dot_S128x20096_S128x128_S20096x128_0_0_1_1_n_n.rhsNonContracting by decide)]
  rfl

theorem gather_apply (oh : FVec Ideal S128x20096 .bf16) (x : FVec Ideal S20096x128 .bf16) (l : Fin 128) (d : Fin 128) :
    matmul dot_S128x20096_S20096x128_S128x128_1_0_0_1_n_n none oh x (constant (F := Ideal) S128x128 .f32 0x00000000#32) (ix2 l d)
      = ∑ n : Fin 20096, oh (ix2 l n) * x (ix2 n d) := by
  simp only [matmul]
  rw [Ideal.matmul_constant_zero_apply, ← Equiv.sum_comp (ValueIdx.contrEquiv1 dot_S128x20096_S20096x128_S128x128_1_0_0_1_n_n 20096 rfl rfl).symm]
  refine Finset.sum_congr rfl fun k _ => ?_
  have hk := ValueIdx.contrEquiv1_symm_val dot_S128x20096_S20096x128_S128x128_1_0_0_1_n_n 20096 rfl rfl k
  have el : dot_S128x20096_S20096x128_S128x128_1_0_0_1_n_n.lhsIdx (ix2 l d) ((ValueIdx.contrEquiv1 dot_S128x20096_S20096x128_S128x128_1_0_0_1_n_n 20096 rfl rfl).symm k) = ix2 l k := funext fun a => Fin.ext (by
    match a with
    | ⟨0, _⟩ => exact lhs_gather_0 _ _
    | ⟨1, _⟩ => exact (lhs_gather_1 _ _).trans hk)
  have er : dot_S128x20096_S20096x128_S128x128_1_0_0_1_n_n.rhsIdx (ix2 l d) ((ValueIdx.contrEquiv1 dot_S128x20096_S20096x128_S128x128_1_0_0_1_n_n 20096 rfl rfl).symm k) = ix2 k d := funext fun a => Fin.ext (by
    match a with
    | ⟨0, _⟩ => exact (rhs_gather_0 _ _).trans hk
    | ⟨1, _⟩ => exact rhs_gather_1 _ _)
  rw [el, er]

theorem scatter_apply (oh : FVec Ideal S128x20096 .bf16) (m : FVec Ideal S128x128 .bf16) (n : Fin 20096) (d : Fin 128) :
    matmul dot_S128x20096_S128x128_S20096x128_0_0_1_1_n_n none oh m (constant (F := Ideal) S20096x128 .f32 0x00000000#32) (ix2 n d)
      = ∑ l : Fin 128, oh (ix2 l n) * m (ix2 l d) := by
  simp only [matmul]
  rw [Ideal.matmul_constant_zero_apply, ← Equiv.sum_comp (ValueIdx.contrEquiv1 dot_S128x20096_S128x128_S20096x128_0_0_1_1_n_n 128 rfl rfl).symm]
  refine Finset.sum_congr rfl fun k _ => ?_
  have hk := ValueIdx.contrEquiv1_symm_val dot_S128x20096_S128x128_S20096x128_0_0_1_1_n_n 128 rfl rfl k
  have el : dot_S128x20096_S128x128_S20096x128_0_0_1_1_n_n.lhsIdx (ix2 n d) ((ValueIdx.contrEquiv1 dot_S128x20096_S128x128_S20096x128_0_0_1_1_n_n 128 rfl rfl).symm k) = ix2 k n := funext fun a => Fin.ext (by
    match a with
    | ⟨0, _⟩ => exact (lhs_scatter_0 _ _).trans hk
    | ⟨1, _⟩ => exact lhs_scatter_1 _ _)
  have er : dot_S128x20096_S128x128_S20096x128_0_0_1_1_n_n.rhsIdx (ix2 n d) ((ValueIdx.contrEquiv1 dot_S128x20096_S128x128_S20096x128_0_0_1_1_n_n 128 rfl rfl).symm k) = ix2 k d := funext fun a => Fin.ext (by
    match a with
    | ⟨0, _⟩ => exact (rhs_scatter_0 _ _).trans hk
    | ⟨1, _⟩ => exact rhs_scatter_1 _ _)
  rw [el, er]

theorem onehot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · rw [if_pos h]; subst h
    have e1 : IntOp.cmpi .eq a a = 1#1 := by simp [IntOp.cmpi]
    rw [e1]
    have e2 : ((1#1 : BitVec 1).setWidth 32).toInt = 1 := by decide
    rw [e2]; simp
  · rw [if_neg h]
    have e1 : IntOp.cmpi .eq a b = 0#1 := by
      show BitVec.ofBool (a == b) = 0#1
      rw [beq_eq_false_iff_ne.mpr h]; rfl
    rw [e1]
    have e2 : ((0#1 : BitVec 1).setWidth 32).toInt = 0 := by decide
    rw [e2]; simp

theorem onehot_apply (v : Vec Ideal S128 .i32) (l : Fin 128) (n : Fin 20096) :
    k0_pay9 (F := Ideal) v (ix2 l n) = if v (ix1 l) = BitVec.ofNat 32 n.val then (1 : EReal) else 0 := by
  unfold k0_pay9
  dsimp only
  rw [truncf_apply, sitofp_apply, extui_apply]
  show FloatOps.sitofp (F := Ideal) .f32 ((IntOp.cmpi .eq _ _).setWidth 32) = _
  rw [onehot_word]
  have ea : broadcastTo S128x20096 (shapeCast S128x1 (shapeCast S128 v shapeCasts_S128_S128) shapeCasts_S128_S128x1) broadcasts_S128x1_S128x20096 (ix2 l n) = v (ix1 l) := by
    refine (broadcastTo_apply _ broadcasts_S128x1_S128x20096 (ix2 l n) (ix2 l (0 : Fin 1)) (fun a => ?_)).trans ?_
    · match a with
      | ⟨0, _⟩ => rfl
      | ⟨1, _⟩ => rfl
    · refine (shapeCast_apply _ shapeCasts_S128_S128x1 (ix2 l (0 : Fin 1)) (ix1 l) ?_).trans ?_
      · rw [Shape.rowMajor_val_one, Shape.rowMajor_val_two]
        show l.val = l.val * 1 + 0
        omega
      · rw [shapeCast_self]
  have eb : broadcastTo S128x20096 (iota .tc S1x20096 32 [1] iota_S1x20096_d1_w32) broadcasts_S1x20096_S128x20096 (ix2 l n) = BitVec.ofNat 32 n.val := by
    refine (broadcastTo_apply _ broadcasts_S1x20096_S128x20096 (ix2 l n) (ix2 (0 : Fin 1) n) (fun a => ?_)).trans ?_
    · match a with
      | ⟨0, _⟩ => rfl
      | ⟨1, _⟩ => rfl
    · exact iota_single_apply .tc S1x20096 32 1 iota_S1x20096_d1_w32 (ix2 (0 : Fin 1) n)
  rw [ea, eb]

theorem pay6_eq : k0_pay6 (F := Ideal) = fun _ => (0 : EReal) := by
  funext i
  unfold k0_pay6
  rw [shapeCast_self]
  show Ideal.ofBits .f32 0x00000000#32 = 0
  exact Ideal.ofBits_zero_f32

theorem pay2_apply (acc : Vec Ideal S20096x128 .f32) (i : S1x20096x128.Idx) :
    k0_pay2 (F := Ideal) acc i = acc (ix2 ⟨(i 1).val, (i 1).isLt⟩ ⟨(i 2).val, (i 2).isLt⟩) := by
  unfold k0_pay2
  dsimp only
  refine (shapeCast_addUnit_apply ![20096, 128] acc shapeCasts_S20096x128_S1x20096x128 i).trans ?_
  refine congrArg acc (funext fun a => Fin.ext ?_)
  match a with
  | ⟨0, _⟩ => rfl
  | ⟨1, _⟩ => rfl

theorem pay4_eq (xt : Vec Ideal S20096x128 .f32) : k0_pay4 (F := Ideal) xt = xt := by
  unfold k0_pay4 k0_pay3
  dsimp only
  rw [shapeCast_self, shapeCast_self]
  rfl

theorem pay5_apply (xt : Vec Ideal S20096x128 .f32) (hxt : Cert.Spec.IsReal xt) (i : S20096x128.Idx) :
    k0_pay5 (F := Ideal) xt i = 0 := by
  unfold k0_pay5 k0_pay3
  dsimp only
  rw [shapeCast_self, shapeCast_self]
  show xt i - xt i = 0
  obtain ⟨r, hr⟩ := hxt i
  rw [hr, ← EReal.coe_sub, sub_self, EReal.coe_zero]

theorem word_eq_iff (s : BitVec 32) (n : ℕ) (hn : n < 20096) : s = BitVec.ofNat 32 n ↔ s.toNat = n := by
  constructor
  · intro h; subst h; rw [BitVec.toNat_ofNat]; omega
  · intro h; apply BitVec.eq_of_toNat_eq; rw [BitVec.toNat_ofNat, h]; omega

theorem sum_onehot_gath (xt : Cert.Contrib.SP.Idx → EReal) (s : BitVec 32) (d : Fin 128) :
    ∑ n : Fin 20096, (if s = BitVec.ofNat 32 n.val then (1 : EReal) else 0) * xt (ix2 n d) = Cert.Contrib.gath xt s d := by
  unfold Cert.Contrib.gath
  by_cases h : s.toNat < 20096
  · rw [dif_pos h, Finset.sum_eq_single (⟨s.toNat, h⟩ : Fin 20096)]
    · rw [if_pos ((word_eq_iff s s.toNat h).mpr rfl), one_mul]
    · intro n _ hn
      rw [if_neg (fun hs => hn (Fin.ext ((word_eq_iff s n.val n.isLt).mp hs).symm)), zero_mul]
    · intro h'; exact absurd (Finset.mem_univ _) h'
  · rw [dif_neg h]
    refine Finset.sum_eq_zero fun n _ => ?_
    rw [if_neg (fun hs => h (by rw [(word_eq_iff s n.val n.isLt).mp hs]; exact n.isLt)), zero_mul]

theorem gath_real (xt : Cert.Contrib.SP.Idx → EReal) (hxt : Cert.Spec.IsReal xt) (s : BitVec 32) (d : Fin 128) :
    ∃ r : ℝ, Cert.Contrib.gath xt s d = (r : EReal) := by
  unfold Cert.Contrib.gath
  by_cases h : s.toNat < 20096
  · rw [dif_pos h]; exact hxt _
  · rw [dif_neg h]; exact ⟨0, rfl⟩

theorem pay7_apply (src : Vec Ideal S128 .i32) (hi lo : FVec Ideal S20096x128 .bf16) (l d : Fin 128) :
    k0_pay7 (F := Ideal) src hi lo (ix2 l d)
      = (∑ n : Fin 20096, (if src (ix1 l) = BitVec.ofNat 32 n.val then (1 : EReal) else 0) * hi (ix2 n d))
        + ∑ n : Fin 20096, (if src (ix1 l) = BitVec.ofNat 32 n.val then (1 : EReal) else 0) * lo (ix2 n d) := by
  have e : k0_pay7 (F := Ideal) src hi lo
      = addf (matmul dot_S128x20096_S20096x128_S128x128_1_0_0_1_n_n none (k0_pay9 (F := Ideal) src) hi (constant (F := Ideal) S128x128 .f32 0x00000000#32))
          (matmul dot_S128x20096_S20096x128_S128x128_1_0_0_1_n_n none (k0_pay9 (F := Ideal) src) lo (constant (F := Ideal) S128x128 .f32 0x00000000#32)) := rfl
  rw [e, addf_apply, gather_apply, gather_apply]
  simp only [onehot_apply]

theorem msg_apply (xt : Vec Ideal S20096x128 .f32) (hxt : Cert.Spec.IsReal xt) (src : Vec Ideal S128 .i32) (l d : Fin 128) :
    k0_pay7 (F := Ideal) src (k0_pay4 (F := Ideal) xt) (k0_pay5 (F := Ideal) xt) (ix2 l d) = Cert.Contrib.gath xt (src (ix1 l)) d := by
  rw [pay7_apply, pay4_eq]
  simp only [pay5_apply xt hxt, mul_zero, Finset.sum_const_zero, add_zero]
  exact sum_onehot_gath xt (src (ix1 l)) d

theorem pay8_apply (xt : Vec Ideal S20096x128 .f32) (hxt : Cert.Spec.IsReal xt) (src : Vec Ideal S128 .i32) (l d : Fin 128) :
    k0_pay8 (F := Ideal) src (k0_pay4 (F := Ideal) xt) (k0_pay5 (F := Ideal) xt) (ix2 l d) = 0 := by
  unfold k0_pay8
  rw [truncf_apply, subf_apply, msg_apply xt hxt]
  obtain ⟨r, hr⟩ := gath_real xt hxt (src (ix1 l)) d
  rw [hr, ← EReal.coe_sub, sub_self, EReal.coe_zero]

theorem pay10_apply (src dst : Vec Ideal S128 .i32) (hi lo : FVec Ideal S20096x128 .bf16) (acc : Vec Ideal S20096x128 .f32)
    (n : Fin 20096) (d : Fin 128) :
    k0_pay10 (F := Ideal) src dst hi lo acc (ix2 n d)
      = acc (ix2 n d) + ∑ l : Fin 128, (if dst (ix1 l) = BitVec.ofNat 32 n.val then (1 : EReal) else 0) * k0_pay7 (F := Ideal) src hi lo (ix2 l d) := by
  unfold k0_pay10
  rw [shapeCast_self, addf_apply, scatter_apply]
  simp only [onehot_apply, truncf_apply]

theorem pay1_apply (v23 : FVec Ideal S128x128 .bf16) (v30 : FVec Ideal S128x20096 .bf16) (v37 : Vec Ideal S20096x128 .f32)
    (n : Fin 20096) (d : Fin 128) :
    k0_pay1 (F := Ideal) v23 v30 v37 (constant (F := Ideal) S20096x128 .f32 0x00000000#32) (ix2 n d)
      = v37 (ix2 n d) + ∑ l : Fin 128, v30 (ix2 l n) * v23 (ix2 l d) := by
  unfold k0_pay1
  rw [shapeCast_self, addf_apply, scatter_apply]

theorem step_eq (xt : Vec Ideal S20096x128 .f32) (hxt : Cert.Spec.IsReal xt) (src dst : Vec Ideal S128 .i32)
    (acc : Vec Ideal S20096x128 .f32) :
    k0_pay1 (F := Ideal) (k0_pay8 src (k0_pay4 xt) (k0_pay5 xt)) (k0_pay9 dst) (k0_pay10 src dst (k0_pay4 xt) (k0_pay5 xt) acc)
        (constant S20096x128 .f32 0x00000000#32)
      = fun i => acc i + Cert.Contrib.contrib xt src dst i := by
  funext i
  obtain ⟨p, q, rfl⟩ : ∃ (p : Fin 20096) (q : Fin 128), i = ix2 p q := ⟨i 0, i 1, eq_ix2 i⟩
  rw [pay1_apply]
  simp only [pay8_apply xt hxt, mul_zero, Finset.sum_const_zero, add_zero]
  rw [pay10_apply]
  simp only [msg_apply xt hxt]
  rfl

end Cert.KernelIdeal.PayIdeal

end
-- ==== Proof.KI.AccSum.lean ====
import proofs.«408425_j84189948936514_2_alg».proof.Proof.Pad1
import Idealize.ShloMosaic.Lib.Pipeline.Value
import Idealize.ShloMosaic.Lib.ValueIdx

noncomputable section

namespace Cert.AccSum

open Idealize.ShloMosaic Idealize.ShloMosaic.ValueIdx
open scoped BigOperators

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

theorem readCov_cons_unit_zero {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

def blockTerm (xt : Cert.Contrib.SP.Idx → EReal) (s d : Cert.Pad.SF.Idx → BitVec 32) (h j : ℕ) : Cert.Contrib.SP.Idx → EReal :=
  fun i => if hh : h < 2 ∧ j < 2500 then
    Cert.Contrib.contrib xt (Cert.Pad.blockOf1 s ⟨h, hh.1⟩ ⟨j, hh.2⟩) (Cert.Pad.blockOf1 d ⟨h, hh.1⟩ ⟨j, hh.2⟩) i else 0

def accAt (xt : Cert.Contrib.SP.Idx → EReal) (s d : Cert.Pad.SF.Idx → BitVec 32) (n : ℕ) : Cert.Contrib.SP.Idx → EReal :=
  fun i => ∑ j ∈ Finset.range (n % 2500 + 1), blockTerm xt s d (n / 2500) j i

theorem blockTerm_at (xt : Cert.Contrib.SP.Idx → EReal) (s d : Cert.Pad.SF.Idx → BitVec 32) (n : ℕ) (hh : n / 2500 < 2) (hj : n % 2500 < 2500) :
    blockTerm xt s d (n / 2500) (n % 2500)
      = Cert.Contrib.contrib xt (Cert.Pad.blockOf1 s ⟨n / 2500, hh⟩ ⟨n % 2500, hj⟩) (Cert.Pad.blockOf1 d ⟨n / 2500, hh⟩ ⟨n % 2500, hj⟩) := by
  funext i
  unfold blockTerm
  rw [dif_pos ⟨hh, hj⟩]

theorem accAt_first (xt : Cert.Contrib.SP.Idx → EReal) (s d : Cert.Pad.SF.Idx → BitVec 32) (n : ℕ) (h0 : n % 2500 = 0) :
    accAt xt s d n = fun i => 0 + blockTerm xt s d (n / 2500) (n % 2500) i := by
  funext i
  show ∑ j ∈ Finset.range (n % 2500 + 1), blockTerm xt s d (n / 2500) j i = 0 + blockTerm xt s d (n / 2500) (n % 2500) i
  rw [h0, Nat.zero_add, Finset.sum_range_one, zero_add]

theorem accAt_next (xt : Cert.Contrib.SP.Idx → EReal) (s d : Cert.Pad.SF.Idx → BitVec 32) (n : ℕ) (h0 : ¬n % 2500 = 0) :
    accAt xt s d n = fun i => accAt xt s d (n - 1) i + blockTerm xt s d (n / 2500) (n % 2500) i := by
  funext i
  have e1 : (n - 1) / 2500 = n / 2500 := by omega
  have e2 : (n - 1) % 2500 + 1 = n % 2500 := by omega
  show ∑ j ∈ Finset.range (n % 2500 + 1), blockTerm xt s d (n / 2500) j i
    = ∑ j ∈ Finset.range ((n - 1) % 2500 + 1), blockTerm xt s d ((n - 1) / 2500) j i + blockTerm xt s d (n / 2500) (n % 2500) i
  rw [e1, e2, Finset.sum_range_succ]

theorem accAt_last (xt : Cert.Contrib.SP.Idx → EReal) (s d : Cert.Pad.SF.Idx → BitVec 32) (n : ℕ) (h1 : n % 2500 = 2499) (hh : n / 2500 < 2) :
    accAt xt s d n = fun i => ∑ j : Fin 2500, Cert.Contrib.contrib xt (Cert.Pad.blockOf1 s ⟨n / 2500, hh⟩ j) (Cert.Pad.blockOf1 d ⟨n / 2500, hh⟩ j) i := by
  funext i
  show ∑ j ∈ Finset.range (n % 2500 + 1), blockTerm xt s d (n / 2500) j i = _
  rw [h1]
  show ∑ j ∈ Finset.range 2500, blockTerm xt s d (n / 2500) j i = _
  rw [← Fin.sum_univ_eq_sum_range (fun j => blockTerm xt s d (n / 2500) j i) 2500]
  refine Finset.sum_congr rfl fun j _ => ?_
  unfold blockTerm
  rw [dif_pos ⟨hh, j.isLt⟩]

def halfSum (xt : Cert.Contrib.SP.Idx → EReal) (s d : Cert.Pad.SF.Idx → BitVec 32) (h : Fin 2) : Cert.Contrib.SP.Idx → EReal :=
  fun i => ∑ j : Fin 2500, Cert.Contrib.contrib xt (Cert.Pad.blockOf1 s h j) (Cert.Pad.blockOf1 d h j) i

theorem outOf1_apply (xt : Cert.Contrib.SP.Idx → EReal) (s d : Cert.Pad.SF.Idx → BitVec 32) (i : Cert.Contrib.SO.Idx)
    (h : Fin 2) (p : Fin 20096) (q : Fin 128) (e0 : (i 0).val = h.val) (e1 : (i 1).val = p.val) (e2 : (i 2).val = q.val) :
    Cert.Pad.outOf1 xt s d i = halfSum xt s d h (ix2 p q) := by
  unfold Cert.Pad.outOf1 halfSum
  have a0 : (⟨(i 0).val, (i 0).isLt⟩ : Fin 2) = h := Fin.ext e0
  have a1 : (⟨(i 1).val, (i 1).isLt⟩ : Fin 20096) = p := Fin.ext e1
  have a2 : (⟨(i 2).val, (i 2).isLt⟩ : Fin 128) = q := Fin.ext e2
  rw [a0, a1, a2]

end Cert.AccSum

end
-- ==== Proof.KI.PieceVal.lean ====
import proofs.«408425_j84189948936514_2_alg».proof.Proof.KI.Pieces
import proofs.«408425_j84189948936514_2_alg».proof.Proof.KI.AccSum
import Idealize.ShloMosaic.Lib.Pipeline.Value
import Idealize.ShloMosaic.Lib.ValueIdx
import Idealize.ShloMosaic.Lib.Tactic

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AccSum
open scoped BigOperators

variable {F : FTy → Type} [FloatOps F]

variable (c : Dev nD) (i : grid0.Coords) (arg2 : Memref sig .tc .vmem S20096x128 .f32) (harg2 : arg2.IsWhole) (arg3 : Memref sig .tc .vmem S128 .i32) (harg3 : arg3.IsWhole) (arg4 : Memref sig .tc .vmem S128 .i32) (harg4 : arg4.IsWhole) (arg5 : Memref sig .tc .vmem S1x20096x128 .f32) (harg5 : arg5.IsWhole) (arg6 : Memref sig .tc .vmem S20096x128 .bf16) (harg6 : arg6.IsWhole) (arg7 : Memref sig .tc .vmem S20096x128 .bf16) (harg7 : arg7.IsWhole) (arg8 : Memref sig .tc .vmem S20096x128 .f32) (harg8 : arg8.IsWhole)

-- the pieces read back are the body's arithmetic of the blocks it loaded
section
variable (hc0 : cond0_0 i) (hc1 : ¬cond0_1 i) (x0 : Vec F S20096x128 .f32) (x1 : Vec F S128 .i32) (x2 : Vec F S128 .i32)

theorem sout0_A_0_eq :
    sout0_A_0 c i arg2 harg2 arg3 harg3 arg4 harg4 arg5 harg5 arg6 harg6 arg7 harg7 arg8 harg8 hc0 hc1 x0 x1 x2 = k0_pay4 x0 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_unit_zero hz2]
  simp only [View.readAt_eq_ld, harg2.read_unread, View.ld_unit_zero (S := S20096x128) hz2]

theorem sout0_A_1_eq :
    sout0_A_1 c i arg2 harg2 arg3 harg3 arg4 harg4 arg5 harg5 arg6 harg6 arg7 harg7 arg8 harg8 hc0 hc1 x0 x1 x2 = k0_pay5 x0 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_unit_zero hz2]
  simp only [View.readAt_eq_ld, harg2.read_unread, View.ld_unit_zero (S := S20096x128) hz2]

theorem sout0_A_2_eq :
    sout0_A_2 c i arg2 harg2 arg3 harg3 arg4 harg4 arg5 harg5 arg6 harg6 arg7 harg7 arg8 harg8 hc0 hc1 x0 x1 x2 = k0_pay1 (k0_pay8 x1 (k0_pay4 x0) (k0_pay5 x0)) (k0_pay9 x2) (k0_pay10 x1 x2 (k0_pay4 x0) (k0_pay5 x0) k0_pay6) (constant S20096x128 .f32 0x00000000#32) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S20096x128) hz2]
  simp only [readCov_cons_unit_zero (S := S20096x128) _ hz2, View.readCov_unit_zero (S := S20096x128) _ hz2, View.readAt_eq_ld, harg2.read_unread, harg3.read_unread, harg4.read_unread,
    View.ld_unit_zero (S := S20096x128) hz2, View.ld_unit_zero (S := S128) hz1]

end

section
variable (hc0 : ¬cond0_0 i) (hc1 : ¬cond0_1 i) (x0 : Vec F S20096x128 .f32) (x1 : Vec F S128 .i32) (x2 : Vec F S128 .i32) (xs0 : Vec F S20096x128 .bf16) (xs1 : Vec F S20096x128 .bf16) (xs2 : Vec F S20096x128 .f32)

theorem sout0_B_2_eq :
    sout0_B_2 c i arg2 harg2 arg3 harg3 arg4 harg4 arg5 harg5 arg6 harg6 arg7 harg7 arg8 harg8 hc0 hc1 x0 x1 x2 xs0 xs1 xs2 = k0_pay1 (k0_pay8 x1 xs0 xs1) (k0_pay9 x2) (k0_pay10 x1 x2 xs0 xs1 xs2) (constant S20096x128 .f32 0x00000000#32) := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_cons_unit_zero (S := S20096x128) hz2]
  simp only [readCov_cons_unit_zero (S := S20096x128) _ hz2, View.readCov_unit_zero (S := S20096x128) _ hz2, View.readAt_eq_ld, harg3.read_unread, harg4.read_unread, harg6.read_unread, harg7.read_unread, harg8.read_unread,
    View.ld_unit_zero (S := S20096x128) hz2, View.ld_unit_zero (S := S128) hz1]

end

section
variable (hc0 : ¬cond0_0 i) (hc1 : cond0_1 i) (x0 : Vec F S20096x128 .f32) (x1 : Vec F S128 .i32) (x2 : Vec F S128 .i32) (xs0 : Vec F S20096x128 .bf16) (xs1 : Vec F S20096x128 .bf16) (xs2 : Vec F S20096x128 .f32)

theorem sout0_C_2_eq :
    sout0_C_2 c i arg2 harg2 arg3 harg3 arg4 harg4 arg5 harg5 arg6 harg6 arg7 harg7 arg8 harg8 hc0 hc1 x0 x1 x2 xs0 xs1 xs2 = k0_pay1 (k0_pay8 x1 xs0 xs1) (k0_pay9 x2) (k0_pay10 x1 x2 xs0 xs1 xs2) (constant S20096x128 .f32 0x00000000#32) := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_cons_unit_zero (S := S20096x128) hz2]
  simp only [readCov_cons_unit_zero (S := S20096x128) _ hz2, View.readCov_unit_zero (S := S20096x128) _ hz2, View.readAt_eq_ld, harg3.read_unread, harg4.read_unread, harg6.read_unread, harg7.read_unread, harg8.read_unread,
    View.ld_unit_zero (S := S20096x128) hz2, View.ld_unit_zero (S := S128) hz1]

theorem out0_C_3_eq :
    out0_C_3 c i arg2 harg2 arg3 harg3 arg4 harg4 arg5 harg5 arg6 harg6 arg7 harg7 arg8 harg8 hc0 hc1 x0 x1 x2 xs0 xs1 xs2 = k0_pay2 (k0_pay1 (k0_pay8 x1 xs0 xs1) (k0_pay9 x2) (k0_pay10 x1 x2 xs0 xs1 xs2) (constant S20096x128 .f32 0x00000000#32)) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S1x20096x128) hz3]
  simp only [readCov_cons_unit_zero (S := S20096x128) _ hz2, View.readCov_unit_zero (S := S20096x128) _ hz2, View.readAt_eq_ld, harg3.read_unread, harg4.read_unread, harg6.read_unread, harg7.read_unread, harg8.read_unread,
    View.ld_unit_zero (S := S20096x128) hz2, View.ld_unit_zero (S := S128) hz1]

end

-- the block index of each operand at a grid point, decided once
theorem idx_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx_1 : ∀ t : Fin cfg0.N, win0_1.index t (0 : Fin 1) = t.val :=
  (by decide +kernel : ∀ t : Fin grid0.N, win0_1.index t (0 : Fin 1) = t.val)
theorem idx_2 : ∀ t : Fin cfg0.N, win0_2.index t (0 : Fin 1) = t.val :=
  (by decide +kernel : ∀ t : Fin grid0.N, win0_2.index t (0 : Fin 1) = t.val)
theorem idx_3 : ∀ t : Fin cfg0.N, win0_3.index t (0 : Fin 3) = t.val / 2500 ∧ win0_3.index t (1 : Fin 3) = 0 ∧ win0_3.index t (2 : Fin 3) = 0 :=
  (by decide +kernel : ∀ t : Fin grid0.N, win0_3.index t (0 : Fin 3) = t.val / 2500 ∧ win0_3.index t (1 : Fin 3) = 0 ∧ win0_3.index t (2 : Fin 3) = 0)

end Cert.KernelIdeal.Gen

end
-- ==== Proof.KI.R0Value.lean ====
import proofs.«408425_j84189948936514_2_alg».proof.Proof.KI.R0Body
import proofs.«408425_j84189948936514_2_alg».proof.Proof.KI.PayIdeal
import proofs.«408425_j84189948936514_2_alg».proof.Proof.KI.AccSum
import proofs.«408425_j84189948936514_2_alg».proof.Proof.KI.PieceVal
import Idealize.ShloMosaic.Lib.Pipeline.Value
import Idealize.ShloMosaic.Lib.ValueIdx
import Idealize.ShloMosaic.Lib.Tactic

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AccSum
open scoped BigOperators

variable {F : FTy → Type} [FloatOps F]

theorem idx0_0 : ∀ t : Fin cfg0.N, win0_0.index t (0 : Fin 2) = 0 ∧ win0_0.index t (1 : Fin 2) = 0 := idx_0
theorem idx0_1 : ∀ t : Fin cfg0.N, win0_1.index t (0 : Fin 1) = t.val := idx_1
theorem idx0_2 : ∀ t : Fin cfg0.N, win0_2.index t (0 : Fin 1) = t.val := idx_2
theorem idx0_3 : ∀ t : Fin cfg0.N, win0_3.index t (0 : Fin 3) = t.val / 2500 ∧ win0_3.index t (1 : Fin 3) = 0 ∧ win0_3.index t (2 : Fin 3) = 0 := idx_3

section
variable (V : (c : Dev nD) → (b : Ref sig .tc) → Buf (Elt F) ((c : Thread nD τ).loc b))

abbrev xtA0 (c : Dev nD) : Vec F S20096x128 .f32 := V c (Pipeline.arrRef spec0 0)
abbrev srcA0 (c : Dev nD) : Vec F S640000 .i32 := V c (Pipeline.arrRef spec0 1)
abbrev dstA0 (c : Dev nD) : Vec F S640000 .i32 := V c (Pipeline.arrRef spec0 2)

abbrev blkX0 (c : Dev nD) (t : Fin cfg0.N) : Vec F S20096x128 .f32 := iblk0 V c 0 t
abbrev blkS0 (c : Dev nD) (t : Fin cfg0.N) : Vec F S128 .i32 := iblk0 V c 1 t
abbrev blkD0 (c : Dev nD) (t : Fin cfg0.N) : Vec F S128 .i32 := iblk0 V c 2 t

theorem blkX0_eq (c : Dev nD) (t : Fin cfg0.N) : blkX0 V c t = xtA0 V c := by
  obtain ⟨e0, e1⟩ := idx0_0 t
  funext j
  unfold blkX0 iblk0
  rw [View.read_apply]
  show V c (Pipeline.arrRef spec0 0) _ = V c (Pipeline.arrRef spec0 0) j
  congr 1
  funext a
  apply Fin.ext
  match a with
  | ⟨0, _⟩ => show win0_0.index t (0 : Fin 2) * 20096 + 1 * (j 0).val = (j 0).val; rw [e0]; omega
  | ⟨1, _⟩ => show win0_0.index t (1 : Fin 2) * 128 + 1 * (j 1).val = (j 1).val; rw [e1]; omega

theorem blkS0_apply (c : Dev nD) (t : Fin cfg0.N) (l : Fin 128) (h : t.val * 128 + l.val < 640000) :
    blkS0 V c t (ix1 l) = srcA0 V c (ix1 ⟨t.val * 128 + l.val, h⟩) := by
  have e0 := idx0_1 t
  unfold blkS0 iblk0
  rw [View.read_apply]
  show V c (Pipeline.arrRef spec0 1) _ = V c (Pipeline.arrRef spec0 1) _
  congr 1
  funext a
  apply Fin.ext
  match a with
  | ⟨0, _⟩ => show win0_1.index t (0 : Fin 1) * 128 + 1 * l.val = t.val * 128 + l.val; rw [e0]; omega

theorem blkD0_apply (c : Dev nD) (t : Fin cfg0.N) (l : Fin 128) (h : t.val * 128 + l.val < 640000) :
    blkD0 V c t (ix1 l) = dstA0 V c (ix1 ⟨t.val * 128 + l.val, h⟩) := by
  have e0 := idx0_2 t
  unfold blkD0 iblk0
  rw [View.read_apply]
  show V c (Pipeline.arrRef spec0 2) _ = V c (Pipeline.arrRef spec0 2) _
  congr 1
  funext a
  apply Fin.ext
  match a with
  | ⟨0, _⟩ => show win0_2.index t (0 : Fin 1) * 128 + 1 * l.val = t.val * 128 + l.val; rw [e0]; omega

end

section
variable (V : (c : Dev nD) → (b : Ref sig .tc) → Buf (Elt F) ((c : Thread nD τ).loc b))

abbrev prevPt0 (t : Fin cfg0.N) : Fin cfg0.N := ⟨t.val - 1, Nat.lt_of_le_of_lt (Nat.sub_le _ _) t.isLt⟩

abbrev outAt0 (c : Dev nD) (t : Fin cfg0.N) : Vec F S1x20096x128 .f32 := (outsAt0 V c t.val t.isLt).1
abbrev hiAt0 (c : Dev nD) (t : Fin cfg0.N) : Vec F S20096x128 .bf16 := (outsAt0 V c t.val t.isLt).2.1
abbrev loAt0 (c : Dev nD) (t : Fin cfg0.N) : Vec F S20096x128 .bf16 := (outsAt0 V c t.val t.isLt).2.2.1
abbrev accOf0 (c : Dev nD) (t : Fin cfg0.N) : Vec F S20096x128 .f32 := (outsAt0 V c t.val t.isLt).2.2.2

abbrev upd0 (x1 x2 : Vec F S128 .i32) (h l : Vec F S20096x128 .bf16) (a : Vec F S20096x128 .f32) : Vec F S20096x128 .f32 :=
  k0_pay1 (k0_pay8 x1 h l) (k0_pay9 x2) (k0_pay10 x1 x2 h l a) (constant S20096x128 .f32 0x00000000#32)

theorem outs0_A (c : Dev nD) (t : Fin cfg0.N) (h0 : t.val % 2500 = 0) (h1 : ¬t.val % 2500 = 2499) :
    hiAt0 V c t = k0_pay4 (blkX0 V c t) ∧ loAt0 V c t = k0_pay5 (blkX0 V c t)
      ∧ accOf0 V c t = upd0 (blkS0 V c t) (blkD0 V c t) (k0_pay4 (blkX0 V c t)) (k0_pay5 (blkX0 V c t)) k0_pay6 := by
  unfold hiAt0 loAt0 accOf0
  rw [outsAt0_A V c t h0 h1]
  dsimp only [at0]
  exact ⟨sout0_A_0_eq .., sout0_A_1_eq .., sout0_A_2_eq ..⟩

theorem outs0_B (c : Dev nD) (t : Fin cfg0.N) (h0 : ¬t.val % 2500 = 0) (h1 : ¬t.val % 2500 = 2499) :
    hiAt0 V c t = hiAt0 V c (prevPt0 t) ∧ loAt0 V c t = loAt0 V c (prevPt0 t)
      ∧ accOf0 V c t = upd0 (blkS0 V c t) (blkD0 V c t) (hiAt0 V c (prevPt0 t)) (loAt0 V c (prevPt0 t)) (accOf0 V c (prevPt0 t)) := by
  unfold hiAt0 loAt0 accOf0
  rw [outsAt0_B V c t h0 h1]
  dsimp only [at0]
  exact ⟨rfl, rfl, sout0_B_2_eq ..⟩

theorem outs0_C (c : Dev nD) (t : Fin cfg0.N) (h0 : ¬t.val % 2500 = 0) (h1 : t.val % 2500 = 2499) :
    hiAt0 V c t = hiAt0 V c (prevPt0 t) ∧ loAt0 V c t = loAt0 V c (prevPt0 t)
      ∧ accOf0 V c t = upd0 (blkS0 V c t) (blkD0 V c t) (hiAt0 V c (prevPt0 t)) (loAt0 V c (prevPt0 t)) (accOf0 V c (prevPt0 t))
      ∧ outAt0 V c t = k0_pay2 (upd0 (blkS0 V c t) (blkD0 V c t) (hiAt0 V c (prevPt0 t)) (loAt0 V c (prevPt0 t)) (accOf0 V c (prevPt0 t))) := by
  unfold hiAt0 loAt0 accOf0 outAt0
  rw [outsAt0_C V c t h0 h1]
  dsimp only [at0]
  exact ⟨rfl, rfl, sout0_C_2_eq .., out0_C_3_eq ..⟩

end
section
variable (V : (c : Dev nD) → (b : Ref sig .tc) → Buf (Elt Ideal) ((c : Thread nD τ).loc b))

-- after point t the accumulator is the sum of its half's block contributions up to t
def Inv0 (c : Dev nD) (t : Fin cfg0.N) : Prop :=
  hiAt0 V c t = k0_pay4 (F := Ideal) (xtA0 V c) ∧ loAt0 V c t = k0_pay5 (F := Ideal) (xtA0 V c)
    ∧ accOf0 V c t = accAt (xtA0 V c) (srcA0 V c) (dstA0 V c) t.val

theorem inv0_step (c : Dev nD) (hxt : Cert.Spec.IsReal (xtA0 V c)) (t : Fin cfg0.N) (hh : t.val / 2500 < 2) (hj : t.val % 2500 < 2500)
    (hb0 : blkX0 V c t = xtA0 V c)
    (hb1 : blkS0 V c t = Cert.Pad.blockOf1 (srcA0 V c) ⟨t.val / 2500, hh⟩ ⟨t.val % 2500, hj⟩)
    (hb2 : blkD0 V c t = Cert.Pad.blockOf1 (dstA0 V c) ⟨t.val / 2500, hh⟩ ⟨t.val % 2500, hj⟩)
    (hprev : ¬t.val % 2500 = 0 → Inv0 V c (prevPt0 t)) : Inv0 V c t := by
  by_cases h0 : t.val % 2500 = 0
  · obtain ⟨a, b, d⟩ := outs0_A V c t h0 (by omega)
    refine ⟨a.trans (congrArg _ hb0), b.trans (congrArg _ hb0), d.trans ?_⟩
    rw [hb0, hb1, hb2]
    refine (Cert.KernelIdeal.PayIdeal.step_eq (xtA0 V c) hxt (Cert.Pad.blockOf1 (srcA0 V c) ⟨t.val / 2500, hh⟩ ⟨t.val % 2500, hj⟩)
      (Cert.Pad.blockOf1 (dstA0 V c) ⟨t.val / 2500, hh⟩ ⟨t.val % 2500, hj⟩) (k0_pay6 (F := Ideal))).trans ?_
    rw [accAt_first _ _ _ _ h0, blockTerm_at _ _ _ _ hh hj, Cert.KernelIdeal.PayIdeal.pay6_eq]
  · obtain ⟨ph, pl, pa⟩ := hprev h0
    have pa' : accOf0 V c (prevPt0 t) = accAt (xtA0 V c) (srcA0 V c) (dstA0 V c) (t.val - 1) := pa
    by_cases h1 : t.val % 2500 = 2499
    · obtain ⟨a, b, d, -⟩ := outs0_C V c t h0 h1
      refine ⟨a.trans ph, b.trans pl, d.trans ?_⟩
      rw [ph, pl, pa', hb1, hb2]
      refine (Cert.KernelIdeal.PayIdeal.step_eq (xtA0 V c) hxt (Cert.Pad.blockOf1 (srcA0 V c) ⟨t.val / 2500, hh⟩ ⟨t.val % 2500, hj⟩)
        (Cert.Pad.blockOf1 (dstA0 V c) ⟨t.val / 2500, hh⟩ ⟨t.val % 2500, hj⟩) (accAt (xtA0 V c) (srcA0 V c) (dstA0 V c) (t.val - 1))).trans ?_
      rw [accAt_next _ _ _ _ h0, blockTerm_at _ _ _ _ hh hj]
    · obtain ⟨a, b, d⟩ := outs0_B V c t h0 h1
      refine ⟨a.trans ph, b.trans pl, d.trans ?_⟩
      rw [ph, pl, pa', hb1, hb2]
      refine (Cert.KernelIdeal.PayIdeal.step_eq (xtA0 V c) hxt (Cert.Pad.blockOf1 (srcA0 V c) ⟨t.val / 2500, hh⟩ ⟨t.val % 2500, hj⟩)
        (Cert.Pad.blockOf1 (dstA0 V c) ⟨t.val / 2500, hh⟩ ⟨t.val % 2500, hj⟩) (accAt (xtA0 V c) (srcA0 V c) (dstA0 V c) (t.val - 1))).trans ?_
      rw [accAt_next _ _ _ _ h0, blockTerm_at _ _ _ _ hh hj]

end
section
variable (V : (c : Dev nD) → (b : Ref sig .tc) → Buf (Elt Ideal) ((c : Thread nD τ).loc b))

theorem inv0_all (c : Dev nD) (hxt : Cert.Spec.IsReal (xtA0 V c))
    (hb0 : ∀ t : Fin cfg0.N, blkX0 V c t = xtA0 V c)
    (hb1 : ∀ (t : Fin cfg0.N) (hh : t.val / 2500 < 2) (hj : t.val % 2500 < 2500),
      blkS0 V c t = Cert.Pad.blockOf1 (srcA0 V c) ⟨t.val / 2500, hh⟩ ⟨t.val % 2500, hj⟩)
    (hb2 : ∀ (t : Fin cfg0.N) (hh : t.val / 2500 < 2) (hj : t.val % 2500 < 2500),
      blkD0 V c t = Cert.Pad.blockOf1 (dstA0 V c) ⟨t.val / 2500, hh⟩ ⟨t.val % 2500, hj⟩) :
    ∀ (n : ℕ) (t : Fin cfg0.N), t.val = n → Inv0 V c t := by
  have hN : cfg0.N = 5000 := N_0
  intro n
  induction n with
  | zero =>
    intro t ht
    have hlt : t.val < 5000 := lt_of_lt_of_eq t.isLt hN
    exact inv0_step V c hxt t (by omega) (by omega) (hb0 t) (hb1 t _ _) (hb2 t _ _) (fun h => absurd (by rw [ht]) h)
  | succ n ih =>
    intro t ht
    have hlt : t.val < 5000 := lt_of_lt_of_eq t.isLt hN
    exact inv0_step V c hxt t (by omega) (by omega) (hb0 t) (hb1 t _ _) (hb2 t _ _)
      (fun _ => ih (prevPt0 t) (by show t.val - 1 = n; omega))

theorem out0_last (c : Dev nD) (hxt : Cert.Spec.IsReal (xtA0 V c))
    (hb0 : ∀ t : Fin cfg0.N, blkX0 V c t = xtA0 V c)
    (hb1 : ∀ (t : Fin cfg0.N) (hh : t.val / 2500 < 2) (hj : t.val % 2500 < 2500),
      blkS0 V c t = Cert.Pad.blockOf1 (srcA0 V c) ⟨t.val / 2500, hh⟩ ⟨t.val % 2500, hj⟩)
    (hb2 : ∀ (t : Fin cfg0.N) (hh : t.val / 2500 < 2) (hj : t.val % 2500 < 2500),
      blkD0 V c t = Cert.Pad.blockOf1 (dstA0 V c) ⟨t.val / 2500, hh⟩ ⟨t.val % 2500, hj⟩)
    (t : Fin cfg0.N) (h1 : t.val % 2500 = 2499) (hh : t.val / 2500 < 2) :
    (outsAt0 V c t.val t.isLt).1 = fun i : S1x20096x128.Idx =>
      halfSum (xtA0 V c) (srcA0 V c) (dstA0 V c) ⟨t.val / 2500, hh⟩ (ix2 ⟨(i 1).val, (i 1).isLt⟩ ⟨(i 2).val, (i 2).isLt⟩) := by
  have h0 : ¬t.val % 2500 = 0 := by omega
  obtain ⟨-, -, d, o⟩ := outs0_C V c t h0 h1
  have inv := inv0_all V c hxt hb0 hb1 hb2 t.val t rfl
  have e : outAt0 V c t = k0_pay2 (F := Ideal) (accOf0 V c t) := o.trans (congrArg (k0_pay2 (F := Ideal)) d.symm)
  show outAt0 V c t = _
  rw [e, inv.2.2, accAt_last _ _ _ _ h1 hh]
  funext i
  exact Cert.KernelIdeal.PayIdeal.pay2_apply _ i

end

section
variable (V : (c : Dev nD) → (b : Ref sig .tc) → Buf (Elt Ideal) ((c : Thread nD τ).loc b))

theorem blkS0_eq (c : Dev nD) (t : Fin cfg0.N) (hh : t.val / 2500 < 2) (hj : t.val % 2500 < 2500) :
    blkS0 V c t = Cert.Pad.blockOf1 (srcA0 V c) ⟨t.val / 2500, hh⟩ ⟨t.val % 2500, hj⟩ := by
  funext y
  obtain ⟨l, rfl⟩ : ∃ l : Fin 128, y = ix1 l := ⟨y 0, eq_ix1 y⟩
  have hb : t.val * 128 + l.val < 640000 := by have := l.isLt; omega
  rw [blkS0_apply V c t l hb]
  unfold Cert.Pad.blockOf1
  refine congrArg (srcA0 V c) (congrArg (ix1 (n := 640000)) (Fin.ext ?_))
  show t.val * 128 + l.val = (t.val / 2500 * 2500 + t.val % 2500) * 128 + l.val
  omega

theorem blkD0_eq (c : Dev nD) (t : Fin cfg0.N) (hh : t.val / 2500 < 2) (hj : t.val % 2500 < 2500) :
    blkD0 V c t = Cert.Pad.blockOf1 (dstA0 V c) ⟨t.val / 2500, hh⟩ ⟨t.val % 2500, hj⟩ := by
  funext y
  obtain ⟨l, rfl⟩ : ∃ l : Fin 128, y = ix1 l := ⟨y 0, eq_ix1 y⟩
  have hb : t.val * 128 + l.val < 640000 := by have := l.isLt; omega
  rw [blkD0_apply V c t l hb]
  unfold Cert.Pad.blockOf1
  refine congrArg (dstA0 V c) (congrArg (ix1 (n := 640000)) (Fin.ext ?_))
  show t.val * 128 + l.val = (t.val / 2500 * 2500 + t.val % 2500) * 128 + l.val
  omega

theorem mem_blk0_3 (t : Fin cfg0.N) (i : S2x20096x128.Idx) :
    i ∈ ((cfg0.win 3).blk t).view.set ↔ ∀ a : Fin 3, win0_3.index t a * S1x20096x128.size a ≤ (i a).val ∧ (i a).val < win0_3.index t a * S1x20096x128.size a + S1x20096x128.size a := by
  show i ∈ ((View.whole main_v27).slice (win0_3.rect t)).set ↔ _
  rw [View.set_slice_whole, Rect.mem_set_unit]
  exact Iff.rfl

theorem flushed0_3_eq (c : Dev nD) (hxt : Cert.Spec.IsReal (xtA0 V c)) (t : Fin cfg0.N) (hf : (cfg0.win 3).flush t = true) :
    (dat0 V c).flushed 3 t = ((cfg0.win 3).blk t).view.read (Elt Ideal) (Cert.Pad.outOf1 (xtA0 V c) (srcA0 V c) (dstA0 V c)) := by
  have hN : cfg0.N = 5000 := N_0
  have hlt : t.val < 5000 := lt_of_lt_of_eq t.isLt hN
  have h1 : t.val % 2500 = 2499 := (flush0_3 t).mp hf
  have hh : t.val / 2500 < 2 := by omega
  obtain ⟨e0, e1, e2⟩ := idx0_3 t
  show (cfg0.win 3).cut (grid0.coords t) ((dat0 V c).after 3 t) = _
  rw [after0_3, out0_last V c hxt (blkX0_eq V c) (blkS0_eq V c) (blkD0_eq V c) t h1 hh]
  funext y
  rw [View.read_apply]
  have k0 : ((((cfg0.win 3).blk t).view.emb y) 0).val = t.val / 2500 := by
    show win0_3.index t (0 : Fin 3) * 1 + 1 * (y 0).val = t.val / 2500
    have : (y 0).val < 1 := (y 0).isLt
    rw [e0]; omega
  have k1 : ((((cfg0.win 3).blk t).view.emb y) 1).val = (y 1).val := by
    show win0_3.index t (1 : Fin 3) * 20096 + 1 * (y 1).val = (y 1).val
    rw [e1]; omega
  have k2 : ((((cfg0.win 3).blk t).view.emb y) 2).val = (y 2).val := by
    show win0_3.index t (2 : Fin 3) * 128 + 1 * (y 2).val = (y 2).val
    rw [e2]; omega
  exact (outOf1_apply (xtA0 V c) (srcA0 V c) (dstA0 V c) (((cfg0.win 3).blk t).view.emb y) ⟨t.val / 2500, hh⟩
    ⟨(y 1).val, (y 1).isLt⟩ ⟨(y 2).val, (y 2).isLt⟩ k0 k1 k2).symm

theorem mem_blk0_3_of_half (t : Fin cfg0.N) (i : S2x20096x128.Idx) (h : t.val / 2500 = (i 0).val) :
    i ∈ ((cfg0.win 3).blk t).view.set := by
  obtain ⟨e0, e1, e2⟩ := idx0_3 t
  have hi1 : (i 1).val < 20096 := (i 1).isLt
  have hi2 : (i 2).val < 128 := (i 2).isLt
  rw [mem_blk0_3]
  intro a
  match a with
  | ⟨0, _⟩ => show win0_3.index t (0 : Fin 3) * 1 ≤ (i 0).val ∧ (i 0).val < win0_3.index t (0 : Fin 3) * 1 + 1; rw [e0, h]; omega
  | ⟨1, _⟩ => show win0_3.index t (1 : Fin 3) * 20096 ≤ (i 1).val ∧ (i 1).val < win0_3.index t (1 : Fin 3) * 20096 + 20096; rw [e1]; omega
  | ⟨2, _⟩ => show win0_3.index t (2 : Fin 3) * 128 ≤ (i 2).val ∧ (i 2).val < win0_3.index t (2 : Fin 3) * 128 + 128; rw [e2]; omega

theorem arrAt0_out (c : Dev nD) (hxt : Cert.Spec.IsReal (xtA0 V c)) :
    ((dat0 V c).arrAt 3 cfg0.N : Cert.Contrib.SO.Idx → EReal) = Cert.Pad.outOf1 (xtA0 V c) (srcA0 V c) (dstA0 V c) := by
  have hN : cfg0.N = 5000 := N_0
  refine (dat0 V c).arrAt_eq_of_cover 3 (Cert.Pad.outOf1 (xtA0 V c) (srcA0 V c) (dstA0 V c)) (fun t hf => flushed0_3_eq V c hxt t hf)
    fun (i : S2x20096x128.Idx) => ?_
  have hi0 : (i 0).val < 2 := (i 0).isLt
  have hlt : (i 0).val * 2500 + 2499 < cfg0.N := by rw [hN]; omega
  exact ⟨⟨(i 0).val * 2500 + 2499, hlt⟩, (flush0_3 _).mpr (by show ((i 0).val * 2500 + 2499) % 2500 = 2499; omega),
    mem_blk0_3_of_half ⟨(i 0).val * 2500 + 2499, hlt⟩ i (by show ((i 0).val * 2500 + 2499) / 2500 = (i 0).val; omega)⟩

end

end Cert.KernelIdeal.Gen

end
-- ==== Proof.KI.R1Value.lean ====
import proofs.«408425_j84189948936514_2_alg».proof.Proof.KI.R1Body
import proofs.«408425_j84189948936514_2_alg».proof.Proof.KI.PayIdeal
import proofs.«408425_j84189948936514_2_alg».proof.Proof.KI.AccSum
import proofs.«408425_j84189948936514_2_alg».proof.Proof.KI.PieceVal
import Idealize.ShloMosaic.Lib.Pipeline.Value
import Idealize.ShloMosaic.Lib.ValueIdx
import Idealize.ShloMosaic.Lib.Tactic

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AccSum
open scoped BigOperators

variable {F : FTy → Type} [FloatOps F]

theorem idx1_0 : ∀ t : Fin cfg1.N, win1_0.index t (0 : Fin 2) = 0 ∧ win1_0.index t (1 : Fin 2) = 0 := idx_0
theorem idx1_1 : ∀ t : Fin cfg1.N, win1_1.index t (0 : Fin 1) = t.val := idx_1
theorem idx1_2 : ∀ t : Fin cfg1.N, win1_2.index t (0 : Fin 1) = t.val := idx_2
theorem idx1_3 : ∀ t : Fin cfg1.N, win1_3.index t (0 : Fin 3) = t.val / 2500 ∧ win1_3.index t (1 : Fin 3) = 0 ∧ win1_3.index t (2 : Fin 3) = 0 := idx_3

section
variable (V : (c : Dev nD) → (b : Ref sig .tc) → Buf (Elt F) ((c : Thread nD τ).loc b))

abbrev xtA1 (c : Dev nD) : Vec F S20096x128 .f32 := V c (Pipeline.arrRef spec1 0)
abbrev srcA1 (c : Dev nD) : Vec F S640000 .i32 := V c (Pipeline.arrRef spec1 1)
abbrev dstA1 (c : Dev nD) : Vec F S640000 .i32 := V c (Pipeline.arrRef spec1 2)

abbrev blkX1 (c : Dev nD) (t : Fin cfg1.N) : Vec F S20096x128 .f32 := iblk1 V c 0 t
abbrev blkS1 (c : Dev nD) (t : Fin cfg1.N) : Vec F S128 .i32 := iblk1 V c 1 t
abbrev blkD1 (c : Dev nD) (t : Fin cfg1.N) : Vec F S128 .i32 := iblk1 V c 2 t

theorem blkX1_eq (c : Dev nD) (t : Fin cfg1.N) : blkX1 V c t = xtA1 V c := by
  obtain ⟨e0, e1⟩ := idx1_0 t
  funext j
  unfold blkX1 iblk1
  rw [View.read_apply]
  show V c (Pipeline.arrRef spec1 0) _ = V c (Pipeline.arrRef spec1 0) j
  congr 1
  funext a
  apply Fin.ext
  match a with
  | ⟨0, _⟩ => show win1_0.index t (0 : Fin 2) * 20096 + 1 * (j 0).val = (j 0).val; rw [e0]; omega
  | ⟨1, _⟩ => show win1_0.index t (1 : Fin 2) * 128 + 1 * (j 1).val = (j 1).val; rw [e1]; omega

theorem blkS1_apply (c : Dev nD) (t : Fin cfg1.N) (l : Fin 128) (h : t.val * 128 + l.val < 640000) :
    blkS1 V c t (ix1 l) = srcA1 V c (ix1 ⟨t.val * 128 + l.val, h⟩) := by
  have e0 := idx1_1 t
  unfold blkS1 iblk1
  rw [View.read_apply]
  show V c (Pipeline.arrRef spec1 1) _ = V c (Pipeline.arrRef spec1 1) _
  congr 1
  funext a
  apply Fin.ext
  match a with
  | ⟨0, _⟩ => show win1_1.index t (0 : Fin 1) * 128 + 1 * l.val = t.val * 128 + l.val; rw [e0]; omega

theorem blkD1_apply (c : Dev nD) (t : Fin cfg1.N) (l : Fin 128) (h : t.val * 128 + l.val < 640000) :
    blkD1 V c t (ix1 l) = dstA1 V c (ix1 ⟨t.val * 128 + l.val, h⟩) := by
  have e0 := idx1_2 t
  unfold blkD1 iblk1
  rw [View.read_apply]
  show V c (Pipeline.arrRef spec1 2) _ = V c (Pipeline.arrRef spec1 2) _
  congr 1
  funext a
  apply Fin.ext
  match a with
  | ⟨0, _⟩ => show win1_2.index t (0 : Fin 1) * 128 + 1 * l.val = t.val * 128 + l.val; rw [e0]; omega

end

section
variable (V : (c : Dev nD) → (b : Ref sig .tc) → Buf (Elt F) ((c : Thread nD τ).loc b))

abbrev prevPt1 (t : Fin cfg1.N) : Fin cfg1.N := ⟨t.val - 1, Nat.lt_of_le_of_lt (Nat.sub_le _ _) t.isLt⟩

abbrev outAt1 (c : Dev nD) (t : Fin cfg1.N) : Vec F S1x20096x128 .f32 := (outsAt1 V c t.val t.isLt).1
abbrev hiAt1 (c : Dev nD) (t : Fin cfg1.N) : Vec F S20096x128 .bf16 := (outsAt1 V c t.val t.isLt).2.1
abbrev loAt1 (c : Dev nD) (t : Fin cfg1.N) : Vec F S20096x128 .bf16 := (outsAt1 V c t.val t.isLt).2.2.1
abbrev accOf1 (c : Dev nD) (t : Fin cfg1.N) : Vec F S20096x128 .f32 := (outsAt1 V c t.val t.isLt).2.2.2

abbrev upd1 (x1 x2 : Vec F S128 .i32) (h l : Vec F S20096x128 .bf16) (a : Vec F S20096x128 .f32) : Vec F S20096x128 .f32 :=
  k0_pay1 (k0_pay8 x1 h l) (k0_pay9 x2) (k0_pay10 x1 x2 h l a) (constant S20096x128 .f32 0x00000000#32)

theorem outs1_A (c : Dev nD) (t : Fin cfg1.N) (h0 : t.val % 2500 = 0) (h1 : ¬t.val % 2500 = 2499) :
    hiAt1 V c t = k0_pay4 (blkX1 V c t) ∧ loAt1 V c t = k0_pay5 (blkX1 V c t)
      ∧ accOf1 V c t = upd1 (blkS1 V c t) (blkD1 V c t) (k0_pay4 (blkX1 V c t)) (k0_pay5 (blkX1 V c t)) k0_pay6 := by
  unfold hiAt1 loAt1 accOf1
  rw [outsAt1_A V c t h0 h1]
  dsimp only [at1]
  exact ⟨sout0_A_0_eq .., sout0_A_1_eq .., sout0_A_2_eq ..⟩

theorem outs1_B (c : Dev nD) (t : Fin cfg1.N) (h0 : ¬t.val % 2500 = 0) (h1 : ¬t.val % 2500 = 2499) :
    hiAt1 V c t = hiAt1 V c (prevPt1 t) ∧ loAt1 V c t = loAt1 V c (prevPt1 t)
      ∧ accOf1 V c t = upd1 (blkS1 V c t) (blkD1 V c t) (hiAt1 V c (prevPt1 t)) (loAt1 V c (prevPt1 t)) (accOf1 V c (prevPt1 t)) := by
  unfold hiAt1 loAt1 accOf1
  rw [outsAt1_B V c t h0 h1]
  dsimp only [at1]
  exact ⟨rfl, rfl, sout0_B_2_eq ..⟩

theorem outs1_C (c : Dev nD) (t : Fin cfg1.N) (h0 : ¬t.val % 2500 = 0) (h1 : t.val % 2500 = 2499) :
    hiAt1 V c t = hiAt1 V c (prevPt1 t) ∧ loAt1 V c t = loAt1 V c (prevPt1 t)
      ∧ accOf1 V c t = upd1 (blkS1 V c t) (blkD1 V c t) (hiAt1 V c (prevPt1 t)) (loAt1 V c (prevPt1 t)) (accOf1 V c (prevPt1 t))
      ∧ outAt1 V c t = k0_pay2 (upd1 (blkS1 V c t) (blkD1 V c t) (hiAt1 V c (prevPt1 t)) (loAt1 V c (prevPt1 t)) (accOf1 V c (prevPt1 t))) := by
  unfold hiAt1 loAt1 accOf1 outAt1
  rw [outsAt1_C V c t h0 h1]
  dsimp only [at1]
  exact ⟨rfl, rfl, sout0_C_2_eq .., out0_C_3_eq ..⟩

end
section
variable (V : (c : Dev nD) → (b : Ref sig .tc) → Buf (Elt Ideal) ((c : Thread nD τ).loc b))

-- after point t the accumulator is the sum of its half's block contributions up to t
def Inv1 (c : Dev nD) (t : Fin cfg1.N) : Prop :=
  hiAt1 V c t = k0_pay4 (F := Ideal) (xtA1 V c) ∧ loAt1 V c t = k0_pay5 (F := Ideal) (xtA1 V c)
    ∧ accOf1 V c t = accAt (xtA1 V c) (srcA1 V c) (dstA1 V c) t.val

theorem inv1_step (c : Dev nD) (hxt : Cert.Spec.IsReal (xtA1 V c)) (t : Fin cfg1.N) (hh : t.val / 2500 < 2) (hj : t.val % 2500 < 2500)
    (hb0 : blkX1 V c t = xtA1 V c)
    (hb1 : blkS1 V c t = Cert.Pad.blockOf1 (srcA1 V c) ⟨t.val / 2500, hh⟩ ⟨t.val % 2500, hj⟩)
    (hb2 : blkD1 V c t = Cert.Pad.blockOf1 (dstA1 V c) ⟨t.val / 2500, hh⟩ ⟨t.val % 2500, hj⟩)
    (hprev : ¬t.val % 2500 = 0 → Inv1 V c (prevPt1 t)) : Inv1 V c t := by
  by_cases h0 : t.val % 2500 = 0
  · obtain ⟨a, b, d⟩ := outs1_A V c t h0 (by omega)
    refine ⟨a.trans (congrArg _ hb0), b.trans (congrArg _ hb0), d.trans ?_⟩
    rw [hb0, hb1, hb2]
    refine (Cert.KernelIdeal.PayIdeal.step_eq (xtA1 V c) hxt (Cert.Pad.blockOf1 (srcA1 V c) ⟨t.val / 2500, hh⟩ ⟨t.val % 2500, hj⟩)
      (Cert.Pad.blockOf1 (dstA1 V c) ⟨t.val / 2500, hh⟩ ⟨t.val % 2500, hj⟩) (k0_pay6 (F := Ideal))).trans ?_
    rw [accAt_first _ _ _ _ h0, blockTerm_at _ _ _ _ hh hj, Cert.KernelIdeal.PayIdeal.pay6_eq]
  · obtain ⟨ph, pl, pa⟩ := hprev h0
    have pa' : accOf1 V c (prevPt1 t) = accAt (xtA1 V c) (srcA1 V c) (dstA1 V c) (t.val - 1) := pa
    by_cases h1 : t.val % 2500 = 2499
    · obtain ⟨a, b, d, -⟩ := outs1_C V c t h0 h1
      refine ⟨a.trans ph, b.trans pl, d.trans ?_⟩
      rw [ph, pl, pa', hb1, hb2]
      refine (Cert.KernelIdeal.PayIdeal.step_eq (xtA1 V c) hxt (Cert.Pad.blockOf1 (srcA1 V c) ⟨t.val / 2500, hh⟩ ⟨t.val % 2500, hj⟩)
        (Cert.Pad.blockOf1 (dstA1 V c) ⟨t.val / 2500, hh⟩ ⟨t.val % 2500, hj⟩) (accAt (xtA1 V c) (srcA1 V c) (dstA1 V c) (t.val - 1))).trans ?_
      rw [accAt_next _ _ _ _ h0, blockTerm_at _ _ _ _ hh hj]
    · obtain ⟨a, b, d⟩ := outs1_B V c t h0 h1
      refine ⟨a.trans ph, b.trans pl, d.trans ?_⟩
      rw [ph, pl, pa', hb1, hb2]
      refine (Cert.KernelIdeal.PayIdeal.step_eq (xtA1 V c) hxt (Cert.Pad.blockOf1 (srcA1 V c) ⟨t.val / 2500, hh⟩ ⟨t.val % 2500, hj⟩)
        (Cert.Pad.blockOf1 (dstA1 V c) ⟨t.val / 2500, hh⟩ ⟨t.val % 2500, hj⟩) (accAt (xtA1 V c) (srcA1 V c) (dstA1 V c) (t.val - 1))).trans ?_
      rw [accAt_next _ _ _ _ h0, blockTerm_at _ _ _ _ hh hj]

end
section
variable (V : (c : Dev nD) → (b : Ref sig .tc) → Buf (Elt Ideal) ((c : Thread nD τ).loc b))

theorem inv1_all (c : Dev nD) (hxt : Cert.Spec.IsReal (xtA1 V c))
    (hb0 : ∀ t : Fin cfg1.N, blkX1 V c t = xtA1 V c)
    (hb1 : ∀ (t : Fin cfg1.N) (hh : t.val / 2500 < 2) (hj : t.val % 2500 < 2500),
      blkS1 V c t = Cert.Pad.blockOf1 (srcA1 V c) ⟨t.val / 2500, hh⟩ ⟨t.val % 2500, hj⟩)
    (hb2 : ∀ (t : Fin cfg1.N) (hh : t.val / 2500 < 2) (hj : t.val % 2500 < 2500),
      blkD1 V c t = Cert.Pad.blockOf1 (dstA1 V c) ⟨t.val / 2500, hh⟩ ⟨t.val % 2500, hj⟩) :
    ∀ (n : ℕ) (t : Fin cfg1.N), t.val = n → Inv1 V c t := by
  have hN : cfg1.N = 5000 := N_1
  intro n
  induction n with
  | zero =>
    intro t ht
    have hlt : t.val < 5000 := lt_of_lt_of_eq t.isLt hN
    exact inv1_step V c hxt t (by omega) (by omega) (hb0 t) (hb1 t _ _) (hb2 t _ _) (fun h => absurd (by rw [ht]) h)
  | succ n ih =>
    intro t ht
    have hlt : t.val < 5000 := lt_of_lt_of_eq t.isLt hN
    exact inv1_step V c hxt t (by omega) (by omega) (hb0 t) (hb1 t _ _) (hb2 t _ _)
      (fun _ => ih (prevPt1 t) (by show t.val - 1 = n; omega))

theorem out1_last (c : Dev nD) (hxt : Cert.Spec.IsReal (xtA1 V c))
    (hb0 : ∀ t : Fin cfg1.N, blkX1 V c t = xtA1 V c)
    (hb1 : ∀ (t : Fin cfg1.N) (hh : t.val / 2500 < 2) (hj : t.val % 2500 < 2500),
      blkS1 V c t = Cert.Pad.blockOf1 (srcA1 V c) ⟨t.val / 2500, hh⟩ ⟨t.val % 2500, hj⟩)
    (hb2 : ∀ (t : Fin cfg1.N) (hh : t.val / 2500 < 2) (hj : t.val % 2500 < 2500),
      blkD1 V c t = Cert.Pad.blockOf1 (dstA1 V c) ⟨t.val / 2500, hh⟩ ⟨t.val % 2500, hj⟩)
    (t : Fin cfg1.N) (h1 : t.val % 2500 = 2499) (hh : t.val / 2500 < 2) :
    (outsAt1 V c t.val t.isLt).1 = fun i : S1x20096x128.Idx =>
      halfSum (xtA1 V c) (srcA1 V c) (dstA1 V c) ⟨t.val / 2500, hh⟩ (ix2 ⟨(i 1).val, (i 1).isLt⟩ ⟨(i 2).val, (i 2).isLt⟩) := by
  have h0 : ¬t.val % 2500 = 0 := by omega
  obtain ⟨-, -, d, o⟩ := outs1_C V c t h0 h1
  have inv := inv1_all V c hxt hb0 hb1 hb2 t.val t rfl
  have e : outAt1 V c t = k0_pay2 (F := Ideal) (accOf1 V c t) := o.trans (congrArg (k0_pay2 (F := Ideal)) d.symm)
  show outAt1 V c t = _
  rw [e, inv.2.2, accAt_last _ _ _ _ h1 hh]
  funext i
  exact Cert.KernelIdeal.PayIdeal.pay2_apply _ i

end

section
variable (V : (c : Dev nD) → (b : Ref sig .tc) → Buf (Elt Ideal) ((c : Thread nD τ).loc b))

theorem blkS1_eq (c : Dev nD) (t : Fin cfg1.N) (hh : t.val / 2500 < 2) (hj : t.val % 2500 < 2500) :
    blkS1 V c t = Cert.Pad.blockOf1 (srcA1 V c) ⟨t.val / 2500, hh⟩ ⟨t.val % 2500, hj⟩ := by
  funext y
  obtain ⟨l, rfl⟩ : ∃ l : Fin 128, y = ix1 l := ⟨y 0, eq_ix1 y⟩
  have hb : t.val * 128 + l.val < 640000 := by have := l.isLt; omega
  rw [blkS1_apply V c t l hb]
  unfold Cert.Pad.blockOf1
  refine congrArg (srcA1 V c) (congrArg (ix1 (n := 640000)) (Fin.ext ?_))
  show t.val * 128 + l.val = (t.val / 2500 * 2500 + t.val % 2500) * 128 + l.val
  omega

theorem blkD1_eq (c : Dev nD) (t : Fin cfg1.N) (hh : t.val / 2500 < 2) (hj : t.val % 2500 < 2500) :
    blkD1 V c t = Cert.Pad.blockOf1 (dstA1 V c) ⟨t.val / 2500, hh⟩ ⟨t.val % 2500, hj⟩ := by
  funext y
  obtain ⟨l, rfl⟩ : ∃ l : Fin 128, y = ix1 l := ⟨y 0, eq_ix1 y⟩
  have hb : t.val * 128 + l.val < 640000 := by have := l.isLt; omega
  rw [blkD1_apply V c t l hb]
  unfold Cert.Pad.blockOf1
  refine congrArg (dstA1 V c) (congrArg (ix1 (n := 640000)) (Fin.ext ?_))
  show t.val * 128 + l.val = (t.val / 2500 * 2500 + t.val % 2500) * 128 + l.val
  omega

theorem mem_blk1_3 (t : Fin cfg1.N) (i : S2x20096x128.Idx) :
    i ∈ ((cfg1.win 3).blk t).view.set ↔ ∀ a : Fin 3, win1_3.index t a * S1x20096x128.size a ≤ (i a).val ∧ (i a).val < win1_3.index t a * S1x20096x128.size a + S1x20096x128.size a := by
  show i ∈ ((View.whole main_v27).slice (win1_3.rect t)).set ↔ _
  rw [View.set_slice_whole, Rect.mem_set_unit]
  exact Iff.rfl

theorem flushed1_3_eq (c : Dev nD) (hxt : Cert.Spec.IsReal (xtA1 V c)) (t : Fin cfg1.N) (hf : (cfg1.win 3).flush t = true) :
    (dat1 V c).flushed 3 t = ((cfg1.win 3).blk t).view.read (Elt Ideal) (Cert.Pad.outOf1 (xtA1 V c) (srcA1 V c) (dstA1 V c)) := by
  have hN : cfg1.N = 5000 := N_1
  have hlt : t.val < 5000 := lt_of_lt_of_eq t.isLt hN
  have h1 : t.val % 2500 = 2499 := (flush1_3 t).mp hf
  have hh : t.val / 2500 < 2 := by omega
  obtain ⟨e0, e1, e2⟩ := idx1_3 t
  show (cfg1.win 3).cut (grid1.coords t) ((dat1 V c).after 3 t) = _
  rw [after1_3, out1_last V c hxt (blkX1_eq V c) (blkS1_eq V c) (blkD1_eq V c) t h1 hh]
  funext y
  rw [View.read_apply]
  have k0 : ((((cfg1.win 3).blk t).view.emb y) 0).val = t.val / 2500 := by
    show win1_3.index t (0 : Fin 3) * 1 + 1 * (y 0).val = t.val / 2500
    have : (y 0).val < 1 := (y 0).isLt
    rw [e0]; omega
  have k1 : ((((cfg1.win 3).blk t).view.emb y) 1).val = (y 1).val := by
    show win1_3.index t (1 : Fin 3) * 20096 + 1 * (y 1).val = (y 1).val
    rw [e1]; omega
  have k2 : ((((cfg1.win 3).blk t).view.emb y) 2).val = (y 2).val := by
    show win1_3.index t (2 : Fin 3) * 128 + 1 * (y 2).val = (y 2).val
    rw [e2]; omega
  exact (outOf1_apply (xtA1 V c) (srcA1 V c) (dstA1 V c) (((cfg1.win 3).blk t).view.emb y) ⟨t.val / 2500, hh⟩
    ⟨(y 1).val, (y 1).isLt⟩ ⟨(y 2).val, (y 2).isLt⟩ k0 k1 k2).symm

theorem mem_blk1_3_of_half (t : Fin cfg1.N) (i : S2x20096x128.Idx) (h : t.val / 2500 = (i 0).val) :
    i ∈ ((cfg1.win 3).blk t).view.set := by
  obtain ⟨e0, e1, e2⟩ := idx1_3 t
  have hi1 : (i 1).val < 20096 := (i 1).isLt
  have hi2 : (i 2).val < 128 := (i 2).isLt
  rw [mem_blk1_3]
  intro a
  match a with
  | ⟨0, _⟩ => show win1_3.index t (0 : Fin 3) * 1 ≤ (i 0).val ∧ (i 0).val < win1_3.index t (0 : Fin 3) * 1 + 1; rw [e0, h]; omega
  | ⟨1, _⟩ => show win1_3.index t (1 : Fin 3) * 20096 ≤ (i 1).val ∧ (i 1).val < win1_3.index t (1 : Fin 3) * 20096 + 20096; rw [e1]; omega
  | ⟨2, _⟩ => show win1_3.index t (2 : Fin 3) * 128 ≤ (i 2).val ∧ (i 2).val < win1_3.index t (2 : Fin 3) * 128 + 128; rw [e2]; omega

theorem arrAt1_out (c : Dev nD) (hxt : Cert.Spec.IsReal (xtA1 V c)) :
    ((dat1 V c).arrAt 3 cfg1.N : Cert.Contrib.SO.Idx → EReal) = Cert.Pad.outOf1 (xtA1 V c) (srcA1 V c) (dstA1 V c) := by
  have hN : cfg1.N = 5000 := N_1
  refine (dat1 V c).arrAt_eq_of_cover 3 (Cert.Pad.outOf1 (xtA1 V c) (srcA1 V c) (dstA1 V c)) (fun t hf => flushed1_3_eq V c hxt t hf)
    fun (i : S2x20096x128.Idx) => ?_
  have hi0 : (i 0).val < 2 := (i 0).isLt
  have hlt : (i 0).val * 2500 + 2499 < cfg1.N := by rw [hN]; omega
  exact ⟨⟨(i 0).val * 2500 + 2499, hlt⟩, (flush1_3 _).mpr (by show ((i 0).val * 2500 + 2499) % 2500 = 2499; omega),
    mem_blk1_3_of_half ⟨(i 0).val * 2500 + 2499, hlt⟩ i (by show ((i 0).val * 2500 + 2499) / 2500 = (i 0).val; omega)⟩

end

end Cert.KernelIdeal.Gen

end
-- ==== Proof.KI.R2Value.lean ====
import proofs.«408425_j84189948936514_2_alg».proof.Proof.KI.R2Body
import proofs.«408425_j84189948936514_2_alg».proof.Proof.KI.PayIdeal
import proofs.«408425_j84189948936514_2_alg».proof.Proof.KI.AccSum
import proofs.«408425_j84189948936514_2_alg».proof.Proof.KI.PieceVal
import Idealize.ShloMosaic.Lib.Pipeline.Value
import Idealize.ShloMosaic.Lib.ValueIdx
import Idealize.ShloMosaic.Lib.Tactic

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AccSum
open scoped BigOperators

variable {F : FTy → Type} [FloatOps F]

theorem idx2_0 : ∀ t : Fin cfg2.N, win2_0.index t (0 : Fin 2) = 0 ∧ win2_0.index t (1 : Fin 2) = 0 := idx_0
theorem idx2_1 : ∀ t : Fin cfg2.N, win2_1.index t (0 : Fin 1) = t.val := idx_1
theorem idx2_2 : ∀ t : Fin cfg2.N, win2_2.index t (0 : Fin 1) = t.val := idx_2
theorem idx2_3 : ∀ t : Fin cfg2.N, win2_3.index t (0 : Fin 3) = t.val / 2500 ∧ win2_3.index t (1 : Fin 3) = 0 ∧ win2_3.index t (2 : Fin 3) = 0 := idx_3

section
variable (V : (c : Dev nD) → (b : Ref sig .tc) → Buf (Elt F) ((c : Thread nD τ).loc b))

abbrev xtA2 (c : Dev nD) : Vec F S20096x128 .f32 := V c (Pipeline.arrRef spec2 0)
abbrev srcA2 (c : Dev nD) : Vec F S640000 .i32 := V c (Pipeline.arrRef spec2 1)
abbrev dstA2 (c : Dev nD) : Vec F S640000 .i32 := V c (Pipeline.arrRef spec2 2)

abbrev blkX2 (c : Dev nD) (t : Fin cfg2.N) : Vec F S20096x128 .f32 := iblk2 V c 0 t
abbrev blkS2 (c : Dev nD) (t : Fin cfg2.N) : Vec F S128 .i32 := iblk2 V c 1 t
abbrev blkD2 (c : Dev nD) (t : Fin cfg2.N) : Vec F S128 .i32 := iblk2 V c 2 t

theorem blkX2_eq (c : Dev nD) (t : Fin cfg2.N) : blkX2 V c t = xtA2 V c := by
  obtain ⟨e0, e1⟩ := idx2_0 t
  funext j
  unfold blkX2 iblk2
  rw [View.read_apply]
  show V c (Pipeline.arrRef spec2 0) _ = V c (Pipeline.arrRef spec2 0) j
  congr 1
  funext a
  apply Fin.ext
  match a with
  | ⟨0, _⟩ => show win2_0.index t (0 : Fin 2) * 20096 + 1 * (j 0).val = (j 0).val; rw [e0]; omega
  | ⟨1, _⟩ => show win2_0.index t (1 : Fin 2) * 128 + 1 * (j 1).val = (j 1).val; rw [e1]; omega

theorem blkS2_apply (c : Dev nD) (t : Fin cfg2.N) (l : Fin 128) (h : t.val * 128 + l.val < 640000) :
    blkS2 V c t (ix1 l) = srcA2 V c (ix1 ⟨t.val * 128 + l.val, h⟩) := by
  have e0 := idx2_1 t
  unfold blkS2 iblk2
  rw [View.read_apply]
  show V c (Pipeline.arrRef spec2 1) _ = V c (Pipeline.arrRef spec2 1) _
  congr 1
  funext a
  apply Fin.ext
  match a with
  | ⟨0, _⟩ => show win2_1.index t (0 : Fin 1) * 128 + 1 * l.val = t.val * 128 + l.val; rw [e0]; omega

theorem blkD2_apply (c : Dev nD) (t : Fin cfg2.N) (l : Fin 128) (h : t.val * 128 + l.val < 640000) :
    blkD2 V c t (ix1 l) = dstA2 V c (ix1 ⟨t.val * 128 + l.val, h⟩) := by
  have e0 := idx2_2 t
  unfold blkD2 iblk2
  rw [View.read_apply]
  show V c (Pipeline.arrRef spec2 2) _ = V c (Pipeline.arrRef spec2 2) _
  congr 1
  funext a
  apply Fin.ext
  match a with
  | ⟨0, _⟩ => show win2_2.index t (0 : Fin 1) * 128 + 1 * l.val = t.val * 128 + l.val; rw [e0]; omega

end

section
variable (V : (c : Dev nD) → (b : Ref sig .tc) → Buf (Elt F) ((c : Thread nD τ).loc b))

abbrev prevPt2 (t : Fin cfg2.N) : Fin cfg2.N := ⟨t.val - 1, Nat.lt_of_le_of_lt (Nat.sub_le _ _) t.isLt⟩

abbrev outAt2 (c : Dev nD) (t : Fin cfg2.N) : Vec F S1x20096x128 .f32 := (outsAt2 V c t.val t.isLt).1
abbrev hiAt2 (c : Dev nD) (t : Fin cfg2.N) : Vec F S20096x128 .bf16 := (outsAt2 V c t.val t.isLt).2.1
abbrev loAt2 (c : Dev nD) (t : Fin cfg2.N) : Vec F S20096x128 .bf16 := (outsAt2 V c t.val t.isLt).2.2.1
abbrev accOf2 (c : Dev nD) (t : Fin cfg2.N) : Vec F S20096x128 .f32 := (outsAt2 V c t.val t.isLt).2.2.2

abbrev upd2 (x1 x2 : Vec F S128 .i32) (h l : Vec F S20096x128 .bf16) (a : Vec F S20096x128 .f32) : Vec F S20096x128 .f32 :=
  k0_pay1 (k0_pay8 x1 h l) (k0_pay9 x2) (k0_pay10 x1 x2 h l a) (constant S20096x128 .f32 0x00000000#32)

theorem outs2_A (c : Dev nD) (t : Fin cfg2.N) (h0 : t.val % 2500 = 0) (h1 : ¬t.val % 2500 = 2499) :
    hiAt2 V c t = k0_pay4 (blkX2 V c t) ∧ loAt2 V c t = k0_pay5 (blkX2 V c t)
      ∧ accOf2 V c t = upd2 (blkS2 V c t) (blkD2 V c t) (k0_pay4 (blkX2 V c t)) (k0_pay5 (blkX2 V c t)) k0_pay6 := by
  unfold hiAt2 loAt2 accOf2
  rw [outsAt2_A V c t h0 h1]
  dsimp only [at2]
  exact ⟨sout0_A_0_eq .., sout0_A_1_eq .., sout0_A_2_eq ..⟩

theorem outs2_B (c : Dev nD) (t : Fin cfg2.N) (h0 : ¬t.val % 2500 = 0) (h1 : ¬t.val % 2500 = 2499) :
    hiAt2 V c t = hiAt2 V c (prevPt2 t) ∧ loAt2 V c t = loAt2 V c (prevPt2 t)
      ∧ accOf2 V c t = upd2 (blkS2 V c t) (blkD2 V c t) (hiAt2 V c (prevPt2 t)) (loAt2 V c (prevPt2 t)) (accOf2 V c (prevPt2 t)) := by
  unfold hiAt2 loAt2 accOf2
  rw [outsAt2_B V c t h0 h1]
  dsimp only [at2]
  exact ⟨rfl, rfl, sout0_B_2_eq ..⟩

theorem outs2_C (c : Dev nD) (t : Fin cfg2.N) (h0 : ¬t.val % 2500 = 0) (h1 : t.val % 2500 = 2499) :
    hiAt2 V c t = hiAt2 V c (prevPt2 t) ∧ loAt2 V c t = loAt2 V c (prevPt2 t)
      ∧ accOf2 V c t = upd2 (blkS2 V c t) (blkD2 V c t) (hiAt2 V c (prevPt2 t)) (loAt2 V c (prevPt2 t)) (accOf2 V c (prevPt2 t))
      ∧ outAt2 V c t = k0_pay2 (upd2 (blkS2 V c t) (blkD2 V c t) (hiAt2 V c (prevPt2 t)) (loAt2 V c (prevPt2 t)) (accOf2 V c (prevPt2 t))) := by
  unfold hiAt2 loAt2 accOf2 outAt2
  rw [outsAt2_C V c t h0 h1]
  dsimp only [at2]
  exact ⟨rfl, rfl, sout0_C_2_eq .., out0_C_3_eq ..⟩

end
section
variable (V : (c : Dev nD) → (b : Ref sig .tc) → Buf (Elt Ideal) ((c : Thread nD τ).loc b))

-- after point t the accumulator is the sum of its half's block contributions up to t
def Inv2 (c : Dev nD) (t : Fin cfg2.N) : Prop :=
  hiAt2 V c t = k0_pay4 (F := Ideal) (xtA2 V c) ∧ loAt2 V c t = k0_pay5 (F := Ideal) (xtA2 V c)
    ∧ accOf2 V c t = accAt (xtA2 V c) (srcA2 V c) (dstA2 V c) t.val

theorem inv2_step (c : Dev nD) (hxt : Cert.Spec.IsReal (xtA2 V c)) (t : Fin cfg2.N) (hh : t.val / 2500 < 2) (hj : t.val % 2500 < 2500)
    (hb0 : blkX2 V c t = xtA2 V c)
    (hb1 : blkS2 V c t = Cert.Pad.blockOf1 (srcA2 V c) ⟨t.val / 2500, hh⟩ ⟨t.val % 2500, hj⟩)
    (hb2 : blkD2 V c t = Cert.Pad.blockOf1 (dstA2 V c) ⟨t.val / 2500, hh⟩ ⟨t.val % 2500, hj⟩)
    (hprev : ¬t.val % 2500 = 0 → Inv2 V c (prevPt2 t)) : Inv2 V c t := by
  by_cases h0 : t.val % 2500 = 0
  · obtain ⟨a, b, d⟩ := outs2_A V c t h0 (by omega)
    refine ⟨a.trans (congrArg _ hb0), b.trans (congrArg _ hb0), d.trans ?_⟩
    rw [hb0, hb1, hb2]
    refine (Cert.KernelIdeal.PayIdeal.step_eq (xtA2 V c) hxt (Cert.Pad.blockOf1 (srcA2 V c) ⟨t.val / 2500, hh⟩ ⟨t.val % 2500, hj⟩)
      (Cert.Pad.blockOf1 (dstA2 V c) ⟨t.val / 2500, hh⟩ ⟨t.val % 2500, hj⟩) (k0_pay6 (F := Ideal))).trans ?_
    rw [accAt_first _ _ _ _ h0, blockTerm_at _ _ _ _ hh hj, Cert.KernelIdeal.PayIdeal.pay6_eq]
  · obtain ⟨ph, pl, pa⟩ := hprev h0
    have pa' : accOf2 V c (prevPt2 t) = accAt (xtA2 V c) (srcA2 V c) (dstA2 V c) (t.val - 1) := pa
    by_cases h1 : t.val % 2500 = 2499
    · obtain ⟨a, b, d, -⟩ := outs2_C V c t h0 h1
      refine ⟨a.trans ph, b.trans pl, d.trans ?_⟩
      rw [ph, pl, pa', hb1, hb2]
      refine (Cert.KernelIdeal.PayIdeal.step_eq (xtA2 V c) hxt (Cert.Pad.blockOf1 (srcA2 V c) ⟨t.val / 2500, hh⟩ ⟨t.val % 2500, hj⟩)
        (Cert.Pad.blockOf1 (dstA2 V c) ⟨t.val / 2500, hh⟩ ⟨t.val % 2500, hj⟩) (accAt (xtA2 V c) (srcA2 V c) (dstA2 V c) (t.val - 1))).trans ?_
      rw [accAt_next _ _ _ _ h0, blockTerm_at _ _ _ _ hh hj]
    · obtain ⟨a, b, d⟩ := outs2_B V c t h0 h1
      refine ⟨a.trans ph, b.trans pl, d.trans ?_⟩
      rw [ph, pl, pa', hb1, hb2]
      refine (Cert.KernelIdeal.PayIdeal.step_eq (xtA2 V c) hxt (Cert.Pad.blockOf1 (srcA2 V c) ⟨t.val / 2500, hh⟩ ⟨t.val % 2500, hj⟩)
        (Cert.Pad.blockOf1 (dstA2 V c) ⟨t.val / 2500, hh⟩ ⟨t.val % 2500, hj⟩) (accAt (xtA2 V c) (srcA2 V c) (dstA2 V c) (t.val - 1))).trans ?_
      rw [accAt_next _ _ _ _ h0, blockTerm_at _ _ _ _ hh hj]

end
section
variable (V : (c : Dev nD) → (b : Ref sig .tc) → Buf (Elt Ideal) ((c : Thread nD τ).loc b))

theorem inv2_all (c : Dev nD) (hxt : Cert.Spec.IsReal (xtA2 V c))
    (hb0 : ∀ t : Fin cfg2.N, blkX2 V c t = xtA2 V c)
    (hb1 : ∀ (t : Fin cfg2.N) (hh : t.val / 2500 < 2) (hj : t.val % 2500 < 2500),
      blkS2 V c t = Cert.Pad.blockOf1 (srcA2 V c) ⟨t.val / 2500, hh⟩ ⟨t.val % 2500, hj⟩)
    (hb2 : ∀ (t : Fin cfg2.N) (hh : t.val / 2500 < 2) (hj : t.val % 2500 < 2500),
      blkD2 V c t = Cert.Pad.blockOf1 (dstA2 V c) ⟨t.val / 2500, hh⟩ ⟨t.val % 2500, hj⟩) :
    ∀ (n : ℕ) (t : Fin cfg2.N), t.val = n → Inv2 V c t := by
  have hN : cfg2.N = 5000 := N_2
  intro n
  induction n with
  | zero =>
    intro t ht
    have hlt : t.val < 5000 := lt_of_lt_of_eq t.isLt hN
    exact inv2_step V c hxt t (by omega) (by omega) (hb0 t) (hb1 t _ _) (hb2 t _ _) (fun h => absurd (by rw [ht]) h)
  | succ n ih =>
    intro t ht
    have hlt : t.val < 5000 := lt_of_lt_of_eq t.isLt hN
    exact inv2_step V c hxt t (by omega) (by omega) (hb0 t) (hb1 t _ _) (hb2 t _ _)
      (fun _ => ih (prevPt2 t) (by show t.val - 1 = n; omega))

theorem out2_last (c : Dev nD) (hxt : Cert.Spec.IsReal (xtA2 V c))
    (hb0 : ∀ t : Fin cfg2.N, blkX2 V c t = xtA2 V c)
    (hb1 : ∀ (t : Fin cfg2.N) (hh : t.val / 2500 < 2) (hj : t.val % 2500 < 2500),
      blkS2 V c t = Cert.Pad.blockOf1 (srcA2 V c) ⟨t.val / 2500, hh⟩ ⟨t.val % 2500, hj⟩)
    (hb2 : ∀ (t : Fin cfg2.N) (hh : t.val / 2500 < 2) (hj : t.val % 2500 < 2500),
      blkD2 V c t = Cert.Pad.blockOf1 (dstA2 V c) ⟨t.val / 2500, hh⟩ ⟨t.val % 2500, hj⟩)
    (t : Fin cfg2.N) (h1 : t.val % 2500 = 2499) (hh : t.val / 2500 < 2) :
    (outsAt2 V c t.val t.isLt).1 = fun i : S1x20096x128.Idx =>
      halfSum (xtA2 V c) (srcA2 V c) (dstA2 V c) ⟨t.val / 2500, hh⟩ (ix2 ⟨(i 1).val, (i 1).isLt⟩ ⟨(i 2).val, (i 2).isLt⟩) := by
  have h0 : ¬t.val % 2500 = 0 := by omega
  obtain ⟨-, -, d, o⟩ := outs2_C V c t h0 h1
  have inv := inv2_all V c hxt hb0 hb1 hb2 t.val t rfl
  have e : outAt2 V c t = k0_pay2 (F := Ideal) (accOf2 V c t) := o.trans (congrArg (k0_pay2 (F := Ideal)) d.symm)
  show outAt2 V c t = _
  rw [e, inv.2.2, accAt_last _ _ _ _ h1 hh]
  funext i
  exact Cert.KernelIdeal.PayIdeal.pay2_apply _ i

end

section
variable (V : (c : Dev nD) → (b : Ref sig .tc) → Buf (Elt Ideal) ((c : Thread nD τ).loc b))

theorem blkS2_eq (c : Dev nD) (t : Fin cfg2.N) (hh : t.val / 2500 < 2) (hj : t.val % 2500 < 2500) :
    blkS2 V c t = Cert.Pad.blockOf1 (srcA2 V c) ⟨t.val / 2500, hh⟩ ⟨t.val % 2500, hj⟩ := by
  funext y
  obtain ⟨l, rfl⟩ : ∃ l : Fin 128, y = ix1 l := ⟨y 0, eq_ix1 y⟩
  have hb : t.val * 128 + l.val < 640000 := by have := l.isLt; omega
  rw [blkS2_apply V c t l hb]
  unfold Cert.Pad.blockOf1
  refine congrArg (srcA2 V c) (congrArg (ix1 (n := 640000)) (Fin.ext ?_))
  show t.val * 128 + l.val = (t.val / 2500 * 2500 + t.val % 2500) * 128 + l.val
  omega

theorem blkD2_eq (c : Dev nD) (t : Fin cfg2.N) (hh : t.val / 2500 < 2) (hj : t.val % 2500 < 2500) :
    blkD2 V c t = Cert.Pad.blockOf1 (dstA2 V c) ⟨t.val / 2500, hh⟩ ⟨t.val % 2500, hj⟩ := by
  funext y
  obtain ⟨l, rfl⟩ : ∃ l : Fin 128, y = ix1 l := ⟨y 0, eq_ix1 y⟩
  have hb : t.val * 128 + l.val < 640000 := by have := l.isLt; omega
  rw [blkD2_apply V c t l hb]
  unfold Cert.Pad.blockOf1
  refine congrArg (dstA2 V c) (congrArg (ix1 (n := 640000)) (Fin.ext ?_))
  show t.val * 128 + l.val = (t.val / 2500 * 2500 + t.val % 2500) * 128 + l.val
  omega

theorem mem_blk2_3 (t : Fin cfg2.N) (i : S2x20096x128.Idx) :
    i ∈ ((cfg2.win 3).blk t).view.set ↔ ∀ a : Fin 3, win2_3.index t a * S1x20096x128.size a ≤ (i a).val ∧ (i a).val < win2_3.index t a * S1x20096x128.size a + S1x20096x128.size a := by
  show i ∈ ((View.whole main_v27).slice (win2_3.rect t)).set ↔ _
  rw [View.set_slice_whole, Rect.mem_set_unit]
  exact Iff.rfl

theorem flushed2_3_eq (c : Dev nD) (hxt : Cert.Spec.IsReal (xtA2 V c)) (t : Fin cfg2.N) (hf : (cfg2.win 3).flush t = true) :
    (dat2 V c).flushed 3 t = ((cfg2.win 3).blk t).view.read (Elt Ideal) (Cert.Pad.outOf1 (xtA2 V c) (srcA2 V c) (dstA2 V c)) := by
  have hN : cfg2.N = 5000 := N_2
  have hlt : t.val < 5000 := lt_of_lt_of_eq t.isLt hN
  have h1 : t.val % 2500 = 2499 := (flush2_3 t).mp hf
  have hh : t.val / 2500 < 2 := by omega
  obtain ⟨e0, e1, e2⟩ := idx2_3 t
  show (cfg2.win 3).cut (grid2.coords t) ((dat2 V c).after 3 t) = _
  rw [after2_3, out2_last V c hxt (blkX2_eq V c) (blkS2_eq V c) (blkD2_eq V c) t h1 hh]
  funext y
  rw [View.read_apply]
  have k0 : ((((cfg2.win 3).blk t).view.emb y) 0).val = t.val / 2500 := by
    show win2_3.index t (0 : Fin 3) * 1 + 1 * (y 0).val = t.val / 2500
    have : (y 0).val < 1 := (y 0).isLt
    rw [e0]; omega
  have k1 : ((((cfg2.win 3).blk t).view.emb y) 1).val = (y 1).val := by
    show win2_3.index t (1 : Fin 3) * 20096 + 1 * (y 1).val = (y 1).val
    rw [e1]; omega
  have k2 : ((((cfg2.win 3).blk t).view.emb y) 2).val = (y 2).val := by
    show win2_3.index t (2 : Fin 3) * 128 + 1 * (y 2).val = (y 2).val
    rw [e2]; omega
  exact (outOf1_apply (xtA2 V c) (srcA2 V c) (dstA2 V c) (((cfg2.win 3).blk t).view.emb y) ⟨t.val / 2500, hh⟩
    ⟨(y 1).val, (y 1).isLt⟩ ⟨(y 2).val, (y 2).isLt⟩ k0 k1 k2).symm

theorem mem_blk2_3_of_half (t : Fin cfg2.N) (i : S2x20096x128.Idx) (h : t.val / 2500 = (i 0).val) :
    i ∈ ((cfg2.win 3).blk t).view.set := by
  obtain ⟨e0, e1, e2⟩ := idx2_3 t
  have hi1 : (i 1).val < 20096 := (i 1).isLt
  have hi2 : (i 2).val < 128 := (i 2).isLt
  rw [mem_blk2_3]
  intro a
  match a with
  | ⟨0, _⟩ => show win2_3.index t (0 : Fin 3) * 1 ≤ (i 0).val ∧ (i 0).val < win2_3.index t (0 : Fin 3) * 1 + 1; rw [e0, h]; omega
  | ⟨1, _⟩ => show win2_3.index t (1 : Fin 3) * 20096 ≤ (i 1).val ∧ (i 1).val < win2_3.index t (1 : Fin 3) * 20096 + 20096; rw [e1]; omega
  | ⟨2, _⟩ => show win2_3.index t (2 : Fin 3) * 128 ≤ (i 2).val ∧ (i 2).val < win2_3.index t (2 : Fin 3) * 128 + 128; rw [e2]; omega

theorem arrAt2_out (c : Dev nD) (hxt : Cert.Spec.IsReal (xtA2 V c)) :
    ((dat2 V c).arrAt 3 cfg2.N : Cert.Contrib.SO.Idx → EReal) = Cert.Pad.outOf1 (xtA2 V c) (srcA2 V c) (dstA2 V c) := by
  have hN : cfg2.N = 5000 := N_2
  refine (dat2 V c).arrAt_eq_of_cover 3 (Cert.Pad.outOf1 (xtA2 V c) (srcA2 V c) (dstA2 V c)) (fun t hf => flushed2_3_eq V c hxt t hf)
    fun (i : S2x20096x128.Idx) => ?_
  have hi0 : (i 0).val < 2 := (i 0).isLt
  have hlt : (i 0).val * 2500 + 2499 < cfg2.N := by rw [hN]; omega
  exact ⟨⟨(i 0).val * 2500 + 2499, hlt⟩, (flush2_3 _).mpr (by show ((i 0).val * 2500 + 2499) % 2500 = 2499; omega),
    mem_blk2_3_of_half ⟨(i 0).val * 2500 + 2499, hlt⟩ i (by show ((i 0).val * 2500 + 2499) / 2500 = (i 0).val; omega)⟩

end

end Cert.KernelIdeal.Gen

end
-- ==== Proof.Algebra.lean ====
import proofs.«408425_j84189948936514_2_alg».proof.Proof.Spec
import Idealize.ShloMosaic.PureOps.Ideal
import Idealize.ShloMosaic.Lib.ValueIdx
import Mathlib.Data.EReal.Basic
import Mathlib.Data.EReal.Operations
import Mathlib.Algebra.BigOperators.Fin
import Mathlib.Data.Fintype.BigOperators
import Mathlib.Algebra.BigOperators.Group.Finset.Basic

noncomputable section

namespace Cert.Alg

open Idealize.ShloMosaic Idealize.ShloMosaic.ValueIdx
open Cert.Spec
open scoped BigOperators

theorem real_zero : ∃ r : ℝ, (0 : EReal) = (r : EReal) := ⟨0, rfl⟩

theorem real_one : ∃ r : ℝ, (1 : EReal) = (r : EReal) := ⟨1, rfl⟩

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, coe_max a b⟩

theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty]; rfl⟩
  | insert a s ha ih =>
    rw [Finset.sum_insert ha]
    exact real_add (h a (Finset.mem_insert_self a s)) (ih fun i hi => h i (Finset.mem_insert_of_mem hi))

theorem sub_self_of_real {x : EReal} (h : ∃ r : ℝ, x = r) : x - x = 0 := by
  obtain ⟨r, rfl⟩ := h
  rw [← EReal.coe_sub, sub_self, EReal.coe_zero]

theorem isReal_lin {x : SN.Idx → EReal} {W : SW.Idx → EReal} {b : SB.Idx → EReal}
    (hx : IsReal x) (hW : IsReal W) (hb : IsReal b) : IsReal (lin x W b) := by
  intro i
  exact real_add (real_sum _ _ fun k _ => real_mul (hx _) (hW _)) (hb _)

theorem isReal_agg {xt : SN.Idx → EReal} {ei : SE.Idx → BitVec 32} (h : IsReal xt) : IsReal (agg xt ei) := by
  intro i
  exact real_sum _ _ fun e _ => h _

theorem deg_real (ei : SE.Idx → BitVec 32) (n : Fin 20000) : ∃ r : ℝ, deg ei n = (r : EReal) :=
  real_sum _ _ fun _ _ => real_one

theorem dinv_real (ei : SE.Idx → BitVec 32) (n : Fin 20000) : ∃ r : ℝ, dinv ei n = (r : EReal) := by
  obtain ⟨d, hd⟩ := deg_real ei n
  unfold dinv
  split_ifs with hpos
  · have hne : max d 1 ≠ 0 := ne_of_gt (lt_of_lt_of_le one_pos (le_max_right d 1))
    refine ⟨1 * (1 / max d 1), ?_⟩
    rw [hd, ← EReal.coe_one, coe_max, Ideal.div_coe hne, EReal.coe_mul]
  · exact real_zero

theorem isReal_layer {x : SN.Idx → EReal} {W : SW.Idx → EReal} {b : SB.Idx → EReal} {ei : SE.Idx → BitVec 32}
    (hx : IsReal x) (hW : IsReal W) (hb : IsReal b) : IsReal (layer x W b ei) := by
  intro i
  have hl := isReal_lin hx hW hb
  exact real_add (real_max (real_mul (isReal_agg hl i) (dinv_real ei _)) real_zero) (hl i)

theorem sum_onehot {N : ℕ} (f : Fin N → EReal) (P : Fin N → Prop) [DecidablePred P] (k : Fin N)
    (hk : ∀ n, P n ↔ n = k) : ∑ n : Fin N, (if P n then (1 : EReal) else 0) * f n = f k := by
  rw [Finset.sum_eq_single k]
  · rw [if_pos ((hk k).2 rfl), one_mul]
  · intro n _ hn
    rw [if_neg fun h => hn ((hk n).1 h), zero_mul]
  · intro h
    exact absurd (Finset.mem_univ k) h

theorem sum_onehot_none {N : ℕ} (f : Fin N → EReal) (P : Fin N → Prop) [DecidablePred P] (h : ∀ n, ¬ P n) :
    ∑ n : Fin N, (if P n then (1 : EReal) else 0) * f n = 0 := by
  apply Finset.sum_eq_zero
  intro n _
  rw [if_neg (h n), zero_mul]

theorem sum_ite_eq_filter {ι : Type*} [Fintype ι] [DecidableEq ι] (P : ι → Prop) [DecidablePred P] (f : ι → EReal) :
    ∑ e, (if P e then (1 : EReal) else 0) * f e = ∑ e ∈ Finset.univ.filter P, f e := by
  rw [Finset.sum_filter]
  apply Finset.sum_congr rfl
  intro e _
  by_cases h : P e
  · rw [if_pos h, if_pos h, one_mul]
  · rw [if_neg h, if_neg h, zero_mul]

def edgeOf (c : Fin 2) (j : Fin 2500) (l : Fin 128) : Fin 640000 :=
  ⟨(c.val * 2500 + j.val) * 128 + l.val, by
    have hc := c.isLt
    have hj := j.isLt
    have hl := l.isLt
    omega⟩

theorem edgeOf_val (c : Fin 2) (j : Fin 2500) (l : Fin 128) :
    (edgeOf c j l).val = (c.val * 2500 + j.val) * 128 + l.val := rfl

def edgeEquiv : Fin 2 × Fin 2500 × Fin 128 ≃ Fin 640000 where
  toFun p := edgeOf p.1 p.2.1 p.2.2
  invFun e := (⟨e.val / 320000, by have := e.isLt; omega⟩, ⟨(e.val / 128) % 2500, by omega⟩,
    ⟨e.val % 128, by omega⟩)
  left_inv := by
    rintro ⟨c, j, l⟩
    have hc := c.isLt
    have hj := j.isLt
    have hl := l.isLt
    refine Prod.ext (Fin.ext ?_) (Prod.ext (Fin.ext ?_) (Fin.ext ?_))
    · show ((c.val * 2500 + j.val) * 128 + l.val) / 320000 = c.val
      omega
    · show (((c.val * 2500 + j.val) * 128 + l.val) / 128) % 2500 = j.val
      omega
    · show ((c.val * 2500 + j.val) * 128 + l.val) % 128 = l.val
      omega
  right_inv := by
    intro e
    have he := e.isLt
    apply Fin.ext
    show (e.val / 320000 * 2500 + (e.val / 128) % 2500) * 128 + e.val % 128 = e.val
    omega

theorem sum_edges (f : Fin 640000 → EReal) :
    ∑ e : Fin 640000, f e = ∑ c : Fin 2, ∑ j : Fin 2500, ∑ l : Fin 128, f (edgeOf c j l) := by
  rw [← Equiv.sum_comp edgeEquiv f, Fintype.sum_prod_type]
  refine Finset.sum_congr rfl fun c _ => ?_
  rw [Fintype.sum_prod_type]
  rfl

theorem agg_eq_sum_ite (xt : SN.Idx → EReal) (ei : SE.Idx → BitVec 32) :
    agg xt ei = fun i => ∑ e : Fin 640000,
      (if (edge ei 1 e).toInt = ((i 0).val : ℤ) then (1 : EReal) else 0) * xt (ix2 (node (edge ei 0 e)) (i 1)) := by
  funext i
  rw [sum_ite_eq_filter]
  rfl

end Cert.Alg

end
-- ==== Proof.Glue.lean ====
import proofs.«408425_j84189948936514_2_alg».proof.Proof.Pad
import proofs.«408425_j84189948936514_2_alg».proof.Proof.Algebra
import Mathlib.Algebra.BigOperators.Fin

noncomputable section

namespace Cert.Glue

open Idealize.ShloMosaic Idealize.ShloMosaic.ValueIdx
open Cert.Spec Cert.Contrib Cert.Pad Cert.Alg
open scoped BigOperators

theorem toNat_of_toInt {w : BitVec 32} {n : ℕ} (hn : n < 2147483648) (h : w.toInt = (n : ℤ)) : w.toNat = n := by
  have hc := BitVec.toInt_eq_toNat_cond w
  have hlt : w.toNat < 4294967296 := w.isLt
  split_ifs at hc <;> omega

theorem toNat_lt_of_range {s : BitVec 32} (hs : 0 ≤ s.toInt ∧ s.toInt < 20000) : s.toNat < 20000 := by
  have hc := BitVec.toInt_eq_toNat_cond s
  have hlt : s.toNat < 4294967296 := s.isLt
  obtain ⟨h0, h1⟩ := hs
  split_ifs at hc <;> omega

theorem eq_ofNat_iff (w : BitVec 32) (n : ℕ) (hn : n < 20096) : w = BitVec.ofNat 32 n ↔ w.toInt = (n : ℤ) := by
  constructor
  · intro h
    have hc := BitVec.toInt_eq_toNat_cond w
    have hN : w.toNat = n % 4294967296 := by rw [h, BitVec.toNat_ofNat]
    split_ifs at hc <;> omega
  · intro h
    apply BitVec.eq_of_toNat_eq
    rw [BitVec.toNat_ofNat, toNat_of_toInt (by omega) h]
    show n = n % 4294967296
    omega

theorem gath_padLin (x : SN.Idx → EReal) (W : SW.Idx → EReal) (b : SB.Idx → EReal) (s : BitVec 32)
    (hs : 0 ≤ s.toInt ∧ s.toInt < 20000) (d : Fin 128) :
    gath (padLin x W b) s d = lin x W b (ix2 (node s) d) := by
  have hnat : s.toNat < 20000 := toNat_lt_of_range hs
  have h96 : s.toNat < 20096 := by omega
  have hnode : node s = ⟨s.toNat, hnat⟩ := Fin.ext (Nat.mod_eq_of_lt hnat)
  rw [gath, dif_pos h96, hnode]
  show (if h : s.toNat < 20000 then lin x W b (ix2 ⟨s.toNat, h⟩ ⟨d.val, d.isLt⟩) else 0) = _
  rw [dif_pos hnat]

theorem isReal_padLin {x : SN.Idx → EReal} {W : SW.Idx → EReal} {b : SB.Idx → EReal}
    (hx : IsReal x) (hW : IsReal W) (hb : IsReal b) : IsReal (padLin x W b) := by
  intro i
  unfold padLin
  split_ifs with h
  · exact isReal_lin hx hW hb _
  · exact real_zero

theorem blockOf_lane (ei : SE.Idx → BitVec 32) (r c : Fin 2) (j : Fin 2500) (l : Fin 128) :
    blockOf ei r c j (ix1 l) = edge ei r (edgeOf c j l) := rfl

theorem lane_term (x : SN.Idx → EReal) (W : SW.Idx → EReal) (b : SB.Idx → EReal) (ei : SE.Idx → BitVec 32)
    (hsrc : SrcInRange ei) (n : ℕ) (hn : n < 20096) (d : Fin 128) (e : Fin 640000) :
    (if edge ei 1 e = BitVec.ofNat 32 n then (1 : EReal) else 0) * gath (padLin x W b) (edge ei 0 e) d
      = (if (edge ei 1 e).toInt = (n : ℤ) then (1 : EReal) else 0) * lin x W b (ix2 (node (edge ei 0 e)) d) := by
  rw [gath_padLin x W b _ (hsrc e) d, if_congr (eq_ofNat_iff _ n hn) rfl rfl]

theorem half_eq (x : SN.Idx → EReal) (W : SW.Idx → EReal) (b : SB.Idx → EReal) (ei : SE.Idx → BitVec 32)
    (hsrc : SrcInRange ei) (c : Fin 2) (n : ℕ) (hn : n < 20096) (d : Fin 128) :
    half (padLin x W b) ei c (ix2 ⟨n, hn⟩ d)
      = ∑ j : Fin 2500, ∑ l : Fin 128,
          (if (edge ei 1 (edgeOf c j l)).toInt = (n : ℤ) then (1 : EReal) else 0)
            * lin x W b (ix2 (node (edge ei 0 (edgeOf c j l))) d) := by
  unfold half contrib
  refine Finset.sum_congr rfl fun j _ => Finset.sum_congr rfl fun l _ => ?_
  exact lane_term x W b ei hsrc n hn d (edgeOf c j l)

theorem half_add (x : SN.Idx → EReal) (W : SW.Idx → EReal) (b : SB.Idx → EReal) (ei : SE.Idx → BitVec 32)
    (hsrc : SrcInRange ei) (n : Fin 20000) (d : Fin 128) :
    half (padLin x W b) ei 0 (ix2 ⟨n.val, by omega⟩ d) + half (padLin x W b) ei 1 (ix2 ⟨n.val, by omega⟩ d)
      = agg (lin x W b) ei (ix2 n d) := by
  have hn : n.val < 20096 := by omega
  rw [half_eq x W b ei hsrc 0 n.val hn d, half_eq x W b ei hsrc 1 n.val hn d, agg_eq_sum_ite]
  show _ = ∑ e : Fin 640000, (if (edge ei 1 e).toInt = (n.val : ℤ) then (1 : EReal) else 0)
      * lin x W b (ix2 (node (edge ei 0 e)) d)
  rw [sum_edges, Fin.sum_univ_two]

theorem restr_kLayer_at (x : SN.Idx → EReal) (W : SW.Idx → EReal) (b : SB.Idx → EReal) (ei : SE.Idx → BitVec 32)
    (hsrc : SrcInRange ei) (p : Fin 20000) (q : Fin 128) :
    restr (kLayer (padLin x W b) (outOf (padLin x W b) ei) (dinvP ei)) (ix2 p q) = layer x W b ei (ix2 p q) := by
  have hp : p.val < 20000 := p.isLt
  have hA := half_add x W b ei hsrc p q
  have hD : dinvP ei (ix2 (⟨p.val, by omega⟩ : Fin 20096) (0 : Fin 1)) = dinv ei p := by
    show (if h : p.val < 20000 then dinv ei ⟨p.val, h⟩ else 0) = dinv ei p
    rw [dif_pos hp]
  have hL : padLin x W b (ix2 (⟨p.val, by omega⟩ : Fin 20096) q) = lin x W b (ix2 p q) := by
    show (if h : p.val < 20000 then lin x W b (ix2 ⟨p.val, h⟩ ⟨q.val, q.isLt⟩) else 0) = lin x W b (ix2 p q)
    rw [dif_pos hp]
  show max ((half (padLin x W b) ei 0 (ix2 (⟨p.val, by omega⟩ : Fin 20096) q)
        + half (padLin x W b) ei 1 (ix2 (⟨p.val, by omega⟩ : Fin 20096) q))
        * dinvP ei (ix2 (⟨p.val, by omega⟩ : Fin 20096) (0 : Fin 1))) 0
      + padLin x W b (ix2 (⟨p.val, by omega⟩ : Fin 20096) q)
    = max (agg (lin x W b) ei (ix2 p q) * dinv ei p) 0 + lin x W b (ix2 p q)
  rw [hA, hD, hL]

theorem restr_kLayer (x : SN.Idx → EReal) (W : SW.Idx → EReal) (b : SB.Idx → EReal) (ei : SE.Idx → BitVec 32)
    (hsrc : SrcInRange ei) :
    restr (kLayer (padLin x W b) (outOf (padLin x W b) ei) (dinvP ei)) = layer x W b ei := by
  funext i
  obtain ⟨p, q, rfl⟩ : ∃ (p : Fin 20000) (q : Fin 128), i = ix2 p q := ⟨i 0, i 1, eq_ix2 i⟩
  exact restr_kLayer_at x W b ei hsrc p q

theorem gcn_eq (x : SN.Idx → EReal) (ei : SE.Idx → BitVec 32) (W1 : SW.Idx → EReal) (b1 : SB.Idx → EReal)
    (W2 : SW.Idx → EReal) (b2 : SB.Idx → EReal) (W3 : SW.Idx → EReal) (b3 : SB.Idx → EReal)
    (hsrc : SrcInRange ei) :
    let t1 := padLin x W1 b1; let y1 := kLayer t1 (outOf t1 ei) (dinvP ei)
    let t2 := padLin (restr y1) W2 b2; let y2 := kLayer t2 (outOf t2 ei) (dinvP ei)
    let t3 := padLin (restr y2) W3 b3; let y3 := kLayer t3 (outOf t3 ei) (dinvP ei)
    restr y3 = gcn x ei W1 b1 W2 b2 W3 b3 := by
  intro t1 y1 t2 y2 t3 y3
  have h1 : restr y1 = layer x W1 b1 ei := restr_kLayer x W1 b1 ei hsrc
  have h2 : restr y2 = layer (restr y1) W2 b2 ei := restr_kLayer (restr y1) W2 b2 ei hsrc
  have h3 : restr y3 = layer (restr y2) W3 b3 ei := restr_kLayer (restr y2) W3 b3 ei hsrc
  rw [h3, h2, h1]
  rfl

theorem isReal_restr_kLayer {x : SN.Idx → EReal} {W : SW.Idx → EReal} {b : SB.Idx → EReal} {ei : SE.Idx → BitVec 32}
    (hsrc : SrcInRange ei) (hx : IsReal x) (hW : IsReal W) (hb : IsReal b) :
    IsReal (restr (kLayer (padLin x W b) (outOf (padLin x W b) ei) (dinvP ei))) := by
  rw [restr_kLayer x W b ei hsrc]
  exact isReal_layer hx hW hb

theorem isReal_t2 {x : SN.Idx → EReal} {ei : SE.Idx → BitVec 32} {W1 : SW.Idx → EReal} {b1 : SB.Idx → EReal}
    {W2 : SW.Idx → EReal} {b2 : SB.Idx → EReal}
    (hsrc : SrcInRange ei) (hx : IsReal x) (hW1 : IsReal W1) (hb1 : IsReal b1) (hW2 : IsReal W2) (hb2 : IsReal b2) :
    let t1 := padLin x W1 b1; let y1 := kLayer t1 (outOf t1 ei) (dinvP ei)
    IsReal (padLin (restr y1) W2 b2) := by
  intro t1 y1
  exact isReal_padLin (isReal_restr_kLayer hsrc hx hW1 hb1) hW2 hb2

theorem isReal_t3 {x : SN.Idx → EReal} {ei : SE.Idx → BitVec 32} {W1 : SW.Idx → EReal} {b1 : SB.Idx → EReal}
    {W2 : SW.Idx → EReal} {b2 : SB.Idx → EReal} {W3 : SW.Idx → EReal} {b3 : SB.Idx → EReal}
    (hsrc : SrcInRange ei) (hx : IsReal x) (hW1 : IsReal W1) (hb1 : IsReal b1) (hW2 : IsReal W2) (hb2 : IsReal b2)
    (hW3 : IsReal W3) (hb3 : IsReal b3) :
    let t1 := padLin x W1 b1; let y1 := kLayer t1 (outOf t1 ei) (dinvP ei)
    let t2 := padLin (restr y1) W2 b2; let y2 := kLayer t2 (outOf t2 ei) (dinvP ei)
    IsReal (padLin (restr y2) W3 b3) := by
  intro t1 y1 t2 y2
  exact isReal_padLin (isReal_restr_kLayer hsrc (isReal_restr_kLayer hsrc hx hW1 hb1) hW2 hb2) hW3 hb3

end Cert.Glue

end
-- ==== Proof.Glue1.lean ====
import proofs.«408425_j84189948936514_2_alg».proof.Proof.Pad1
import proofs.«408425_j84189948936514_2_alg».proof.Proof.Glue

noncomputable section

namespace Cert.Glue

open Idealize.ShloMosaic Idealize.ShloMosaic.ValueIdx
open Cert.Spec Cert.Contrib Cert.Pad
open scoped BigOperators

theorem blockOf1_row (ei : SE.Idx → BitVec 32) (r c : Fin 2) (j : Fin 2500) :
    blockOf1 (row ei r) c j = blockOf ei r c j := rfl

theorem outOf1_row (xt : Cert.Contrib.SP.Idx → EReal) (ei : Cert.Spec.SE.Idx → BitVec 32) :
    Cert.Pad.outOf1 xt (Cert.Pad.row ei 0) (Cert.Pad.row ei 1) = Cert.Pad.outOf xt ei := rfl

end Cert.Glue

end
-- ==== Proof.PreFacts.lean ====
import proofs.«408425_j84189948936514_2_alg».proof.Pre_finite_inputs
import proofs.«408425_j84189948936514_2_alg».proof.Proof.Gen.Pre_finite_inputs
import proofs.«408425_j84189948936514_2_alg».proof.Proof.Spec
import Idealize.ShloMosaic.Lib.ReduceAll
import Idealize.ShloMosaic.Lib.StableHlo.Predicate
import Idealize.ShloMosaic.Lib.ValueIdx
import Idealize.ShloMosaic.Lib.IdealHost
import Idealize.ShloMosaic.Lib.Affine
import Idealize.ShloMosaic.Lib.WordArith
import Idealize.ShloMosaic.Lib.Pipeline.Value

noncomputable section

namespace Cert.PreSide

open Cert.Pre_finite_inputs
open Idealize.ShloMosaic Idealize.ShloMosaic.ValueIdx

instance : Subsingleton S_.Idx := ⟨fun a b => funext fun d => d.elim0⟩

theorem inf_eq_top : Ideal.ofBits .f32 0x7F800000#32 = (⊤ : EReal) := by simp [Ideal.ofBits, Ideal.ieee]

theorem real_of_abs_lt (x : EReal) (h : Ideal.cmp .olt (max x (-x)) (Ideal.ofBits .f32 0x7F800000#32) = 1#1) :
    ∃ r : ℝ, x = (r : EReal) := by
  rw [inf_eq_top] at h
  unfold Ideal.cmp at h
  induction x using EReal.rec with
  | bot => simp at h
  | coe r => exact ⟨r, rfl⟩
  | top => simp at h

theorem range_of_cmp (w : BitVec 32) (h0 : IntOp.cmpi .sge w 0#32 = 1#1) (h1 : IntOp.cmpi .slt w 20000#32 = 1#1) :
    0 ≤ w.toInt ∧ w.toInt < 20000 := by
  unfold IntOp.cmpi at h0 h1
  simp only [WordArith.ofBool_eq_one_iff] at h0 h1
  rw [BitVec.sle_iff_toInt_le] at h0
  rw [BitVec.slt_iff_toInt_lt] at h1
  have e0 : (0#32 : BitVec 32).toInt = 0 := by decide
  have e1 : (20000#32 : BitVec 32).toInt = 20000 := by decide
  rw [e0] at h0
  rw [e1] at h1
  exact ⟨h0, h1⟩

theorem real_of_all {s : Shape} {axes : List (Fin s.rank)} (x : FVec Ideal s .f32) (hb : S_.BroadcastsInDim s ![])
    (hr : s.ReducesTo axes S_) (hu : 0 < S_.numel) (init : IVec S_ 1)
    (e : Host.reduce IntOp.andi
      (cmpf .olt (Host.absf x) (broadcastInDim s ![] hb (constant (F := Ideal) S_ .f32 0x7F800000#32))) init hr hu ix0 = 1#1) :
    Cert.Spec.IsReal x := by
  intro i
  have h := Host.reduce_andi_all _ init hr hu ix0 e i
  exact real_of_abs_lt (x i) h

theorem row0_apply (x1 : IVec S2x640000 32) (hs : S2x640000.Slices ![0, 0] S1x640000) (hc : S1x640000.ShapeCasts S640000)
    (k : Fin 640000) :
    shapeCast S640000 (extractStridedSlice S1x640000 ![0, 0] x1 hs) hc (ix1 k) = x1 (ix2 0 k) := by
  refine (shapeCast_apply _ hc (ix1 k) (ix2 0 k) ?_).trans ?_
  · rw [Shape.rowMajor_val_two, Shape.rowMajor_val_one]
    show (0 : ℕ) * 640000 + k.val = k.val
    omega
  · exact extractStridedSlice_apply ![0, 0] x1 hs (ix2 0 k) (ix2 0 k) (fun a => match a with
      | ⟨0, _⟩ => by show (0 : ℕ) = 0 + 0; omega
      | ⟨1, _⟩ => by show k.val = 0 + k.val; omega)

theorem src_of_all (x1 : IVec S2x640000 32) (hs : S2x640000.Slices ![0, 0] S1x640000) (hc : S1x640000.ShapeCasts S640000)
    (hb : S_.BroadcastsInDim S640000 ![]) {axes : List (Fin S640000.rank)} (hr : S640000.ReducesTo axes S_) (hu : 0 < S_.numel)
    (init : IVec S_ 1)
    (e : Host.reduce IntOp.andi
      (andi
        (cmpi .sge (shapeCast S640000 (extractStridedSlice S1x640000 ![0, 0] x1 hs) hc)
          (broadcastInDim S640000 ![] hb (constantI S_ 32 0#32)))
        (cmpi .slt (shapeCast S640000 (extractStridedSlice S1x640000 ![0, 0] x1 hs) hc)
          (broadcastInDim S640000 ![] hb (constantI S_ 32 20000#32)))) init hr hu ix0 = 1#1) :
    Cert.Spec.SrcInRange x1 := by
  intro k
  have h := Host.reduce_andi_all _ init hr hu ix0 e (ix1 k)
  have h' : IntOp.andi (IntOp.cmpi .sge (x1 (ix2 0 k)) 0#32) (IntOp.cmpi .slt (x1 (ix2 0 k)) 20000#32) = 1#1 := by
    rw [← row0_apply x1 hs hc k]
    exact h
  rw [IntOp.andi_eq_one] at h'
  exact range_of_cmp _ h'.1 h'.2

theorem of_pre [Cert.Pre_finite_inputs.Facts] (x0 : FVec Ideal S20000x128 .f32) (x1 : IVec S2x640000 32)
    (x2 : FVec Ideal S128x128 .f32) (x3 : FVec Ideal S128 .f32) (x4 : FVec Ideal S128x128 .f32) (x5 : FVec Ideal S128 .f32)
    (x6 : FVec Ideal S128x128 .f32) (x7 : FVec Ideal S128 .f32)
    (h : Cert.Pre_finite_inputs.fn (F := Ideal) x0 x1 x2 x3 x4 x5 x6 x7 = fun _ => 1#1) :
    Cert.Spec.SrcInRange x1 ∧ Cert.Spec.IsReal x0 ∧ Cert.Spec.IsReal x2 ∧ Cert.Spec.IsReal x3 ∧ Cert.Spec.IsReal x4 ∧
      Cert.Spec.IsReal x5 ∧ Cert.Spec.IsReal x6 ∧ Cert.Spec.IsReal x7 := by
  have e := congrFun h ix0
  dsimp only [fn, fn_part1, fn_part2, andi] at e
  simp only [IntOp.andi_eq_one] at e
  obtain ⟨⟨⟨⟨⟨⟨⟨e0, e2⟩, e3⟩, e4⟩, e5⟩, e6⟩, e7⟩, e1⟩ := e
  exact ⟨src_of_all x1 _ _ _ _ _ _ e1, real_of_all x0 _ _ _ _ e0, real_of_all x2 _ _ _ _ e2, real_of_all x3 _ _ _ _ e3,
    real_of_all x4 _ _ _ _ e4, real_of_all x5 _ _ _ _ e5, real_of_all x6 _ _ _ _ e6, real_of_all x7 _ _ _ _ e7⟩

end Cert.PreSide

end
-- ==== Proof.KI.Value.lean ====
import proofs.«408425_j84189948936514_2_alg».proof.Proof.KI.Run
import proofs.«408425_j84189948936514_2_alg».proof.Proof.KI.HostValue
import proofs.«408425_j84189948936514_2_alg».proof.Proof.KI.R0Value
import proofs.«408425_j84189948936514_2_alg».proof.Proof.KI.R1Value
import proofs.«408425_j84189948936514_2_alg».proof.Proof.KI.R2Value
import proofs.«408425_j84189948936514_2_alg».proof.Proof.Glue1
import proofs.«408425_j84189948936514_2_alg».proof.Proof.Glue
import proofs.«408425_j84189948936514_2_alg».proof.Proof.PreFacts
import proofs.«408425_j84189948936514_2_alg».proof.Defs

noncomputable section

namespace Cert.KernelIdeal.Gen

open Idealize.ShloMosaic Idealize.ShloMosaic.TcCoe
open Idealize.SL Idealize.SL.Sem
open Cert.KernelIdeal.HostValue

variable (m : (ℓ : Loc nD τ sig) → Buf (Elt Ideal) ℓ) (c : Dev nD)

abbrev inp0 : Spec.SN.Idx → EReal := m ((c : Thread nD τ).loc main_arg0)
abbrev inp1 : Spec.SE.Idx → BitVec 32 := m ((c : Thread nD τ).loc main_arg1)
abbrev inp2 : Spec.SW.Idx → EReal := m ((c : Thread nD τ).loc main_arg2)
abbrev inp3 : Spec.SB.Idx → EReal := m ((c : Thread nD τ).loc main_arg3)
abbrev inp4 : Spec.SW.Idx → EReal := m ((c : Thread nD τ).loc main_arg4)
abbrev inp5 : Spec.SB.Idx → EReal := m ((c : Thread nD τ).loc main_arg5)
abbrev inp6 : Spec.SW.Idx → EReal := m ((c : Thread nD τ).loc main_arg6)
abbrev inp7 : Spec.SB.Idx → EReal := m ((c : Thread nD τ).loc main_arg7)

theorem pers11_1 (outs : Outs (F := Ideal)) : V11 m outs c main_v1 = V8 m c main_v1 :=
  (V11_of m outs c main_v1 (by decide)).trans ((V10_of m outs c main_v1 (by decide)).trans (V9_of m outs c main_v1 (by decide)))
theorem pers11_3 (outs : Outs (F := Ideal)) : V11 m outs c main_v3 = V8 m c main_v3 :=
  (V11_of m outs c main_v3 (by decide)).trans ((V10_of m outs c main_v3 (by decide)).trans (V9_of m outs c main_v3 (by decide)))
theorem pers14_1 (outs : Outs (F := Ideal)) : V14 m outs c main_v1 = V8 m c main_v1 :=
  (V14_of m outs c main_v1 (by decide)).trans ((V13_of m outs c main_v1 (by decide)).trans
    ((V12_of m outs c main_v1 (by decide)).trans (pers11_1 m c outs)))
theorem pers14_3 (outs : Outs (F := Ideal)) : V14 m outs c main_v3 = V8 m c main_v3 :=
  (V14_of m outs c main_v3 (by decide)).trans ((V13_of m outs c main_v3 (by decide)).trans
    ((V12_of m outs c main_v3 (by decide)).trans (pers11_3 m c outs)))

theorem value_of_outs (outs : Outs (F := Ideal))
    (hsrc : Spec.SrcInRange (inp1 m c)) (h0 : Spec.IsReal (inp0 m c)) (h2 : Spec.IsReal (inp2 m c)) (h3 : Spec.IsReal (inp3 m c))
    (h4 : Spec.IsReal (inp4 m c)) (h5 : Spec.IsReal (inp5 m c)) (h6 : Spec.IsReal (inp6 m c)) (h7 : Spec.IsReal (inp7 m c))
    (E16 : (V8 m c main_v16 : Pad.SC.Idx → EReal) = Pad.dinvP (inp1 m c))
    (E26 : (V8 m c main_v26 : Contrib.SP.Idx → EReal) = Contrib.padLin (inp0 m c) (inp2 m c) (inp3 m c))
    (E1 : (V8 m c main_v1 : Pad.SF.Idx → BitVec 32) = Pad.row (inp1 m c) 0)
    (E3 : (V8 m c main_v3 : Pad.SF.Idx → BitVec 32) = Pad.row (inp1 m c) 1)
    (E37 : (V11 m outs c main_v37 : Contrib.SP.Idx → EReal)
      = Pad.kLayer (V8 m c main_v26) (outs 9 main_v27 c) (V8 m c main_v16))
    (E46 : (V11 m outs c main_v46 : Contrib.SP.Idx → EReal)
      = Contrib.padLin (Pad.restr (V11 m outs c main_v37)) (inp4 m c) (inp5 m c))
    (E57 : (V14 m outs c main_v57 : Contrib.SP.Idx → EReal)
      = Pad.kLayer (V11 m outs c main_v46) (outs 12 main_v47 c) (V8 m c main_v16))
    (E66 : (V14 m outs c main_v66 : Contrib.SP.Idx → EReal)
      = Contrib.padLin (Pad.restr (V14 m outs c main_v57)) (inp6 m c) (inp7 m c))
    (E77 : (V16 m outs c main_v77 : Contrib.SP.Idx → EReal)
      = Pad.kLayer (V14 m outs c main_v66) (outs 15 main_v67 c) (V8 m c main_v16))
    (E78 : (V16 m outs c main_v78 : Spec.SN.Idx → EReal) = Pad.restr (V16 m outs c main_v77))
    (L9 : Spec.IsReal (V8 m c main_v26 : Contrib.SP.Idx → EReal) →
      (outs 9 main_v27 c : Contrib.SO.Idx → EReal) = Pad.outOf1 (V8 m c main_v26) (V8 m c main_v1) (V8 m c main_v3))
    (L12 : Spec.IsReal (V11 m outs c main_v46 : Contrib.SP.Idx → EReal) →
      (outs 12 main_v47 c : Contrib.SO.Idx → EReal)
        = Pad.outOf1 (V11 m outs c main_v46) (V11 m outs c main_v1) (V11 m outs c main_v3))
    (L15 : Spec.IsReal (V14 m outs c main_v66 : Contrib.SP.Idx → EReal) →
      (outs 15 main_v67 c : Contrib.SO.Idx → EReal)
        = Pad.outOf1 (V14 m outs c main_v66) (V14 m outs c main_v1) (V14 m outs c main_v3)) :
    (V16 m outs c main_v78 : Spec.SN.Idx → EReal)
      = Spec.gcn (inp0 m c) (inp1 m c) (inp2 m c) (inp3 m c) (inp4 m c) (inp5 m c) (inp6 m c) (inp7 m c) := by

  have o9 : (outs 9 main_v27 c : Contrib.SO.Idx → EReal)
      = Pad.outOf (Contrib.padLin (inp0 m c) (inp2 m c) (inp3 m c)) (inp1 m c) := by
    rw [L9 (by rw [E26]; exact Glue.isReal_padLin h0 h2 h3), E26, E1, E3, Glue.outOf1_row]
  have y1 : (V11 m outs c main_v37 : Contrib.SP.Idx → EReal)
      = Pad.kLayer (Contrib.padLin (inp0 m c) (inp2 m c) (inp3 m c))
          (Pad.outOf (Contrib.padLin (inp0 m c) (inp2 m c) (inp3 m c)) (inp1 m c)) (Pad.dinvP (inp1 m c)) := by
    rw [E37, o9, E26, E16]

  have t2 : (V11 m outs c main_v46 : Contrib.SP.Idx → EReal)
      = Contrib.padLin (Pad.restr (Pad.kLayer (Contrib.padLin (inp0 m c) (inp2 m c) (inp3 m c))
          (Pad.outOf (Contrib.padLin (inp0 m c) (inp2 m c) (inp3 m c)) (inp1 m c)) (Pad.dinvP (inp1 m c)))) (inp4 m c) (inp5 m c) := by
    rw [E46, y1]
  have r2 : Spec.IsReal (V11 m outs c main_v46 : Contrib.SP.Idx → EReal) := by
    rw [t2]; exact Glue.isReal_t2 hsrc h0 h2 h3 h4 h5
  have o12 : (outs 12 main_v47 c : Contrib.SO.Idx → EReal)
      = Pad.outOf (V11 m outs c main_v46) (inp1 m c) := by
    rw [L12 r2, pers11_1 m c outs, pers11_3 m c outs, E1, E3, Glue.outOf1_row]
  have y2 : (V14 m outs c main_v57 : Contrib.SP.Idx → EReal)
      = Pad.kLayer (V11 m outs c main_v46) (Pad.outOf (V11 m outs c main_v46) (inp1 m c)) (Pad.dinvP (inp1 m c)) := by
    rw [E57, o12, E16]

  have t3 : (V14 m outs c main_v66 : Contrib.SP.Idx → EReal)
      = Contrib.padLin (Pad.restr (Pad.kLayer (V11 m outs c main_v46)
          (Pad.outOf (V11 m outs c main_v46) (inp1 m c)) (Pad.dinvP (inp1 m c)))) (inp6 m c) (inp7 m c) := by
    rw [E66, y2]
  have r3 : Spec.IsReal (V14 m outs c main_v66 : Contrib.SP.Idx → EReal) := by
    rw [t3, t2]; exact Glue.isReal_t3 hsrc h0 h2 h3 h4 h5 h6 h7
  have o15 : (outs 15 main_v67 c : Contrib.SO.Idx → EReal)
      = Pad.outOf (V14 m outs c main_v66) (inp1 m c) := by
    rw [L15 r3, pers14_1 m c outs, pers14_3 m c outs, E1, E3, Glue.outOf1_row]
  have y3 : (V16 m outs c main_v77 : Contrib.SP.Idx → EReal)
      = Pad.kLayer (V14 m outs c main_v66) (Pad.outOf (V14 m outs c main_v66) (inp1 m c)) (Pad.dinvP (inp1 m c)) := by
    rw [E77, o15, E16]

  rw [E78, y3, t3, t2]
  exact Glue.gcn_eq (inp0 m c) (inp1 m c) (inp2 m c) (inp3 m c) (inp4 m c) (inp5 m c) (inp6 m c) (inp7 m c) hsrc

theorem launch9 (h : Spec.IsReal (V8 m c main_v26 : Contrib.SP.Idx → EReal)) :
    (outsC m 9 main_v27 c : Contrib.SO.Idx → EReal) = Pad.outOf1 (V8 m c main_v26) (V8 m c main_v1) (V8 m c main_v3) :=
  (outsC_9 m 9 c).trans (arrAt0_out (Ve8 m) c h)

theorem launch12 (h : Spec.IsReal (V11 m (outsC m) c main_v46 : Contrib.SP.Idx → EReal)) :
    (outsC m 12 main_v47 c : Contrib.SO.Idx → EReal)
      = Pad.outOf1 (V11 m (outsC m) c main_v46) (V11 m (outsC m) c main_v1) (V11 m (outsC m) c main_v3) := by
  rw [V11_C m c] at h ⊢
  exact (outsC_12 m 12 c).trans (arrAt1_out (Ve11 m (outsA m)) c h)

theorem launch15 (h : Spec.IsReal (V14 m (outsC m) c main_v66 : Contrib.SP.Idx → EReal)) :
    (outsC m 15 main_v67 c : Contrib.SO.Idx → EReal)
      = Pad.outOf1 (V14 m (outsC m) c main_v66) (V14 m (outsC m) c main_v1) (V14 m (outsC m) c main_v3) := by
  rw [V14_C m c] at h ⊢
  exact (outsC_15 m 15 c).trans (arrAt2_out (Ve14 m (outsB m)) c h)

theorem kernel_value (hsrc : Spec.SrcInRange (inp1 m c)) (h0 : Spec.IsReal (inp0 m c)) (h2 : Spec.IsReal (inp2 m c))
    (h3 : Spec.IsReal (inp3 m c)) (h4 : Spec.IsReal (inp4 m c)) (h5 : Spec.IsReal (inp5 m c)) (h6 : Spec.IsReal (inp6 m c))
    (h7 : Spec.IsReal (inp7 m c)) :
    (V16 m (outsC m) c main_v78 : Spec.SN.Idx → EReal)
      = Spec.gcn (inp0 m c) (inp1 m c) (inp2 m c) (inp3 m c) (inp4 m c) (inp5 m c) (inp6 m c) (inp7 m c) :=
  value_of_outs m c (outsC m) hsrc h0 h2 h3 h4 h5 h6 h7
    (V8_v16 m c) (V8_v26 m c) (V8_v1 m c) (V8_v3 m c)
    (V11_v37 m (outsC m) c) (V11_v46 m (outsC m) c) (V14_v57 m (outsC m) c) (V14_v66 m (outsC m) c)
    (V16_v77 m (outsC m) c) (V16_v78 m (outsC m) c)
    (launch9 m c) (launch12 m c) (launch15 m c)

theorem kernel_value_pre [Cert.Pre_finite_inputs.Facts] (hpre : Cert.Pre_KernelIdeal m) :
    (V16 m (outsC m) c main_v78 : Spec.SN.Idx → EReal)
      = Spec.gcn (inp0 m c) (inp1 m c) (inp2 m c) (inp3 m c) (inp4 m c) (inp5 m c) (inp6 m c) (inp7 m c) := by
  obtain ⟨hsrc, h0, h2, h3, h4, h5, h6, h7⟩ := Cert.PreSide.of_pre _ _ _ _ _ _ _ _ (hpre c)
  exact kernel_value m c hsrc h0 h2 h3 h4 h5 h6 h7

end Cert.KernelIdeal.Gen

end
-- ==== Proof.RefValue.lean ====
import proofs.«408425_j84189948936514_2_alg».proof.Proof.ReadP
import proofs.«408425_j84189948936514_2_alg».proof.Proof.Spec
import Idealize.ShloMosaic.Lib.ValueIdx
import Idealize.ShloMosaic.Lib.ValueIdxRank1
import Idealize.ShloMosaic.PureOps.Ideal.Laws

noncomputable section

namespace Cert.RefSide

open Cert.ReferenceIdeal Cert.ReferenceIdeal.Gen Cert.ReferenceIdeal.Read
open Idealize.ShloMosaic Idealize.ShloMosaic.TcCoe Idealize.SL.Sem Idealize.ShloMosaic.ValueIdx
open scoped BigOperators

local macro "idx2" : tactic => `(tactic| (funext a; match a with | ⟨0, _⟩ => rfl | ⟨1, _⟩ => rfl))

local macro "idx1" : tactic => `(tactic| (funext a; match a with | ⟨0, _⟩ => rfl))

def gd (wf : GatherDims.WF S20000x128 S640000x1 S640000x128 [1] [0] [] [0] [] 1 ![1, 128]) :
    GatherDims S20000x128 S640000x1 S640000x128 :=
  { offsetDims := [1], collapsedSliceDims := [0], operandBatchingDims := [], startIndicesBatchingDims := [],
    startIndexMap := [0], indexVectorDim := 1, sliceSizes := ![1, 128], wf := wf }

theorem gd_apply {α : Type} {w : Nat} (wf : GatherDims.WF S20000x128 S640000x1 S640000x128 [1] [0] [] [0] [] 1 ![1, 128])
    (x : S20000x128.Idx → α) (idx : IVec S640000x1 w) (e : Fin 640000) (q : Fin 128) :
    Host.gather (gd wf) x idx (ix2 e q)
      = x (ix2 ⟨min (idx (ix2 e 0)).toInt.toNat 19999, by omega⟩ q) := by
  unfold Host.gather
  congr 1
  funext a
  refine Fin.ext ?_
  match a with
  | ⟨0, _⟩ =>
    show (gd wf).start (ix2 e q) idx 0 + (gd wf).batchCoord (ix2 e q) 0 + (gd wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gd wf).startIndexMap from List.mem_singleton.mpr rfl)]
    have hsi : (gd wf).siIdx (ix2 e q) ⟨List.idxOf (0 : Fin 2) (gd wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gd wf).start (ix2 e q) idx 1 + (gd wf).batchCoord (ix2 e q) 1 + (gd wf).offCoord (ix2 e q) 1 = _
    rw [GatherDims.batchCoord_eq_zero _ _ _ List.not_mem_nil]
    unfold GatherDims.start GatherDims.offCoord
    have hn : ¬ (1 : Fin 2) ∈ (gd wf).startIndexMap := (by decide : ¬ (1 : Fin 2) ∈ ([0] : List (Fin 2)))
    have hp : (1 : Fin 2) ∈ (gd wf).sKept := (by decide : (1 : Fin 2) ∈ S20000x128.kept (([0] : List (Fin 2)) ++ []))
    rw [dif_neg hn, dif_pos hp]
    simp only [Nat.zero_add]
    rfl

theorem gather_rows {α : Type} {w : Nat} (d : GatherDims S20000x128 S640000x1 S640000x128)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, 128])
    (x : S20000x128.Idx → α) (idx : IVec S640000x1 w) (e : Fin 640000) (q : Fin 128) :
    Host.gather d x idx (ix2 e q)
      = x (ix2 ⟨min (idx (ix2 e 0)).toInt.toNat 19999, by omega⟩ q) := by
  obtain ⟨od, cs, ob, sb, sim, ivd, ss, wf⟩ := d
  simp only at h1 h2 h3 h4 h5 h6 h7
  subst h1 h2 h3 h4 h5 h6 h7
  exact gd_apply wf x idx e q

def sd2 (wf : ScatterDims.WF S20000x128 S640000x1 S640000x128 [1] [0] [0] 1) :
    ScatterDims S20000x128 S640000x1 S640000x128 :=
  { updateWindowDims := [1], insertedWindowDims := [0], scatterDimsToOperandDims := [0], indexVectorDim := 1, wf := wf }

section
variable (wf : ScatterDims.WF S20000x128 S640000x1 S640000x128 [1] [0] [0] 1) {w : Nat} (idx : IVec S640000x1 w)

theorem sd2_start0 (e : Fin 640000) (q' : Fin 128) : (sd2 wf).start (ix2 e q') idx 0 = (idx (ix2 e 0)).toInt := by
  unfold ScatterDims.start
  rw [dif_pos (show (0 : Fin 2) ∈ (sd2 wf).scatterDimsToOperandDims from List.mem_singleton.mpr rfl)]
  have hsi : (sd2 wf).siIdx (ix2 e q') ⟨List.idxOf (0 : Fin 2) (sd2 wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  exact congrArg (fun t => (idx t).toInt) hsi

theorem sd2_start1 (e : Fin 640000) (q' : Fin 128) : (sd2 wf).start (ix2 e q') idx 1 = 0 := by
  unfold ScatterDims.start
  have hn : ¬ (1 : Fin 2) ∈ (sd2 wf).scatterDimsToOperandDims := (by decide : ¬ (1 : Fin 2) ∈ ([0] : List (Fin 2)))
  rw [dif_neg hn]

theorem sd2_window0 (e : Fin 640000) (q' : Fin 128) : (sd2 wf).window (ix2 e q') 0 = 0 := by
  unfold ScatterDims.window
  have hn : ¬ (0 : Fin 2) ∈ (sd2 wf).sKept := (by decide : ¬ (0 : Fin 2) ∈ S20000x128.kept ([0] : List (Fin 2)))
  rw [dif_neg hn]

theorem sd2_window1 (e : Fin 640000) (q' : Fin 128) : (sd2 wf).window (ix2 e q') 1 = q'.val := by
  unfold ScatterDims.window
  have hp : (1 : Fin 2) ∈ (sd2 wf).sKept := (by decide : (1 : Fin 2) ∈ S20000x128.kept ([0] : List (Fin 2)))
  rw [dif_pos hp]
  rfl

theorem sd2_resultIdx_iff (e : Fin 640000) (q' : Fin 128) (p : Fin 20000) (q : Fin 128) :
    (sd2 wf).resultIdx? (ix2 e q') idx = some (ix2 p q) ↔ (idx (ix2 e 0)).toInt = (p.val : ℤ) ∧ q' = q := by
  unfold ScatterDims.resultIdx?
  have i0 : p.val < 20000 := p.isLt
  have i1 : q.val < 128 := q.isLt
  have j1 : q'.val < 128 := q'.isLt
  constructor
  · intro he
    split at he
    · rename_i h
      have he' := Option.some.inj he
      have e0 : ((sd2 wf).start (ix2 e q') idx 0 + (((sd2 wf).window (ix2 e q') 0 : ℕ) : ℤ)).toNat = p.val :=
        congrArg (fun f => (f 0).val) he'
      have e1 : ((sd2 wf).start (ix2 e q') idx 1 + (((sd2 wf).window (ix2 e q') 1 : ℕ) : ℤ)).toNat = q.val :=
        congrArg (fun f => (f 1).val) he'
      have h0 : 0 ≤ (sd2 wf).start (ix2 e q') idx 0 + (((sd2 wf).window (ix2 e q') 0 : ℕ) : ℤ) := (h 0).1
      rw [sd2_start0, sd2_window0] at e0 h0
      rw [sd2_start1, sd2_window1] at e1
      refine ⟨by omega, Fin.ext (by omega)⟩
    · exact absurd he (by simp)
  · rintro ⟨e0, e1⟩
    have h : ∀ a, 0 ≤ (sd2 wf).start (ix2 e q') idx a + (sd2 wf).window (ix2 e q') a
        ∧ (sd2 wf).start (ix2 e q') idx a + (sd2 wf).window (ix2 e q') a < S20000x128.size a := by
      intro a
      match a with
      | ⟨0, _⟩ =>
        show 0 ≤ (sd2 wf).start (ix2 e q') idx 0 + (((sd2 wf).window (ix2 e q') 0 : ℕ) : ℤ)
          ∧ (sd2 wf).start (ix2 e q') idx 0 + (((sd2 wf).window (ix2 e q') 0 : ℕ) : ℤ) < ((20000 : ℕ) : ℤ)
        rw [sd2_start0, sd2_window0, e0]; omega
      | ⟨1, _⟩ =>
        show 0 ≤ (sd2 wf).start (ix2 e q') idx 1 + (((sd2 wf).window (ix2 e q') 1 : ℕ) : ℤ)
          ∧ (sd2 wf).start (ix2 e q') idx 1 + (((sd2 wf).window (ix2 e q') 1 : ℕ) : ℤ) < ((128 : ℕ) : ℤ)
        rw [sd2_start1, sd2_window1]; omega
    rw [dif_pos h]
    congr 1
    funext a
    refine Fin.ext ?_
    match a with
    | ⟨0, _⟩ =>
      show ((sd2 wf).start (ix2 e q') idx 0 + (((sd2 wf).window (ix2 e q') 0 : ℕ) : ℤ)).toNat = p.val
      rw [sd2_start0, sd2_window0, e0]; omega
    | ⟨1, _⟩ =>
      show ((sd2 wf).start (ix2 e q') idx 1 + (((sd2 wf).window (ix2 e q') 1 : ℕ) : ℤ)).toNat = q.val
      rw [sd2_start1, sd2_window1, ← e1]; omega

theorem sd2_apply (x : S20000x128.Idx → EReal) (upd : S640000x128.Idx → EReal) (p : Fin 20000) (q : Fin 128) :
    Ideal.hostScatterAdd (sd2 wf) x idx upd (ix2 p q)
      = x (ix2 p q) + ∑ e ∈ Finset.univ.filter (fun e : Fin 640000 => (idx (ix2 e 0)).toInt = (p.val : ℤ)), upd (ix2 e q) := by
  unfold Ideal.hostScatterAdd
  show x (ix2 p q) + _ = x (ix2 p q) + _
  refine congrArg (fun t => x (ix2 p q) + t) ?_
  rw [Finset.sum_filter, sum_idx2, Finset.sum_filter]
  refine Finset.sum_congr rfl fun e _ => ?_
  simp only [sd2_resultIdx_iff wf idx e _ p q]
  by_cases hA : (idx (ix2 e 0)).toInt = (p.val : ℤ)
  · simp only [hA, true_and, Finset.sum_ite_eq', Finset.mem_univ, if_true]
  · simp only [hA, false_and, if_false, Finset.sum_const_zero]

end

theorem scatter_rows {w : Nat} (d : ScatterDims S20000x128 S640000x1 S640000x128)
    (h1 : d.updateWindowDims = [1]) (h2 : d.insertedWindowDims = [0]) (h3 : d.scatterDimsToOperandDims = [0])
    (h4 : d.indexVectorDim = 1) (idx : IVec S640000x1 w)
    (x : S20000x128.Idx → EReal) (upd : S640000x128.Idx → EReal) (p : Fin 20000) (q : Fin 128) :
    Ideal.hostScatterAdd d x idx upd (ix2 p q)
      = x (ix2 p q) + ∑ e ∈ Finset.univ.filter (fun e : Fin 640000 => (idx (ix2 e 0)).toInt = (p.val : ℤ)), upd (ix2 e q) := by
  obtain ⟨uw, iw, sdo, ivd, wf⟩ := d
  simp only at h1 h2 h3 h4
  subst h1 h2 h3 h4
  exact sd2_apply wf idx x upd p q

def sd1 (wf : ScatterDims.WF S20000 S640000x1 S640000 [] [0] [0] 1) : ScatterDims S20000 S640000x1 S640000 :=
  { updateWindowDims := [], insertedWindowDims := [0], scatterDimsToOperandDims := [0], indexVectorDim := 1, wf := wf }

section
variable (wf : ScatterDims.WF S20000 S640000x1 S640000 [] [0] [0] 1) {w : Nat} (idx : IVec S640000x1 w) (e : Fin 640000)

theorem sd1_start0 : (sd1 wf).start (ix1 e) idx 0 = (idx (ix2 e 0)).toInt := by
  unfold ScatterDims.start
  rw [dif_pos (show (0 : Fin 1) ∈ (sd1 wf).scatterDimsToOperandDims from List.mem_singleton.mpr rfl)]
  have hsi : (sd1 wf).siIdx (ix1 e) ⟨List.idxOf (0 : Fin 1) (sd1 wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  exact congrArg (fun t => (idx t).toInt) hsi

theorem sd1_window0 : (sd1 wf).window (ix1 e) 0 = 0 := by
  unfold ScatterDims.window
  have hn : ¬ (0 : Fin 1) ∈ (sd1 wf).sKept := (by decide : ¬ (0 : Fin 1) ∈ S20000.kept ([0] : List (Fin 1)))
  rw [dif_neg hn]

theorem sd1_resultIdx_iff (p : Fin 20000) :
    (sd1 wf).resultIdx? (ix1 e) idx = some (ix1 p) ↔ (idx (ix2 e 0)).toInt = (p.val : ℤ) := by
  unfold ScatterDims.resultIdx?
  have i0 : p.val < 20000 := p.isLt
  constructor
  · intro he
    split at he
    · rename_i h
      have he' := Option.some.inj he
      have e0 : ((sd1 wf).start (ix1 e) idx 0 + (((sd1 wf).window (ix1 e) 0 : ℕ) : ℤ)).toNat = p.val :=
        congrArg (fun f => (f 0).val) he'
      have h0 : 0 ≤ (sd1 wf).start (ix1 e) idx 0 + (((sd1 wf).window (ix1 e) 0 : ℕ) : ℤ) := (h 0).1
      rw [sd1_start0, sd1_window0] at e0 h0
      omega
    · exact absurd he (by simp)
  · intro e0
    have h : ∀ a, 0 ≤ (sd1 wf).start (ix1 e) idx a + (sd1 wf).window (ix1 e) a
        ∧ (sd1 wf).start (ix1 e) idx a + (sd1 wf).window (ix1 e) a < S20000.size a := by
      intro a
      match a with
      | ⟨0, _⟩ =>
        show 0 ≤ (sd1 wf).start (ix1 e) idx 0 + (((sd1 wf).window (ix1 e) 0 : ℕ) : ℤ)
          ∧ (sd1 wf).start (ix1 e) idx 0 + (((sd1 wf).window (ix1 e) 0 : ℕ) : ℤ) < ((20000 : ℕ) : ℤ)
        rw [sd1_start0, sd1_window0, e0]; omega
    rw [dif_pos h]
    congr 1
    funext a
    refine Fin.ext ?_
    match a with
    | ⟨0, _⟩ =>
      show ((sd1 wf).start (ix1 e) idx 0 + (((sd1 wf).window (ix1 e) 0 : ℕ) : ℤ)).toNat = p.val
      rw [sd1_start0, sd1_window0, e0]; omega

end

theorem sd1_apply (wf : ScatterDims.WF S20000 S640000x1 S640000 [] [0] [0] 1) {w : Nat} (idx : IVec S640000x1 w)
    (x : S20000.Idx → EReal) (upd : S640000.Idx → EReal) (p : Fin 20000) :
    Ideal.hostScatterAdd (sd1 wf) x idx upd (ix1 p)
      = x (ix1 p) + ∑ e ∈ Finset.univ.filter (fun e : Fin 640000 => (idx (ix2 e 0)).toInt = (p.val : ℤ)), upd (ix1 e) := by
  unfold Ideal.hostScatterAdd
  show x (ix1 p) + _ = x (ix1 p) + _
  refine congrArg (fun t => x (ix1 p) + t) ?_
  rw [Finset.sum_filter, Finset.sum_filter, ← Equiv.sum_comp (idxEquiv1 (n := 640000)).symm]
  refine Finset.sum_congr rfl fun e _ => ?_
  show (if (sd1 wf).resultIdx? (ix1 e) idx = some (ix1 p) then upd (ix1 e) else 0) = _
  simp only [sd1_resultIdx_iff wf idx e p]

theorem scatter_vec {w : Nat} (d : ScatterDims S20000 S640000x1 S640000)
    (h1 : d.updateWindowDims = []) (h2 : d.insertedWindowDims = [0]) (h3 : d.scatterDimsToOperandDims = [0])
    (h4 : d.indexVectorDim = 1) (idx : IVec S640000x1 w)
    (x : S20000.Idx → EReal) (upd : S640000.Idx → EReal) (p : Fin 20000) :
    Ideal.hostScatterAdd d x idx upd (ix1 p)
      = x (ix1 p) + ∑ e ∈ Finset.univ.filter (fun e : Fin 640000 => (idx (ix2 e 0)).toInt = (p.val : ℤ)), upd (ix1 e) := by
  obtain ⟨uw, iw, sdo, ivd, wf⟩ := d
  simp only at h1 h2 h3 h4
  subst h1 h2 h3 h4
  exact sd1_apply wf idx x upd p

theorem one_f32 : Ideal.ofBits .f32 0x3F800000#32 = 1 := by
  simp [Ideal.ofBits, Ideal.ieee, -EReal.coe_mul]; norm_num

theorem guarded_recip (d : EReal) :
    Scalar.select (FloatOps.cmpf (F := Ideal) (φ := .f32) .ogt d (FloatOps.ofBits .f32 0x00000000#32))
        (FloatOps.hostDivf (F := Ideal) (φ := .f32) (FloatOps.ofBits .f32 0x3F800000#32)
          (FloatOps.maximumf d (FloatOps.ofBits .f32 0x3F800000#32)))
        (FloatOps.ofBits (F := Ideal) .f32 0x00000000#32)
      = if 0 < d then Ideal.div 1 (max d 1) else 0 := by
  show Scalar.select (Ideal.cmp .ogt d (Ideal.ofBits .f32 0x00000000#32))
      (Ideal.div (Ideal.ofBits .f32 0x3F800000#32) (max d (Ideal.ofBits .f32 0x3F800000#32)))
      (Ideal.ofBits .f32 0x00000000#32) = _
  rw [Ideal.ofBits_zero_f32, one_f32]
  unfold Scalar.select Ideal.cmp
  by_cases hd : 0 < d
  · rw [if_pos hd]
    show (if BitVec.ofBool (decide (0 < d)) = 1 then Ideal.div 1 (max d 1) else 0) = _
    rw [decide_eq_true hd]; rfl
  · rw [if_neg hd]
    show (if BitVec.ofBool (decide (0 < d)) = 1 then Ideal.div 1 (max d 1) else 0) = _
    rw [decide_eq_false hd]; rfl

theorem wrap_nonneg (s c : BitVec 32) (h : 0 ≤ s.toInt) :
    Scalar.select (IntOp.cmpi .slt s 0#32) c s = s := by
  have hlt : s.slt 0#32 = false := by
    simp only [BitVec.slt, BitVec.toInt_zero]
    exact decide_eq_false (by omega)
  show (if BitVec.ofBool (s.slt 0#32) = 1 then c else s) = s
  rw [hlt]
  rfl

theorem clamp_node (s : BitVec 32) (h0 : 0 ≤ s.toInt) (h1 : s.toInt < 20000) :
    min s.toInt.toNat 19999 = s.toNat % 20000 := by
  have hc := BitVec.toInt_eq_toNat_cond s
  have hl := s.isLt
  split_ifs at hc <;> omega

section
variable (x1 : (⟨S2x640000, .i32⟩ : BufTy).Contents (Elt Ideal))

theorem src_read (e : Fin 640000) : val_main_v1 (F := Ideal) x1 (ix1 e) = Spec.edge x1 0 e := by
  rw [val_main_v1_apply, val_main_v0_apply]
  unfold Spec.edge
  congr 1
  funext a
  match a with
  | ⟨0, _⟩ => rfl
  | ⟨1, _⟩ => exact Fin.ext (Nat.mod_eq_of_lt e.isLt)

theorem tgt_read (e : Fin 640000) : val_main_v3 (F := Ideal) x1 (ix1 e) = Spec.edge x1 1 e := by
  rw [val_main_v3_apply, val_main_v2_apply]
  unfold Spec.edge
  congr 1
  funext a
  match a with
  | ⟨0, _⟩ => rfl
  | ⟨1, _⟩ => exact Fin.ext (Nat.mod_eq_of_lt e.isLt)

theorem norm_read (hsrc : Spec.SrcInRange x1) (e : Fin 640000) (c : BitVec 32) :
    Scalar.select (IntOp.cmpi .slt (val_main_v1 (F := Ideal) x1 (ix1 e)) 0#32) c (val_main_v1 (F := Ideal) x1 (ix1 e))
      = Spec.edge x1 0 e := by
  rw [src_read]
  exact wrap_nonneg _ _ (hsrc e).1

theorem tgt6 (e : Fin 640000) : val_main_v6 (F := Ideal) x1 (ix2 e 0) = Spec.edge x1 1 e := by
  rw [val_main_v6_apply]
  have hi : idx_main_v6 (ix2 e 0) = ix1 e := by idx1
  rw [hi]
  exact tgt_read x1 e

theorem tgt28 (e : Fin 640000) : val_main_v28 (F := Ideal) x1 (ix2 e 0) = Spec.edge x1 1 e := by
  rw [val_main_v28_apply]
  have hi : idx_main_v28 (ix2 e 0) = ix1 e := by idx1
  rw [hi]
  exact tgt_read x1 e

theorem tgt48 (e : Fin 640000) : val_main_v48 (F := Ideal) x1 (ix2 e 0) = Spec.edge x1 1 e := by
  rw [val_main_v48_apply]
  have hi : idx_main_v48 (ix2 e 0) = ix1 e := by idx1
  rw [hi]
  exact tgt_read x1 e

theorem tgt68 (e : Fin 640000) : val_main_v68 (F := Ideal) x1 (ix2 e 0) = Spec.edge x1 1 e := by
  rw [val_main_v68_apply]
  have hi : idx_main_v68 (ix2 e 0) = ix1 e := by idx1
  rw [hi]
  exact tgt_read x1 e

theorem src25 (hsrc : Spec.SrcInRange x1) (e : Fin 640000) :
    val_main_v25 (F := Ideal) x1 (ix2 e 0) = Spec.edge x1 0 e := by
  rw [val_main_v25_apply]
  have hi : idx_main_v25 (ix2 e 0) = ix1 e := by idx1
  rw [hi, val_main_v24_apply, val_main_v21_apply, val_main_v20_apply, val_main_c_apply]
  exact norm_read x1 hsrc e _

theorem src45 (hsrc : Spec.SrcInRange x1) (e : Fin 640000) :
    val_main_v45 (F := Ideal) x1 (ix2 e 0) = Spec.edge x1 0 e := by
  rw [val_main_v45_apply]
  have hi : idx_main_v45 (ix2 e 0) = ix1 e := by idx1
  rw [hi, val_main_v44_apply, val_main_v41_apply, val_main_v40_apply, val_main_c_7_apply]
  exact norm_read x1 hsrc e _

theorem src65 (hsrc : Spec.SrcInRange x1) (e : Fin 640000) :
    val_main_v65 (F := Ideal) x1 (ix2 e 0) = Spec.edge x1 0 e := by
  rw [val_main_v65_apply]
  have hi : idx_main_v65 (ix2 e 0) = ix1 e := by idx1
  rw [hi, val_main_v64_apply, val_main_v61_apply, val_main_v60_apply, val_main_c_10_apply]
  exact norm_read x1 hsrc e _

theorem deg_read (n : Fin 20000) : val_main_v7 (F := Ideal) x1 (ix1 n) = Spec.deg x1 n := by
  unfold val_main_v7
  show Ideal.hostScatterAdd scatter_S20000_S640000x1_S640000_n_0_0_1 (val_main_v5 (F := Ideal)) (val_main_v6 (F := Ideal) x1)
    (val_main_v4 (F := Ideal)) (ix1 n) = _
  rw [scatter_vec _ rfl rfl rfl rfl, val_main_v5_apply, val_main_cst_0_apply]
  show Ideal.ofBits .f32 0x00000000#32 + _ = _
  rw [Ideal.ofBits_zero_f32, zero_add]
  unfold Spec.deg Spec.into
  simp only [tgt6]
  refine Finset.sum_congr rfl fun e _ => ?_
  rw [val_main_v4_apply, val_main_cst_apply]
  exact one_f32

theorem dinv_read (n : Fin 20000) : val_main_v14 (F := Ideal) x1 (ix1 n) = Spec.dinv x1 n := by
  rw [val_main_v14_apply, val_main_v9_apply, val_main_v13_apply, val_main_v11_apply, deg_read,
    val_main_v8_apply, val_main_cst_1_apply, val_main_v12_apply, val_main_cst_3_apply,
    val_main_v10_apply, val_main_cst_2_apply, val_main_call0_v1_apply, val_main_call0_v0_apply, val_main_cst_4_apply]
  unfold Spec.dinv
  generalize Spec.deg x1 n = d
  exact guarded_recip d

theorem dinv31 (p : Fin 20000) (q : Fin 128) : val_main_v31 (F := Ideal) x1 (ix2 p q) = Spec.dinv x1 p := by
  rw [val_main_v31_apply, val_main_v30_apply]
  have hi : idx_main_v30 (idx_main_v31 (ix2 p q)) = ix1 p := by idx1
  rw [hi]
  exact dinv_read x1 p

theorem dinv51 (p : Fin 20000) (q : Fin 128) : val_main_v51 (F := Ideal) x1 (ix2 p q) = Spec.dinv x1 p := by
  rw [val_main_v51_apply, val_main_v50_apply]
  have hi : idx_main_v50 (idx_main_v51 (ix2 p q)) = ix1 p := by idx1
  rw [hi]
  exact dinv_read x1 p

theorem dinv71 (p : Fin 20000) (q : Fin 128) : val_main_v71 (F := Ideal) x1 (ix2 p q) = Spec.dinv x1 p := by
  rw [val_main_v71_apply, val_main_v70_apply]
  have hi : idx_main_v70 (idx_main_v71 (ix2 p q)) = ix1 p := by idx1
  rw [hi]
  exact dinv_read x1 p

end

theorem agg_of (x1 : (⟨S2x640000, .i32⟩ : BufTy).Contents (Elt Ideal)) (hsrc : Spec.SrcInRange x1) (xt z : FVec Ideal S20000x128 .f32)
    (tgt srcn : IVec S640000x1 32) (hz : ∀ i, z i = 0) (ht : ∀ e, tgt (ix2 e 0) = Spec.edge x1 1 e)
    (hs : ∀ e, srcn (ix2 e 0) = Spec.edge x1 0 e) (p : Fin 20000) (q : Fin 128) :
    Host.scatterAdd (F := Ideal) (φ := .f32) scatter_S20000x128_S640000x1_S640000x128_1_0_0_1 z tgt
        (Host.gather gather_S20000x128_S640000x1_S640000x128_1_0_n_n_0_1_1128 xt srcn) (ix2 p q)
      = Spec.agg xt x1 (ix2 p q) := by
  show Ideal.hostScatterAdd scatter_S20000x128_S640000x1_S640000x128_1_0_0_1 z tgt (Host.gather gather_S20000x128_S640000x1_S640000x128_1_0_n_n_0_1_1128 xt srcn) (ix2 p q) = _
  rw [scatter_rows _ rfl rfl rfl rfl, hz, zero_add]
  unfold Spec.agg Spec.into
  simp only [ht]
  refine Finset.sum_congr rfl fun e _ => ?_
  rw [gather_rows _ rfl rfl rfl rfl rfl rfl rfl]
  have hn : (⟨min (srcn (ix2 e 0)).toInt.toNat 19999, by omega⟩ : Fin 20000) = Spec.node (Spec.edge x1 0 e) :=
    Fin.ext (by
      show min (srcn (ix2 e 0)).toInt.toNat 19999 = (Spec.edge x1 0 e).toNat % 20000
      rw [hs]
      exact clamp_node _ (hsrc e).1 (hsrc e).2)
  rw [hn]

theorem layer_of (x1 : (⟨S2x640000, .i32⟩ : BufTy).Contents (Elt Ideal)) (xin : FVec Ideal S20000x128 .f32) (W : FVec Ideal S128x128 .f32) (b : FVec Ideal S128 .f32)
    (xt aggv dv z2 : FVec Ideal S20000x128 .f32) (hxt : xt = Spec.lin xin W b)
    (hagg : ∀ p q, aggv (ix2 p q) = Spec.agg xt x1 (ix2 p q)) (hdv : ∀ p q, dv (ix2 p q) = Spec.dinv x1 p)
    (hz2 : ∀ i, z2 i = 0) (p : Fin 20000) (q : Fin 128) :
    FloatOps.addf (FloatOps.maximumf (FloatOps.mulf (aggv (ix2 p q)) (dv (ix2 p q))) (z2 (ix2 p q))) (xt (ix2 p q))
      = Spec.layer xin W b x1 (ix2 p q) := by
  rw [hagg, hdv, hz2, hxt]
  rfl

section
variable (x0 : (⟨S20000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal))

theorem lin1 : val_main_v19 (F := Ideal) x0 x2 x3 = Spec.lin x0 x2 x3 := by
  funext i
  obtain ⟨p, q, rfl⟩ : ∃ (p : Fin 20000) (q : Fin 128), i = ix2 p q := ⟨i 0, i 1, eq_ix2 i⟩
  rw [val_main_v19_apply, val_main_v16_apply, val_main_v18_apply, val_main_v17_apply]
  have hb : idx_main_v17 (idx_main_v18 (ix2 p q)) = ix1 q := by idx1
  rw [hb]
  show (∑ k : Fin 128, x0 (lidx_main_v16 (ix2 p q) k) * val_main_v15 (F := Ideal) x2 (ridx_main_v16 (ix2 p q) k))
      + x3 (ix1 q) = (∑ k : Fin 128, x0 (ix2 p k) * x2 (ix2 q k)) + x3 (ix1 q)
  refine congrArg (fun t => t + x3 (ix1 q)) (Finset.sum_congr rfl fun k _ => ?_)
  rw [val_main_v15_apply]
  have hl : lidx_main_v16 (ix2 p q) k = ix2 p k := by idx2
  have hr : idx_main_v15 (ridx_main_v16 (ix2 p q) k) = ix2 q k := by idx2
  rw [hl, hr]

theorem layer1 (hsrc : Spec.SrcInRange x1) :
    val_main_v34 (F := Ideal) x0 x1 x2 x3 = Spec.layer x0 x2 x3 x1 := by
  funext i
  obtain ⟨p, q, rfl⟩ : ∃ (p : Fin 20000) (q : Fin 128), i = ix2 p q := ⟨i 0, i 1, eq_ix2 i⟩
  rw [val_main_v34_apply, val_main_v33_apply, val_main_v32_apply]
  refine layer_of x1 x0 x2 x3 (val_main_v19 (F := Ideal) x0 x2 x3) (val_main_v29 (F := Ideal) x0 x1 x2 x3)
    (val_main_v31 (F := Ideal) x1) (val_main_call1_v0 (F := Ideal)) (lin1 x0 x2 x3) ?_ (dinv31 x1) ?_ p q
  · intro p q
    exact agg_of x1 hsrc (val_main_v19 (F := Ideal) x0 x2 x3) (val_main_v27 (F := Ideal)) (val_main_v28 (F := Ideal) x1)
      (val_main_v25 (F := Ideal) x1)
      (fun i => by rw [val_main_v27_apply, val_main_cst_6_apply]; exact Ideal.ofBits_zero_f32)
      (tgt28 x1) (src25 x1 hsrc) p q
  · intro i
    rw [val_main_call1_v0_apply, val_main_call1_cst_apply]
    exact Ideal.ofBits_zero_f32

end

section
variable (x0 : (⟨S20000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))

theorem lin2 : val_main_v39 (F := Ideal) x0 x1 x2 x3 x4 x5 = Spec.lin (val_main_v34 (F := Ideal) x0 x1 x2 x3) x4 x5 := by
  funext i
  obtain ⟨p, q, rfl⟩ : ∃ (p : Fin 20000) (q : Fin 128), i = ix2 p q := ⟨i 0, i 1, eq_ix2 i⟩
  rw [val_main_v39_apply, val_main_v36_apply, val_main_v38_apply, val_main_v37_apply]
  have hb : idx_main_v37 (idx_main_v38 (ix2 p q)) = ix1 q := by idx1
  rw [hb]
  show (∑ k : Fin 128, (val_main_v34 (F := Ideal) x0 x1 x2 x3) (lidx_main_v36 (ix2 p q) k) * val_main_v35 (F := Ideal) x4 (ridx_main_v36 (ix2 p q) k))
      + x5 (ix1 q) = (∑ k : Fin 128, (val_main_v34 (F := Ideal) x0 x1 x2 x3) (ix2 p k) * x4 (ix2 q k)) + x5 (ix1 q)
  refine congrArg (fun t => t + x5 (ix1 q)) (Finset.sum_congr rfl fun k _ => ?_)
  rw [val_main_v35_apply]
  have hl : lidx_main_v36 (ix2 p q) k = ix2 p k := by idx2
  have hr : idx_main_v35 (ridx_main_v36 (ix2 p q) k) = ix2 q k := by idx2
  rw [hl, hr]

theorem layer2 (hsrc : Spec.SrcInRange x1) :
    val_main_v54 (F := Ideal) x0 x1 x2 x3 x4 x5 = Spec.layer (val_main_v34 (F := Ideal) x0 x1 x2 x3) x4 x5 x1 := by
  funext i
  obtain ⟨p, q, rfl⟩ : ∃ (p : Fin 20000) (q : Fin 128), i = ix2 p q := ⟨i 0, i 1, eq_ix2 i⟩
  rw [val_main_v54_apply, val_main_v53_apply, val_main_v52_apply]
  refine layer_of x1 (val_main_v34 (F := Ideal) x0 x1 x2 x3) x4 x5 (val_main_v39 (F := Ideal) x0 x1 x2 x3 x4 x5) (val_main_v49 (F := Ideal) x0 x1 x2 x3 x4 x5)
    (val_main_v51 (F := Ideal) x1) (val_main_call2_v0 (F := Ideal)) (lin2 x0 x1 x2 x3 x4 x5) ?_ (dinv51 x1) ?_ p q
  · intro p q
    exact agg_of x1 hsrc (val_main_v39 (F := Ideal) x0 x1 x2 x3 x4 x5) (val_main_v47 (F := Ideal)) (val_main_v48 (F := Ideal) x1)
      (val_main_v45 (F := Ideal) x1)
      (fun i => by rw [val_main_v47_apply, val_main_cst_9_apply]; exact Ideal.ofBits_zero_f32)
      (tgt48 x1) (src45 x1 hsrc) p q
  · intro i
    rw [val_main_call2_v0_apply, val_main_call2_cst_apply]
    exact Ideal.ofBits_zero_f32

end

section
variable (x0 : (⟨S20000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))

theorem lin3 : val_main_v59 (F := Ideal) x0 x1 x2 x3 x4 x5 x6 x7 = Spec.lin (val_main_v54 (F := Ideal) x0 x1 x2 x3 x4 x5) x6 x7 := by
  funext i
  obtain ⟨p, q, rfl⟩ : ∃ (p : Fin 20000) (q : Fin 128), i = ix2 p q := ⟨i 0, i 1, eq_ix2 i⟩
  rw [val_main_v59_apply, val_main_v56_apply, val_main_v58_apply, val_main_v57_apply]
  have hb : idx_main_v57 (idx_main_v58 (ix2 p q)) = ix1 q := by idx1
  rw [hb]
  show (∑ k : Fin 128, (val_main_v54 (F := Ideal) x0 x1 x2 x3 x4 x5) (lidx_main_v56 (ix2 p q) k) * val_main_v55 (F := Ideal) x6 (ridx_main_v56 (ix2 p q) k))
      + x7 (ix1 q) = (∑ k : Fin 128, (val_main_v54 (F := Ideal) x0 x1 x2 x3 x4 x5) (ix2 p k) * x6 (ix2 q k)) + x7 (ix1 q)
  refine congrArg (fun t => t + x7 (ix1 q)) (Finset.sum_congr rfl fun k _ => ?_)
  rw [val_main_v55_apply]
  have hl : lidx_main_v56 (ix2 p q) k = ix2 p k := by idx2
  have hr : idx_main_v55 (ridx_main_v56 (ix2 p q) k) = ix2 q k := by idx2
  rw [hl, hr]

theorem layer3 (hsrc : Spec.SrcInRange x1) :
    val_main_v74 (F := Ideal) x0 x1 x2 x3 x4 x5 x6 x7 = Spec.layer (val_main_v54 (F := Ideal) x0 x1 x2 x3 x4 x5) x6 x7 x1 := by
  funext i
  obtain ⟨p, q, rfl⟩ : ∃ (p : Fin 20000) (q : Fin 128), i = ix2 p q := ⟨i 0, i 1, eq_ix2 i⟩
  rw [val_main_v74_apply, val_main_v73_apply, val_main_v72_apply]
  refine layer_of x1 (val_main_v54 (F := Ideal) x0 x1 x2 x3 x4 x5) x6 x7 (val_main_v59 (F := Ideal) x0 x1 x2 x3 x4 x5 x6 x7) (val_main_v69 (F := Ideal) x0 x1 x2 x3 x4 x5 x6 x7)
    (val_main_v71 (F := Ideal) x1) (val_main_call3_v0 (F := Ideal)) (lin3 x0 x1 x2 x3 x4 x5 x6 x7) ?_ (dinv71 x1) ?_ p q
  · intro p q
    exact agg_of x1 hsrc (val_main_v59 (F := Ideal) x0 x1 x2 x3 x4 x5 x6 x7) (val_main_v67 (F := Ideal)) (val_main_v68 (F := Ideal) x1)
      (val_main_v65 (F := Ideal) x1)
      (fun i => by rw [val_main_v67_apply, val_main_cst_12_apply]; exact Ideal.ofBits_zero_f32)
      (tgt68 x1) (src65 x1 hsrc) p q
  · intro i
    rw [val_main_call3_v0_apply, val_main_call3_cst_apply]
    exact Ideal.ofBits_zero_f32

end

theorem result_eq (x0 : (⟨S20000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (hsrc : Spec.SrcInRange x1) :
    val_main_v74 (F := Ideal) x0 x1 x2 x3 x4 x5 x6 x7 = Spec.gcn x0 x1 x2 x3 x4 x5 x6 x7 := by
  rw [layer3 x0 x1 x2 x3 x4 x5 x6 x7 hsrc, layer2 x0 x1 x2 x3 x4 x5 hsrc, layer1 x0 x1 x2 x3 hsrc]
  rfl

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v74)
          = val_main_v74 (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (val_main_v74_eq m c), (h c).2⟩)
    (Cert.ReferenceIdeal.Value.run (F := Ideal) m ρ)

end Cert.RefSide

end
-- ==== Proof.lean ====
import proofs.«408425_j84189948936514_2_alg».proof.Defs
import proofs.«408425_j84189948936514_2_alg».proof.Proof.Gen.Kernel
import proofs.«408425_j84189948936514_2_alg».proof.Proof.Gen.KernelIdeal
import proofs.«408425_j84189948936514_2_alg».proof.Proof.Gen.ReferenceIdeal
import proofs.«408425_j84189948936514_2_alg».proof.Proof.Gen.Pre_finite_inputs
import proofs.«408425_j84189948936514_2_alg».proof.Proof.KB.Run
import proofs.«408425_j84189948936514_2_alg».proof.Proof.KI.Value
import proofs.«408425_j84189948936514_2_alg».proof.Proof.RefValue
import proofs.«408425_j84189948936514_2_alg».proof.Proof.PreFacts
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame_of_outs (F := Bits) m ρ (Cert.Kernel.Gen.outsC m) (Cert.Kernel.Gen.good m)

theorem frame_ki : Cert.frame_KernelIdeal (hKernelIdeal := Cert.KernelIdeal.Gen.facts) (hPre_finite_inputs := Cert.Pre_finite_inputs.Gen.facts) :=
  fun m ρ _ => Cert.KernelIdeal.Gen.frame_of_outs (F := Ideal) m ρ (Cert.KernelIdeal.Gen.outsC m) (Cert.KernelIdeal.Gen.good m)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V16 m (Cert.KernelIdeal.Gen.outsC m) c Cert.KernelIdeal.main_v78, ?_, ?_⟩
  · refine (θ_run Cert.KernelIdeal.defs _ _).mono (fun _ h c => ?_)
      (Cert.KernelIdeal.Gen.run_all (F := Ideal) m ρ (Cert.KernelIdeal.Gen.outsC m) (Cert.KernelIdeal.Gen.good m))
    exact ⟨h c _ (Cert.KernelIdeal.Gen.mem_uc Cert.KernelIdeal.main_v78 (by decide)),
      (h c _ (Cert.KernelIdeal.Gen.mem_uc Cert.KernelIdeal.main_arg0 (by decide))).trans (Cert.KernelIdeal.Gen.V16_main_arg0 m _ c),
      (h c _ (Cert.KernelIdeal.Gen.mem_uc Cert.KernelIdeal.main_arg1 (by decide))).trans (Cert.KernelIdeal.Gen.V16_main_arg1 m _ c),
      (h c _ (Cert.KernelIdeal.Gen.mem_uc Cert.KernelIdeal.main_arg2 (by decide))).trans (Cert.KernelIdeal.Gen.V16_main_arg2 m _ c),
      (h c _ (Cert.KernelIdeal.Gen.mem_uc Cert.KernelIdeal.main_arg3 (by decide))).trans (Cert.KernelIdeal.Gen.V16_main_arg3 m _ c),
      (h c _ (Cert.KernelIdeal.Gen.mem_uc Cert.KernelIdeal.main_arg4 (by decide))).trans (Cert.KernelIdeal.Gen.V16_main_arg4 m _ c),
      (h c _ (Cert.KernelIdeal.Gen.mem_uc Cert.KernelIdeal.main_arg5 (by decide))).trans (Cert.KernelIdeal.Gen.V16_main_arg5 m _ c),
      (h c _ (Cert.KernelIdeal.Gen.mem_uc Cert.KernelIdeal.main_arg6 (by decide))).trans (Cert.KernelIdeal.Gen.V16_main_arg6 m _ c),
      (h c _ (Cert.KernelIdeal.Gen.mem_uc Cert.KernelIdeal.main_arg7 (by decide))).trans (Cert.KernelIdeal.Gen.V16_main_arg7 m _ c)⟩
  · refine (θ_run Cert.ReferenceIdeal.defs _ _).mono (fun _ h c => ⟨(h c).1.trans ?_, (h c).2⟩)
      (Cert.RefSide.run m' ρ')
    have hk := Cert.KernelIdeal.Gen.kernel_value_pre m c hpre
    obtain ⟨a0, a1, a2, a3, a4, a5, a6, a7⟩ := hagree c
    obtain ⟨hsrc, -⟩ := Cert.PreSide.of_pre _ _ _ _ _ _ _ _ (hpre c)
    rw [a0, a1, a2, a3, a4, a5, a6, a7]
    exact (Cert.RefSide.result_eq _ _ _ _ _ _ _ _ hsrc).trans hk.symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
